-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x2048x1024 : Shape := ⟨3, ![1, 2048, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel

variable [Facts]

def fn {F : FTy → Type} [FloatOps F] (main_arg0 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  main_v3
-- ==== Pre_finite_inputs_ReferenceIdeal.lean ====
abbrev S2x2048x1024 : Shape := ⟨3, ![2, 2048, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  main_v3
-- ==== Kernel.lean ====
abbrev S1x2048x1024 : Shape := ⟨3, ![1, 2048, 1024]⟩
abbrev S2048x512 : Shape := ⟨2, ![2048, 512]⟩
abbrev S512x512 : Shape := ⟨2, ![512, 512]⟩
abbrev S8 : Shape := ⟨1, ![8]⟩
abbrev S4 : Shape := ⟨1, ![4]⟩
abbrev S_ : Shape := ⟨0, ![]⟩
abbrev S1x64x512 : Shape := ⟨3, ![1, 64, 512]⟩
abbrev S64x512 : Shape := ⟨2, ![64, 512]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1x2048x1024, .f32⟩
  | .hbm, ⟨1, _⟩ => ⟨S2048x512, .bf16⟩
  | .local _ .vmem, ⟨0, _⟩ => ⟨S1x2048x1024, .f32⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v32 : BitVec 32 := Scalar.muli v2 c4_i32_21
  let v33 : BitVec 32 := Scalar.addi c0_i32 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v34 : BitVec 32 := Scalar.muli v5 c2_i32_22
  let v35 : BitVec 32 := Scalar.addi v33 v34
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_23 : BitVec 32 := 1#32
  let v36 : BitVec 32 := Scalar.muli v9 c1_i32_23
  let v37 : BitVec 32 := Scalar.addi v35 v36
  v37.toNat
def k0_dev2 (d0 : Dev nD) : Nat :=
  let c0_i32_26 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_25 : BitVec 32 := 4#32
  let v38 : BitVec 32 := Scalar.muli v10 c4_i32_25
  let v39 : BitVec 32 := Scalar.addi c0_i32_26 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v40 : BitVec 32 := Scalar.muli v5 c2_i32_27
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v42 : BitVec 32 := Scalar.muli v8 c1_i32_28
  let v43 : BitVec 32 := Scalar.addi v41 v42
  v43.toNat
def k0_dev3 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v44 : BitVec 32 := Scalar.muli v2 c4_i32_30
  let v45 : BitVec 32 := Scalar.addi c0_i32_31 v44
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_32 : BitVec 32 := 2#32
  let v46 : BitVec 32 := Scalar.muli v11 c2_i32_32
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v48 : BitVec 32 := Scalar.muli v8 c1_i32_33
  let v49 : BitVec 32 := Scalar.addi v47 v48
  v49.toNat
def k0_off1 (d0 : Dev nD) (c256_i32 : BitVec 32) : Fin 3 → Nat :=
  let c0 : Index := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32 : BitVec 32 := 512#32
  let v14 : BitVec 32 := Scalar.muli v13 c512_i32
  let v50 : BitVec 32 := Scalar.addi v14 c256_i32
  let v51 : Index := Scalar.indexCast v50
  let c1_i32_18 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_18 v8
  let c512_i32_19 : BitVec 32 := 512#32
  let v30 : BitVec 32 := Scalar.muli v29 c512_i32_19
  let v52 : Index := Scalar.indexCast v30
  ![0, v51.toNat, v52.toNat]
def k0_dev4 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v59 : BitVec 32 := Scalar.muli v2 c4_i32_37
  let v60 : BitVec 32 := Scalar.addi c0_i32_38 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v61 : BitVec 32 := Scalar.muli v5 c2_i32_39
  let v62 : BitVec 32 := Scalar.addi v60 v61
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_40 : BitVec 32 := 1#32
  let v63 : BitVec 32 := Scalar.muli v9 c1_i32_40
  let v64 : BitVec 32 := Scalar.addi v62 v63
  v64.toNat
def k0_dev5 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v80 : BitVec 32 := Scalar.muli v2 c4_i32_51
  let v81 : BitVec 32 := Scalar.addi c0_i32_52 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v82 : BitVec 32 := Scalar.muli v5 c2_i32_53
  let v83 : BitVec 32 := Scalar.addi v81 v82
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_54 : BitVec 32 := 1#32
  let v84 : BitVec 32 := Scalar.muli v9 c1_i32_54
  let v85 : BitVec 32 := Scalar.addi v83 v84
  v85.toNat
def k0_dev6 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_62 : BitVec 32 := 4#32
  let v101 : BitVec 32 := Scalar.muli v2 c4_i32_62
  let v102 : BitVec 32 := Scalar.addi c0_i32_63 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v103 : BitVec 32 := Scalar.muli v5 c2_i32_64
  let v104 : BitVec 32 := Scalar.addi v102 v103
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_65 : BitVec 32 := 1#32
  let v105 : BitVec 32 := Scalar.muli v9 c1_i32_65
  let v106 : BitVec 32 := Scalar.addi v104 v105
  v106.toNat
def k0_dev7 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v122 : BitVec 32 := Scalar.muli v2 c4_i32_74
  let v123 : BitVec 32 := Scalar.addi c0_i32_75 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v124 : BitVec 32 := Scalar.muli v5 c2_i32_76
  let v125 : BitVec 32 := Scalar.addi v123 v124
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_77 : BitVec 32 := 1#32
  let v126 : BitVec 32 := Scalar.muli v9 c1_i32_77
  let v127 : BitVec 32 := Scalar.addi v125 v126
  v127.toNat
def k0_dev8 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v143 : BitVec 32 := Scalar.muli v2 c4_i32_85
  let v144 : BitVec 32 := Scalar.addi c0_i32_86 v143
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v145 : BitVec 32 := Scalar.muli v5 c2_i32_87
  let v146 : BitVec 32 := Scalar.addi v144 v145
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_88 : BitVec 32 := 1#32
  let v147 : BitVec 32 := Scalar.muli v9 c1_i32_88
  let v148 : BitVec 32 := Scalar.addi v146 v147
  v148.toNat
def k0_dev9 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v164 : BitVec 32 := Scalar.muli v2 c4_i32_97
  let v165 : BitVec 32 := Scalar.addi c0_i32_98 v164
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v166 : BitVec 32 := Scalar.muli v5 c2_i32_99
  let v167 : BitVec 32 := Scalar.addi v165 v166
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_100 : BitVec 32 := 1#32
  let v168 : BitVec 32 := Scalar.muli v9 c1_i32_100
  let v169 : BitVec 32 := Scalar.addi v167 v168
  v169.toNat
def k0_dev10 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_108 : BitVec 32 := 4#32
  let v185 : BitVec 32 := Scalar.muli v2 c4_i32_108
  let v186 : BitVec 32 := Scalar.addi c0_i32_109 v185
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v187 : BitVec 32 := Scalar.muli v5 c2_i32_110
  let v188 : BitVec 32 := Scalar.addi v186 v187
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_111 : BitVec 32 := 1#32
  let v189 : BitVec 32 := Scalar.muli v9 c1_i32_111
  let v190 : BitVec 32 := Scalar.addi v188 v189
  v190.toNat
def k0_dev11 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_120 : BitVec 32 := 4#32
  let v206 : BitVec 32 := Scalar.muli v2 c4_i32_120
  let v207 : BitVec 32 := Scalar.addi c0_i32_121 v206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_122 : BitVec 32 := 2#32
  let v208 : BitVec 32 := Scalar.muli v5 c2_i32_122
  let v209 : BitVec 32 := Scalar.addi v207 v208
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_123 : BitVec 32 := 1#32
  let v210 : BitVec 32 := Scalar.muli v9 c1_i32_123
  let v211 : BitVec 32 := Scalar.addi v209 v210
  v211.toNat
def k0_off2 (d0 : Dev nD) (c256_i32_128 : BitVec 32) : Fin 3 → Nat :=
  let c0_139 : Index := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32 : BitVec 32 := 512#32
  let v14 : BitVec 32 := Scalar.muli v13 c512_i32
  let v218 : BitVec 32 := Scalar.addi v14 c256_i32_128
  let v229 : Index := Scalar.indexCast v218
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_17 : BitVec 32 := 512#32
  let v28 : BitVec 32 := Scalar.muli v8 c512_i32_17
  let v230 : Index := Scalar.indexCast v28
  ![0, v229.toNat, v230.toNat]
def k0_off3 (d0 : Dev nD) (c256_i32_128 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32 : BitVec 32 := 512#32
  let v14 : BitVec 32 := Scalar.muli v13 c512_i32
  let v218 : BitVec 32 := Scalar.addi v14 c256_i32_128
  let v237 : Index := Scalar.indexCast v218
  let c0_142 : Index := 0#32
  ![v237.toNat, 0]
def k0_off4 (d0 : Dev nD) (c256_i32_128 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32 : BitVec 32 := 512#32
  let v14 : BitVec 32 := Scalar.muli v13 c512_i32
  let v218 : BitVec 32 := Scalar.addi v14 c256_i32_128
  let c0_i32_149 : BitVec 32 := 0#32
  ![v218.toNat, 0]
def k0_dev12 (d0 : Dev nD) : Nat :=
  let c0_i32_146 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_145 : BitVec 32 := 4#32
  let v239 : BitVec 32 := Scalar.muli v10 c4_i32_145
  let v240 : BitVec 32 := Scalar.addi c0_i32_146 v239
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v241 : BitVec 32 := Scalar.muli v5 c2_i32_147
  let v242 : BitVec 32 := Scalar.addi v240 v241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v243 : BitVec 32 := Scalar.muli v8 c1_i32_148
  let v244 : BitVec 32 := Scalar.addi v242 v243
  v244.toNat
def k0_dev13 (d0 : Dev nD) : Nat :=
  let c0_i32_154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_153 : BitVec 32 := 4#32
  let v251 : BitVec 32 := Scalar.muli v2 c4_i32_153
  let v252 : BitVec 32 := Scalar.addi c0_i32_154 v251
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_155 : BitVec 32 := 2#32
  let v253 : BitVec 32 := Scalar.muli v11 c2_i32_155
  let v254 : BitVec 32 := Scalar.addi v252 v253
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v255 : BitVec 32 := Scalar.muli v8 c1_i32_156
  let v256 : BitVec 32 := Scalar.addi v254 v255
  v256.toNat
def k0_dev14 (d0 : Dev nD) : Nat :=
  let c0_i32_177 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_176 : BitVec 32 := 4#32
  let v284 : BitVec 32 := Scalar.muli v10 c4_i32_176
  let v285 : BitVec 32 := Scalar.addi c0_i32_177 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_178 : BitVec 32 := 2#32
  let v286 : BitVec 32 := Scalar.muli v5 c2_i32_178
  let v287 : BitVec 32 := Scalar.addi v285 v286
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_179 : BitVec 32 := 1#32
  let v288 : BitVec 32 := Scalar.muli v8 c1_i32_179
  let v289 : BitVec 32 := Scalar.addi v287 v288
  v289.toNat
def k0_dev15 (d0 : Dev nD) : Nat :=
  let c0_i32_185 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_184 : BitVec 32 := 4#32
  let v296 : BitVec 32 := Scalar.muli v2 c4_i32_184
  let v297 : BitVec 32 := Scalar.addi c0_i32_185 v296
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_186 : BitVec 32 := 2#32
  let v298 : BitVec 32 := Scalar.muli v11 c2_i32_186
  let v299 : BitVec 32 := Scalar.addi v297 v298
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_187 : BitVec 32 := 1#32
  let v300 : BitVec 32 := Scalar.muli v8 c1_i32_187
  let v301 : BitVec 32 := Scalar.addi v299 v300
  v301.toNat
def k0_dev16 (d0 : Dev nD) : Nat :=
  let c0_i32_208 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_207 : BitVec 32 := 4#32
  let v329 : BitVec 32 := Scalar.muli v10 c4_i32_207
  let v330 : BitVec 32 := Scalar.addi c0_i32_208 v329
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v331 : BitVec 32 := Scalar.muli v5 c2_i32_209
  let v332 : BitVec 32 := Scalar.addi v330 v331
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v333 : BitVec 32 := Scalar.muli v8 c1_i32_210
  let v334 : BitVec 32 := Scalar.addi v332 v333
  v334.toNat
def k0_dev17 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_215 : BitVec 32 := 4#32
  let v341 : BitVec 32 := Scalar.muli v2 c4_i32_215
  let v342 : BitVec 32 := Scalar.addi c0_i32_216 v341
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_217 : BitVec 32 := 2#32
  let v343 : BitVec 32 := Scalar.muli v11 c2_i32_217
  let v344 : BitVec 32 := Scalar.addi v342 v343
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_218 : BitVec 32 := 1#32
  let v345 : BitVec 32 := Scalar.muli v8 c1_i32_218
  let v346 : BitVec 32 := Scalar.addi v344 v345
  v346.toNat
def k0_dev18 (d0 : Dev nD) : Nat :=
  let c0_i32_239 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_238 : BitVec 32 := 4#32
  let v374 : BitVec 32 := Scalar.muli v10 c4_i32_238
  let v375 : BitVec 32 := Scalar.addi c0_i32_239 v374
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_240 : BitVec 32 := 2#32
  let v376 : BitVec 32 := Scalar.muli v5 c2_i32_240
  let v377 : BitVec 32 := Scalar.addi v375 v376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_241 : BitVec 32 := 1#32
  let v378 : BitVec 32 := Scalar.muli v8 c1_i32_241
  let v379 : BitVec 32 := Scalar.addi v377 v378
  v379.toNat
def k0_dev19 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_246 : BitVec 32 := 4#32
  let v386 : BitVec 32 := Scalar.muli v2 c4_i32_246
  let v387 : BitVec 32 := Scalar.addi c0_i32_247 v386
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_248 : BitVec 32 := 2#32
  let v388 : BitVec 32 := Scalar.muli v11 c2_i32_248
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_249 : BitVec 32 := 1#32
  let v390 : BitVec 32 := Scalar.muli v8 c1_i32_249
  let v391 : BitVec 32 := Scalar.addi v389 v390
  v391.toNat
def k0_dev20 (d0 : Dev nD) : Nat :=
  let c0_i32_270 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_269 : BitVec 32 := 4#32
  let v419 : BitVec 32 := Scalar.muli v10 c4_i32_269
  let v420 : BitVec 32 := Scalar.addi c0_i32_270 v419
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v421 : BitVec 32 := Scalar.muli v5 c2_i32_271
  let v422 : BitVec 32 := Scalar.addi v420 v421
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_272 : BitVec 32 := 1#32
  let v423 : BitVec 32 := Scalar.muli v8 c1_i32_272
  let v424 : BitVec 32 := Scalar.addi v422 v423
  v424.toNat
def k0_dev21 (d0 : Dev nD) : Nat :=
  let c0_i32_278 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_277 : BitVec 32 := 4#32
  let v431 : BitVec 32 := Scalar.muli v2 c4_i32_277
  let v432 : BitVec 32 := Scalar.addi c0_i32_278 v431
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_279 : BitVec 32 := 2#32
  let v433 : BitVec 32 := Scalar.muli v11 c2_i32_279
  let v434 : BitVec 32 := Scalar.addi v432 v433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_280 : BitVec 32 := 1#32
  let v435 : BitVec 32 := Scalar.muli v8 c1_i32_280
  let v436 : BitVec 32 := Scalar.addi v434 v435
  v436.toNat
def k0_dev22 (d0 : Dev nD) : Nat :=
  let c0_i32_301 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_300 : BitVec 32 := 4#32
  let v464 : BitVec 32 := Scalar.muli v10 c4_i32_300
  let v465 : BitVec 32 := Scalar.addi c0_i32_301 v464
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_302 : BitVec 32 := 2#32
  let v466 : BitVec 32 := Scalar.muli v5 c2_i32_302
  let v467 : BitVec 32 := Scalar.addi v465 v466
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_303 : BitVec 32 := 1#32
  let v468 : BitVec 32 := Scalar.muli v8 c1_i32_303
  let v469 : BitVec 32 := Scalar.addi v467 v468
  v469.toNat
def k0_dev23 (d0 : Dev nD) : Nat :=
  let c0_i32_309 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_308 : BitVec 32 := 4#32
  let v476 : BitVec 32 := Scalar.muli v2 c4_i32_308
  let v477 : BitVec 32 := Scalar.addi c0_i32_309 v476
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_310 : BitVec 32 := 2#32
  let v478 : BitVec 32 := Scalar.muli v11 c2_i32_310
  let v479 : BitVec 32 := Scalar.addi v477 v478
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_311 : BitVec 32 := 1#32
  let v480 : BitVec 32 := Scalar.muli v8 c1_i32_311
  let v481 : BitVec 32 := Scalar.addi v479 v480
  v481.toNat
def k0_dev24 (d0 : Dev nD) : Nat :=
  let c0_i32_332 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_331 : BitVec 32 := 4#32
  let v509 : BitVec 32 := Scalar.muli v10 c4_i32_331
  let v510 : BitVec 32 := Scalar.addi c0_i32_332 v509
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_333 : BitVec 32 := 2#32
  let v511 : BitVec 32 := Scalar.muli v5 c2_i32_333
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_334 : BitVec 32 := 1#32
  let v513 : BitVec 32 := Scalar.muli v8 c1_i32_334
  let v514 : BitVec 32 := Scalar.addi v512 v513
  v514.toNat
def k0_dev25 (d0 : Dev nD) : Nat :=
  let c0_i32_340 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_339 : BitVec 32 := 4#32
  let v521 : BitVec 32 := Scalar.muli v2 c4_i32_339
  let v522 : BitVec 32 := Scalar.addi c0_i32_340 v521
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_341 : BitVec 32 := 2#32
  let v523 : BitVec 32 := Scalar.muli v11 c2_i32_341
  let v524 : BitVec 32 := Scalar.addi v522 v523
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_342 : BitVec 32 := 1#32
  let v525 : BitVec 32 := Scalar.muli v8 c1_i32_342
  let v526 : BitVec 32 := Scalar.addi v524 v525
  v526.toNat
def k0_dev26 (d0 : Dev nD) : Nat :=
  let c0_i32_363 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_362 : BitVec 32 := 4#32
  let v554 : BitVec 32 := Scalar.muli v10 c4_i32_362
  let v555 : BitVec 32 := Scalar.addi c0_i32_363 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_364 : BitVec 32 := 2#32
  let v556 : BitVec 32 := Scalar.muli v5 c2_i32_364
  let v557 : BitVec 32 := Scalar.addi v555 v556
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_365 : BitVec 32 := 1#32
  let v558 : BitVec 32 := Scalar.muli v8 c1_i32_365
  let v559 : BitVec 32 := Scalar.addi v557 v558
  v559.toNat
def k0_dev27 (d0 : Dev nD) : Nat :=
  let c0_i32_371 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_370 : BitVec 32 := 4#32
  let v566 : BitVec 32 := Scalar.muli v2 c4_i32_370
  let v567 : BitVec 32 := Scalar.addi c0_i32_371 v566
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_372 : BitVec 32 := 2#32
  let v568 : BitVec 32 := Scalar.muli v11 c2_i32_372
  let v569 : BitVec 32 := Scalar.addi v567 v568
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_373 : BitVec 32 := 1#32
  let v570 : BitVec 32 := Scalar.muli v8 c1_i32_373
  let v571 : BitVec 32 := Scalar.addi v569 v570
  v571.toNat
def k0_off5 (d0 : Dev nD) (c256_i32_384 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v16 : BitVec 32 := Scalar.muli c2_i32_8 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.addi v16 v5
  let c512_i32_9 : BitVec 32 := 512#32
  let v18 : BitVec 32 := Scalar.muli v17 c512_i32_9
  let v588 : BitVec 32 := Scalar.addi v18 c256_i32_384
  let c0_i32_391 : BitVec 32 := 0#32
  ![v588.toNat, 0]
def k0_dev28 (d0 : Dev nD) : Nat :=
  let c0_i32_388 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_387 : BitVec 32 := 4#32
  let v589 : BitVec 32 := Scalar.muli v2 c4_i32_387
  let v590 : BitVec 32 := Scalar.addi c0_i32_388 v589
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_389 : BitVec 32 := 2#32
  let v591 : BitVec 32 := Scalar.muli v11 c2_i32_389
  let v592 : BitVec 32 := Scalar.addi v590 v591
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_390 : BitVec 32 := 1#32
  let v593 : BitVec 32 := Scalar.muli v8 c1_i32_390
  let v594 : BitVec 32 := Scalar.addi v592 v593
  v594.toNat
def k0_off6 (d0 : Dev nD) (c0_i32_417 : BitVec 32) : Fin 2 → Nat :=
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_10 v2
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.addi v19 v20
  let c512_i32_12 : BitVec 32 := 512#32
  let v22 : BitVec 32 := Scalar.muli v21 c512_i32_12
  let v631 : BitVec 32 := Scalar.addi v22 c0_i32_417
  let c0_i32_424 : BitVec 32 := 0#32
  ![v631.toNat, 0]
def k0_dev29 (d0 : Dev nD) : Nat :=
  let c0_i32_421 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_420 : BitVec 32 := 4#32
  let v632 : BitVec 32 := Scalar.muli v10 c4_i32_420
  let v633 : BitVec 32 := Scalar.addi c0_i32_421 v632
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_422 : BitVec 32 := 2#32
  let v634 : BitVec 32 := Scalar.muli v5 c2_i32_422
  let v635 : BitVec 32 := Scalar.addi v633 v634
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_423 : BitVec 32 := 1#32
  let v636 : BitVec 32 := Scalar.muli v8 c1_i32_423
  let v637 : BitVec 32 := Scalar.addi v635 v636
  v637.toNat
def k0_dev30 (d0 : Dev nD) : Nat :=
  let c0_i32_438 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_437 : BitVec 32 := 4#32
  let v655 : BitVec 32 := Scalar.muli v2 c4_i32_437
  let v656 : BitVec 32 := Scalar.addi c0_i32_438 v655
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_439 : BitVec 32 := 2#32
  let v657 : BitVec 32 := Scalar.muli v11 c2_i32_439
  let v658 : BitVec 32 := Scalar.addi v656 v657
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_440 : BitVec 32 := 1#32
  let v659 : BitVec 32 := Scalar.muli v8 c1_i32_440
  let v660 : BitVec 32 := Scalar.addi v658 v659
  v660.toNat
def k0_dev31 (d0 : Dev nD) : Nat :=
  let c0_i32_471 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_470 : BitVec 32 := 4#32
  let v698 : BitVec 32 := Scalar.muli v10 c4_i32_470
  let v699 : BitVec 32 := Scalar.addi c0_i32_471 v698
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_472 : BitVec 32 := 2#32
  let v700 : BitVec 32 := Scalar.muli v5 c2_i32_472
  let v701 : BitVec 32 := Scalar.addi v699 v700
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_473 : BitVec 32 := 1#32
  let v702 : BitVec 32 := Scalar.muli v8 c1_i32_473
  let v703 : BitVec 32 := Scalar.addi v701 v702
  v703.toNat
def k0_dev32 (d0 : Dev nD) : Nat :=
  let c0_i32_488 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_487 : BitVec 32 := 4#32
  let v721 : BitVec 32 := Scalar.muli v2 c4_i32_487
  let v722 : BitVec 32 := Scalar.addi c0_i32_488 v721
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_489 : BitVec 32 := 2#32
  let v723 : BitVec 32 := Scalar.muli v11 c2_i32_489
  let v724 : BitVec 32 := Scalar.addi v722 v723
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_490 : BitVec 32 := 1#32
  let v725 : BitVec 32 := Scalar.muli v8 c1_i32_490
  let v726 : BitVec 32 := Scalar.addi v724 v725
  v726.toNat
def k0_dev33 (d0 : Dev nD) : Nat :=
  let c0_i32_521 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_520 : BitVec 32 := 4#32
  let v764 : BitVec 32 := Scalar.muli v10 c4_i32_520
  let v765 : BitVec 32 := Scalar.addi c0_i32_521 v764
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_522 : BitVec 32 := 2#32
  let v766 : BitVec 32 := Scalar.muli v5 c2_i32_522
  let v767 : BitVec 32 := Scalar.addi v765 v766
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_523 : BitVec 32 := 1#32
  let v768 : BitVec 32 := Scalar.muli v8 c1_i32_523
  let v769 : BitVec 32 := Scalar.addi v767 v768
  v769.toNat
def k0_dev34 (d0 : Dev nD) : Nat :=
  let c0_i32_538 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_537 : BitVec 32 := 4#32
  let v787 : BitVec 32 := Scalar.muli v2 c4_i32_537
  let v788 : BitVec 32 := Scalar.addi c0_i32_538 v787
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_539 : BitVec 32 := 2#32
  let v789 : BitVec 32 := Scalar.muli v11 c2_i32_539
  let v790 : BitVec 32 := Scalar.addi v788 v789
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_540 : BitVec 32 := 1#32
  let v791 : BitVec 32 := Scalar.muli v8 c1_i32_540
  let v792 : BitVec 32 := Scalar.addi v790 v791
  v792.toNat
def k0_dev35 (d0 : Dev nD) : Nat :=
  let c0_i32_571 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_570 : BitVec 32 := 4#32
  let v830 : BitVec 32 := Scalar.muli v10 c4_i32_570
  let v831 : BitVec 32 := Scalar.addi c0_i32_571 v830
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_572 : BitVec 32 := 2#32
  let v832 : BitVec 32 := Scalar.muli v5 c2_i32_572
  let v833 : BitVec 32 := Scalar.addi v831 v832
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_573 : BitVec 32 := 1#32
  let v834 : BitVec 32 := Scalar.muli v8 c1_i32_573
  let v835 : BitVec 32 := Scalar.addi v833 v834
  v835.toNat
def k0_off7 (d0 : Dev nD) (c0_i32_576 : BitVec 32) : Fin 2 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_15 v5
  let v26 : BitVec 32 := Scalar.addi v24 v25
  let c512_i32_16 : BitVec 32 := 512#32
  let v27 : BitVec 32 := Scalar.muli v26 c512_i32_16
  let v842 : BitVec 32 := Scalar.addi v27 c0_i32_576
  let c0_i32_583 : BitVec 32 := 0#32
  ![v842.toNat, 0]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  h_S1x64x512 : 0 < S1x64x512.numel
  shapeCasts_S1x64x512_S64x512 : S1x64x512.ShapeCasts S64x512
  bitsLt_bf16_f32 : FTy.bits .bf16 < FTy.bits .f32
  inb_S512x512_S64x512_256_0 : ∀ a, (![256, 0] : Fin 2 → Nat) a + S64x512.size a ≤ S512x512.size a
  h_S64x512 : 0 < S64x512.numel
  shapeCasts_S64x512_S64x512 : S64x512.ShapeCasts S64x512
  packedbf16_S512x512_S64x512_256_0 : (Rect.unit (s := S512x512) ![256, 0] S64x512.size inb_S512x512_S64x512_256_0).PackedRows (EltTy.packing .bf16)
  inb_S8_S1_4 : ∀ a, (![4] : Fin 1 → Nat) a + S1.size a ≤ S8.size a
  squeezes_S1_S_ : S1.Squeezes S_
  wordsbf16_S512x512_S64x512_256_0 : (Rect.unit (s := S512x512) ![256, 0] S64x512.size inb_S512x512_S64x512_256_0).WholeWords (EltTy.packing .bf16)
  inb_S512x512_S64x512_0_0 : ∀ a, (![0, 0] : Fin 2 → Nat) a + S64x512.size a ≤ S512x512.size a
  packedbf16_S512x512_S64x512_0_0 : (Rect.unit (s := S512x512) ![0, 0] S64x512.size inb_S512x512_S64x512_0_0).PackedRows (EltTy.packing .bf16)
  inb_S8_S1_0 : ∀ a, (![0] : Fin 1 → Nat) a + S1.size a ≤ S8.size a
  wordsbf16_S512x512_S64x512_0_0 : (Rect.unit (s := S512x512) ![0, 0] S64x512.size inb_S512x512_S64x512_0_0).WholeWords (EltTy.packing .bf16)
  inb_S512x512_S64x512_320_0 : ∀ a, (![320, 0] : Fin 2 → Nat) a + S64x512.size a ≤ S512x512.size a
  packedbf16_S512x512_S64x512_320_0 : (Rect.unit (s := S512x512) ![320, 0] S64x512.size inb_S512x512_S64x512_320_0).PackedRows (EltTy.packing .bf16)
  inb_S8_S1_5 : ∀ a, (![5] : Fin 1 → Nat) a + S1.size a ≤ S8.size a
  wordsbf16_S512x512_S64x512_320_0 : (Rect.unit (s := S512x512) ![320, 0] S64x512.size inb_S512x512_S64x512_320_0).WholeWords (EltTy.packing .bf16)
  inb_S512x512_S64x512_64_0 : ∀ a, (![64, 0] : Fin 2 → Nat) a + S64x512.size a ≤ S512x512.size a
  packedbf16_S512x512_S64x512_64_0 : (Rect.unit (s := S512x512) ![64, 0] S64x512.size inb_S512x512_S64x512_64_0).PackedRows (EltTy.packing .bf16)
  inb_S8_S1_1 : ∀ a, (![1] : Fin 1 → Nat) a + S1.size a ≤ S8.size a
  wordsbf16_S512x512_S64x512_64_0 : (Rect.unit (s := S512x512) ![64, 0] S64x512.size inb_S512x512_S64x512_64_0).WholeWords (EltTy.packing .bf16)
  inb_S512x512_S64x512_384_0 : ∀ a, (![384, 0] : Fin 2 → Nat) a + S64x512.size a ≤ S512x512.size a
  packedbf16_S512x512_S64x512_384_0 : (Rect.unit (s := S512x512) ![384, 0] S64x512.size inb_S512x512_S64x512_384_0).PackedRows (EltTy.packing .bf16)
  inb_S8_S1_6 : ∀ a, (![6] : Fin 1 → Nat) a + S1.size a ≤ S8.size a
  wordsbf16_S512x512_S64x512_384_0 : (Rect.unit (s := S512x512) ![384, 0] S64x512.size inb_S512x512_S64x512_384_0).WholeWords (EltTy.packing .bf16)
  inb_S512x512_S64x512_128_0 : ∀ a, (![128, 0] : Fin 2 → Nat) a + S64x512.size a ≤ S512x512.size a
  packedbf16_S512x512_S64x512_128_0 : (Rect.unit (s := S512x512) ![128, 0] S64x512.size inb_S512x512_S64x512_128_0).PackedRows (EltTy.packing .bf16)
  inb_S8_S1_2 : ∀ a, (![2] : Fin 1 → Nat) a + S1.size a ≤ S8.size a
  wordsbf16_S512x512_S64x512_128_0 : (Rect.unit (s := S512x512) ![128, 0] S64x512.size inb_S512x512_S64x512_128_0).WholeWords (EltTy.packing .bf16)
  inb_S512x512_S64x512_448_0 : ∀ a, (![448, 0] : Fin 2 → Nat) a + S64x512.size a ≤ S512x512.size a
  packedbf16_S512x512_S64x512_448_0 : (Rect.unit (s := S512x512) ![448, 0] S64x512.size inb_S512x512_S64x512_448_0).PackedRows (EltTy.packing .bf16)
  inb_S8_S1_7 : ∀ a, (![7] : Fin 1 → Nat) a + S1.size a ≤ S8.size a
  wordsbf16_S512x512_S64x512_448_0 : (Rect.unit (s := S512x512) ![448, 0] S64x512.size inb_S512x512_S64x512_448_0).WholeWords (EltTy.packing .bf16)
  inb_S512x512_S64x512_192_0 : ∀ a, (![192, 0] : Fin 2 → Nat) a + S64x512.size a ≤ S512x512.size a
  packedbf16_S512x512_S64x512_192_0 : (Rect.unit (s := S512x512) ![192, 0] S64x512.size inb_S512x512_S64x512_192_0).PackedRows (EltTy.packing .bf16)
  inb_S8_S1_3 : ∀ a, (![3] : Fin 1 → Nat) a + S1.size a ≤ S8.size a
  wordsbf16_S512x512_S64x512_192_0 : (Rect.unit (s := S512x512) ![192, 0] S64x512.size inb_S512x512_S64x512_192_0).WholeWords (EltTy.packing .bf16)
  inb_S4_S1_0 : ∀ a, (![0] : Fin 1 → Nat) a + S1.size a ≤ S4.size a
  inb_S4_S1_1 : ∀ a, (![1] : Fin 1 → Nat) a + S1.size a ≤ S4.size a
  inb_S4_S1_2 : ∀ a, (![2] : Fin 1 → Nat) a + S1.size a ≤ S4.size a
  inb_S4_S1_3 : ∀ a, (![3] : Fin 1 → Nat) a + S1.size a ≤ S4.size a
  hcc0_scratch2 : 2 + S8.numel ≤ 66
  hcc0_scratch3 : 10 + S8.numel ≤ 66
  hcc0_scratch4 : 18 + S8.numel ≤ 66
  hcc0_scratch5 : 26 + S8.numel ≤ 66
  hcc0_scratch6 : 34 + S8.numel ≤ 66
  hcc0_scratch7 : 42 + S8.numel ≤ 66
  hcc0_scratch8 : 50 + S4.numel ≤ 66
  hcc0_scratch9 : 54 + S4.numel ≤ 66
  hcc0_scratch10 : 58 + S4.numel ≤ 66
  hcc0_scratch11 : 62 + S4.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 8), ∀ a, (k0_off1 d0 (BitVec.ofNat 32 (64 * r.val))) a + S1x64x512.size a ≤ S1x2048x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off2_inb : ∀ d0 : Dev nD, ∀ (r : Fin 8), ∀ a, (k0_off2 d0 (BitVec.ofNat 32 (64 * r.val))) a + S1x64x512.size a ≤ S1x2048x1024.size a
  k0_off3_inb : ∀ d0 : Dev nD, ∀ (r : Fin 8), ∀ a, (k0_off3 d0 (BitVec.ofNat 32 (64 * r.val))) a + S64x512.size a ≤ S2048x512.size a
  k0_off3_packedbf16 : ∀ d0 : Dev nD, ∀ (r : Fin 8), (Rect.unit (s := S2048x512) (k0_off3 d0 (BitVec.ofNat 32 (64 * r.val))) S64x512.size (k0_off3_inb d0 r)).PackedRows (EltTy.packing .bf16)
  k0_off4_inb : ∀ d0 : Dev nD, ∀ (r : Fin 8), ∀ a, (k0_off4 d0 (BitVec.ofNat 32 (64 * r.val))) a + S64x512.size a ≤ S2048x512.size a
  k0_off4_wordsbf16 : ∀ d0 : Dev nD, ∀ (r : Fin 8), (Rect.unit (s := S2048x512) (k0_off4 d0 (BitVec.ofNat 32 (64 * r.val))) S64x512.size (k0_off4_inb d0 r)).WholeWords (EltTy.packing .bf16)
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_off5_inb : ∀ d0 : Dev nD, ∀ (r : Fin 4), ∀ a, (k0_off5 d0 (BitVec.ofNat 32 (256 + 64 * r.val))) a + S64x512.size a ≤ S2048x512.size a
  k0_off5_wordsbf16 : ∀ d0 : Dev nD, ∀ (r : Fin 4), (Rect.unit (s := S2048x512) (k0_off5 d0 (BitVec.ofNat 32 (256 + 64 * r.val))) S64x512.size (k0_off5_inb d0 r)).WholeWords (EltTy.packing .bf16)
  k0_dev28_lt : ∀ d0 : Dev nD, (k0_dev28 d0) < nD
  k0_off6_inb : ∀ d0 : Dev nD, ∀ (r : Fin 4), ∀ a, (k0_off6 d0 (BitVec.ofNat 32 (64 * r.val))) a + S64x512.size a ≤ S2048x512.size a
  k0_off6_wordsbf16 : ∀ d0 : Dev nD, ∀ (r : Fin 4), (Rect.unit (s := S2048x512) (k0_off6 d0 (BitVec.ofNat 32 (64 * r.val))) S64x512.size (k0_off6_inb d0 r)).WholeWords (EltTy.packing .bf16)
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_off7_inb : ∀ d0 : Dev nD, ∀ (r : Fin 8), ∀ a, (k0_off7 d0 (BitVec.ofNat 32 (64 * r.val))) a + S64x512.size a ≤ S2048x512.size a
  k0_off7_wordsbf16 : ∀ d0 : Dev nD, ∀ (r : Fin 8), (Rect.unit (s := S2048x512) (k0_off7 d0 (BitVec.ofNat 32 (64 * r.val))) S64x512.size (k0_off7_inb d0 r)).WholeWords (EltTy.packing .bf16)
  hstage0_0 : ∀ j, (stage0_0 j).IsWhole
  hstage0_1 : ∀ j, (stage0_1 j).IsWhole

variable [Facts₀]

abbrev cc0_scratch2 : DmaSems sig S8 := SemArray.consecutive 2 S8 hcc0_scratch2
abbrev cc0_scratch3 : DmaSems sig S8 := SemArray.consecutive 10 S8 hcc0_scratch3
abbrev cc0_scratch4 : DmaSems sig S8 := SemArray.consecutive 18 S8 hcc0_scratch4
abbrev cc0_scratch5 : DmaSems sig S8 := SemArray.consecutive 26 S8 hcc0_scratch5
abbrev cc0_scratch6 : DmaSems sig S8 := SemArray.consecutive 34 S8 hcc0_scratch6
abbrev cc0_scratch7 : DmaSems sig S8 := SemArray.consecutive 42 S8 hcc0_scratch7
abbrev cc0_scratch8 : DmaSems sig S4 := SemArray.consecutive 50 S4 hcc0_scratch8
abbrev cc0_scratch9 : DmaSems sig S4 := SemArray.consecutive 54 S4 hcc0_scratch9
abbrev cc0_scratch10 : DmaSems sig S4 := SemArray.consecutive 58 S4 hcc0_scratch10
abbrev cc0_scratch11 : DmaSems sig S4 := SemArray.consecutive 62 S4 hcc0_scratch11

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S_, .f32⟩
  | .hbm, ⟨2, _⟩ => ⟨S2048x1024, .f32⟩
  | .hbm, ⟨3, _⟩ => ⟨S2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x2048x1024_S2048x1024_d0 : S2x2048x1024.ReducesTo [0] S2048x1024
  h_S_ : 0 < S_.numel
  bitsLt_bf16_f32 : FTy.bits .bf16 < FTy.bits .f32

variable [Facts₀]

class Facts : Prop extends Facts₀ where

variable [Facts]
-- ==== Proof.Geom.lean ====
import proofs.«901029_g7700000000001030_dist_rs_v7x_xyz2x2x2_z_m2048_n512_bf16_1_alg».proof.Proof.Gen.KernelIdeal
import Idealize.ShloMosaic.Lib.Tactic

noncomputable section

namespace Cert.KernelIdeal.RS

open Cert.KernelIdeal Cert.KernelIdeal.Gen
open Idealize.ShloMosaic Idealize.ShloMosaic.TcCoe Idealize.SL.Sem

theorem zp_lt : ∀ c : Dev nD, (4 * (c.val / 4) + 2 * ((c.val / 2) % 2) + 1) - (c.val % 2) < nD := by decide
def zp (c : Dev nD) : Dev nD := ⟨(4 * (c.val / 4) + 2 * ((c.val / 2) % 2) + 1) - (c.val % 2), zp_lt c⟩

theorem xp_lt : ∀ c : Dev nD, (2 * ((c.val / 2) % 2) + (c.val % 2) + 4) - 4 * (c.val / 4) < nD := by decide
def xp (c : Dev nD) : Dev nD := ⟨(2 * ((c.val / 2) % 2) + (c.val % 2) + 4) - 4 * (c.val / 4), xp_lt c⟩

theorem yp_lt : ∀ c : Dev nD, (4 * (c.val / 4) + (c.val % 2) + 2) - 2 * ((c.val / 2) % 2) < nD := by decide
def yp (c : Dev nD) : Dev nD := ⟨(4 * (c.val / 4) + (c.val % 2) + 2) - 2 * ((c.val / 2) % 2), yp_lt c⟩

theorem zp_zp (c : Dev nD) : zp (zp c) = c := by revert c; decide
theorem xp_xp (c : Dev nD) : xp (xp c) = c := by revert c; decide
theorem yp_yp (c : Dev nD) : yp (yp c) = c := by revert c; decide
theorem xp_yp (c : Dev nD) : xp (yp c) = yp (xp c) := by revert c; decide

def zpE : Dev nD ≃ Dev nD := ⟨zp, zp, zp_zp, zp_zp⟩
def xpE : Dev nD ≃ Dev nD := ⟨xp, xp, xp_xp, xp_xp⟩
def ypE : Dev nD ≃ Dev nD := ⟨yp, yp, yp_yp, yp_yp⟩

theorem z_xp (c : Dev nD) : (xp c).val % 2 = c.val % 2 := by revert c; decide
theorem z_yp (c : Dev nD) : (yp c).val % 2 = c.val % 2 := by revert c; decide
theorem z_zp (c : Dev nD) : (zp c).val % 2 = 1 - c.val % 2 := by revert c; decide

theorem dev1_eq (c : Dev nD) : (⟨k0_dev1 c, k0_dev1_lt c⟩ : Dev nD) = zp c := Fin.ext (k0_dev1_eq c)
theorem dev2_eq (c : Dev nD) : (⟨k0_dev2 c, k0_dev2_lt c⟩ : Dev nD) = xp c := Fin.ext (k0_dev2_eq c)
theorem dev3_eq (c : Dev nD) : (⟨k0_dev3 c, k0_dev3_lt c⟩ : Dev nD) = yp c := Fin.ext (k0_dev3_eq c)
theorem dev4_eq (c : Dev nD) : (⟨k0_dev4 c, k0_dev4_lt c⟩ : Dev nD) = zp c := Fin.ext (k0_dev4_eq c)
theorem dev5_eq (c : Dev nD) : (⟨k0_dev5 c, k0_dev5_lt c⟩ : Dev nD) = zp c := Fin.ext (k0_dev5_eq c)
theorem dev6_eq (c : Dev nD) : (⟨k0_dev6 c, k0_dev6_lt c⟩ : Dev nD) = zp c := Fin.ext (k0_dev6_eq c)
theorem dev7_eq (c : Dev nD) : (⟨k0_dev7 c, k0_dev7_lt c⟩ : Dev nD) = zp c := Fin.ext (k0_dev7_eq c)
theorem dev8_eq (c : Dev nD) : (⟨k0_dev8 c, k0_dev8_lt c⟩ : Dev nD) = zp c := Fin.ext (k0_dev8_eq c)
theorem dev9_eq (c : Dev nD) : (⟨k0_dev9 c, k0_dev9_lt c⟩ : Dev nD) = zp c := Fin.ext (k0_dev9_eq c)
theorem dev10_eq (c : Dev nD) : (⟨k0_dev10 c, k0_dev10_lt c⟩ : Dev nD) = zp c := Fin.ext (k0_dev10_eq c)
theorem dev11_eq (c : Dev nD) : (⟨k0_dev11 c, k0_dev11_lt c⟩ : Dev nD) = zp c := Fin.ext (k0_dev11_eq c)
theorem dev12_eq (c : Dev nD) : (⟨k0_dev12 c, k0_dev12_lt c⟩ : Dev nD) = xp c := Fin.ext (k0_dev12_eq c)
theorem dev13_eq (c : Dev nD) : (⟨k0_dev13 c, k0_dev13_lt c⟩ : Dev nD) = yp c := Fin.ext (k0_dev13_eq c)
theorem dev14_eq (c : Dev nD) : (⟨k0_dev14 c, k0_dev14_lt c⟩ : Dev nD) = xp c := Fin.ext (k0_dev14_eq c)
theorem dev15_eq (c : Dev nD) : (⟨k0_dev15 c, k0_dev15_lt c⟩ : Dev nD) = yp c := Fin.ext (k0_dev15_eq c)
theorem dev16_eq (c : Dev nD) : (⟨k0_dev16 c, k0_dev16_lt c⟩ : Dev nD) = xp c := Fin.ext (k0_dev16_eq c)
theorem dev17_eq (c : Dev nD) : (⟨k0_dev17 c, k0_dev17_lt c⟩ : Dev nD) = yp c := Fin.ext (k0_dev17_eq c)
theorem dev18_eq (c : Dev nD) : (⟨k0_dev18 c, k0_dev18_lt c⟩ : Dev nD) = xp c := Fin.ext (k0_dev18_eq c)
theorem dev19_eq (c : Dev nD) : (⟨k0_dev19 c, k0_dev19_lt c⟩ : Dev nD) = yp c := Fin.ext (k0_dev19_eq c)
theorem dev20_eq (c : Dev nD) : (⟨k0_dev20 c, k0_dev20_lt c⟩ : Dev nD) = xp c := Fin.ext (k0_dev20_eq c)
theorem dev21_eq (c : Dev nD) : (⟨k0_dev21 c, k0_dev21_lt c⟩ : Dev nD) = yp c := Fin.ext (k0_dev21_eq c)
theorem dev22_eq (c : Dev nD) : (⟨k0_dev22 c, k0_dev22_lt c⟩ : Dev nD) = xp c := Fin.ext (k0_dev22_eq c)
theorem dev23_eq (c : Dev nD) : (⟨k0_dev23 c, k0_dev23_lt c⟩ : Dev nD) = yp c := Fin.ext (k0_dev23_eq c)
theorem dev24_eq (c : Dev nD) : (⟨k0_dev24 c, k0_dev24_lt c⟩ : Dev nD) = xp c := Fin.ext (k0_dev24_eq c)
theorem dev25_eq (c : Dev nD) : (⟨k0_dev25 c, k0_dev25_lt c⟩ : Dev nD) = yp c := Fin.ext (k0_dev25_eq c)
theorem dev26_eq (c : Dev nD) : (⟨k0_dev26 c, k0_dev26_lt c⟩ : Dev nD) = xp c := Fin.ext (k0_dev26_eq c)
theorem dev27_eq (c : Dev nD) : (⟨k0_dev27 c, k0_dev27_lt c⟩ : Dev nD) = yp c := Fin.ext (k0_dev27_eq c)
theorem dev28_eq (c : Dev nD) : (⟨k0_dev28 c, k0_dev28_lt c⟩ : Dev nD) = yp c := Fin.ext (k0_dev28_eq c)
theorem dev29_eq (c : Dev nD) : (⟨k0_dev29 c, k0_dev29_lt c⟩ : Dev nD) = xp c := Fin.ext (k0_dev29_eq c)
theorem dev30_eq (c : Dev nD) : (⟨k0_dev30 c, k0_dev30_lt c⟩ : Dev nD) = yp c := Fin.ext (k0_dev30_eq c)
theorem dev31_eq (c : Dev nD) : (⟨k0_dev31 c, k0_dev31_lt c⟩ : Dev nD) = xp c := Fin.ext (k0_dev31_eq c)
theorem dev32_eq (c : Dev nD) : (⟨k0_dev32 c, k0_dev32_lt c⟩ : Dev nD) = yp c := Fin.ext (k0_dev32_eq c)
theorem dev33_eq (c : Dev nD) : (⟨k0_dev33 c, k0_dev33_lt c⟩ : Dev nD) = xp c := Fin.ext (k0_dev33_eq c)
theorem dev34_eq (c : Dev nD) : (⟨k0_dev34 c, k0_dev34_lt c⟩ : Dev nD) = yp c := Fin.ext (k0_dev34_eq c)
theorem dev35_eq (c : Dev nD) : (⟨k0_dev35 c, k0_dev35_lt c⟩ : Dev nD) = xp c := Fin.ext (k0_dev35_eq c)

def rme (c : Dev nD) : ℕ := 1024 * (c.val / 4) + 512 * ((c.val / 2) % 2)

theorem rme_zp (c : Dev nD) : rme (zp c) = rme c := by revert c; decide
theorem rme_lt (c : Dev nD) : rme c + 512 ≤ 2048 := by revert c; decide

def ooff (c : Dev nD) (k : Fin 8) : Fin 2 → ℕ := ![rme c + 64 * k.val, 0]

theorem ooff_inb (c : Dev nD) (k : Fin 8) : ∀ a, ooff c k a + S64x512.size a ≤ S2048x512.size a := by
  revert c k; decide

theorem off3_eq (c : Dev nD) (k : Fin 8) : k0_off3 c (BitVec.ofNat 32 (64 * k.val)) = ooff c k := k0_off3_eq c k
theorem off4_eq (c : Dev nD) (k : Fin 8) : k0_off4 c (BitVec.ofNat 32 (64 * k.val)) = ooff c k := k0_off4_eq c k

theorem off5_eq (c : Dev nD) (r : Fin 4) : k0_off5 c (BitVec.ofNat 32 (256 + 64 * r.val)) = ooff (xp c) ⟨r.val + 4, by omega⟩ := by
  rw [k0_off5_eq]; revert c r; decide

theorem off6_eq (c : Dev nD) (r : Fin 4) : k0_off6 c (BitVec.ofNat 32 (64 * r.val)) = ooff (yp c) ⟨r.val, by omega⟩ := by
  rw [k0_off6_eq]; revert c r; decide

def sendoff (c : Dev nD) (k : Fin 8) : Fin 3 → ℕ := ![0, rme c + 64 * k.val, 512 - 512 * (c.val % 2)]
def keepoff (c : Dev nD) (k : Fin 8) : Fin 3 → ℕ := ![0, rme c + 64 * k.val, 512 * (c.val % 2)]
theorem off1_eq (c : Dev nD) (k : Fin 8) : k0_off1 c (BitVec.ofNat 32 (64 * k.val)) = sendoff c k := k0_off1_eq c k
theorem off2_eq (c : Dev nD) (k : Fin 8) : k0_off2 c (BitVec.ofNat 32 (64 * k.val)) = keepoff c k := k0_off2_eq c k

def zoff (k : Fin 8) : Fin 2 → ℕ := ![64 * k.val, 0]
theorem zoff_inb (k : Fin 8) : ∀ a, zoff k a + S64x512.size a ≤ S512x512.size a := by revert k; decide

end Cert.KernelIdeal.RS

end
-- ==== Proof.Proto.lean ====
import proofs.«901029_g7700000000001030_dist_rs_v7x_xyz2x2x2_z_m2048_n512_bf16_1_alg».proof.Proof.Geom
import proofs.«901029_g7700000000001030_dist_rs_v7x_xyz2x2x2_z_m2048_n512_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev 𝒱₀ : Variants := Variants.none

abbrev xM : Memref sig .tc .vmem S1x2048x1024 .f32 := Memref.whole cc0_stg0_0
abbrev oM : Memref sig .tc .vmem S2048x512 .bf16 := Memref.whole cc0_stg1_0
abbrev zsM : Memref sig .tc .vmem S512x512 .bf16 := Memref.whole cc0_scratch0
abbrev zrM : Memref sig .tc .vmem S512x512 .bf16 := Memref.whole cc0_scratch1

abbrev zrect (k : Fin 8) : Rect S512x512 := Rect.unit (s := S512x512) (zoff k) S64x512.size (zoff_inb k)

abbrev orect (d : Dev nD) (k : Fin 8) : Rect S2048x512 := Rect.unit (s := S2048x512) (ooff d k) S64x512.size (ooff_inb d k)

abbrev zsCh (k : Fin 8) : Memref sig .tc .vmem S64x512 .bf16 := zsM.slice (zrect k) (fun _ => rfl)
abbrev zrCh (k : Fin 8) : Memref sig .tc .vmem S64x512 .bf16 := zrM.slice (zrect k) (fun _ => rfl)
abbrev oCh (d : Dev nD) (k : Fin 8) : Memref sig .tc .vmem S64x512 .bf16 := oM.slice (orect d k) (fun _ => rfl)

abbrev N : ℕ := (zrCh 0).view.dmaCredit
theorem N_pos : 0 < N := View.dmaCredit_pos _ (by decide)

abbrev barS : Sem sig := (SemArray.scalar (sig.barrier 0 rfl) : Sems sig S_).sem

abbrev zss (k : Fin 8) : DmaSem sig := ⟨2 + k.val, by show 2 + k.val < 66; omega⟩
abbrev zrs (k : Fin 8) : DmaSem sig := ⟨10 + k.val, by show 10 + k.val < 66; omega⟩
abbrev xss (k : Fin 8) : DmaSem sig := ⟨18 + k.val, by show 18 + k.val < 66; omega⟩
abbrev xrs (k : Fin 8) : DmaSem sig := ⟨26 + k.val, by show 26 + k.val < 66; omega⟩
abbrev yss (k : Fin 8) : DmaSem sig := ⟨34 + k.val, by show 34 + k.val < 66; omega⟩
abbrev yrs (k : Fin 8) : DmaSem sig := ⟨42 + k.val, by show 42 + k.val < 66; omega⟩
abbrev fxs (r : Fin 4) : DmaSem sig := ⟨50 + r.val, by show 50 + r.val < 66; omega⟩
abbrev fxr (r : Fin 4) : DmaSem sig := ⟨54 + r.val, by show 54 + r.val < 66; omega⟩
abbrev fys (r : Fin 4) : DmaSem sig := ⟨58 + r.val, by show 58 + r.val < 66; omega⟩
abbrev fyr (r : Fin 4) : DmaSem sig := ⟨62 + r.val, by show 62 + r.val < 66; omega⟩

abbrev barCell (c : Dev nD) : GSem nD τ sig := ((c : Thread nD τ), .reg barS)
abbrev dcell (c : Dev nD) (q : DmaSem sig) : GSem nD τ sig := ((c : Thread nD τ), .dma q)

abbrev osem : Fin 64 → SemLoc sig := fun j => .dma ⟨2 + j.val, by show 2 + j.val < 66; omega⟩

abbrev csem : Fin 65 → SemLoc sig := fun j => if h : j.val = 0 then .reg barS else .dma ⟨1 + j.val, by show 1 + j.val < 66; omega⟩
abbrev kcell (ck : Dev nD × Fin 65) : GSem nD τ sig := ((ck.1 : Thread nD τ), csem ck.2)

def ord : List (Fin 8) := [4, 0, 5, 1, 6, 2, 7, 3]

def X (c : Dev nD) : (cc0_stg0_0 : Ref sig .tc).ty.Contents (Elt F) :=
  (win0_0.blk (0 : Fin 1)).view.read (Elt F) (m ((c : Thread nD τ).loc main_arg0))

def zpay (v : Vec F S1x64x512 .f32) : FVec F S64x512 .bf16 :=
  shapeCast S64x512 (truncf .bf16 (shapeCast S64x512 v shapeCasts_S1x64x512_S64x512) bitsLt_bf16_f32) shapeCasts_S64x512_S64x512

def rpay (v : Vec F S1x64x512 .f32) (w : Vec F S64x512 .bf16) : FVec F S64x512 .bf16 :=
  truncf .bf16 (addf (shapeCast S64x512 v shapeCasts_S1x64x512_S64x512) (extf .f32 w bitsLt_bf16_f32)) bitsLt_bf16_f32

abbrev sendRect (c : Dev nD) (k : Fin 8) : Rect S1x2048x1024 :=
  Rect.unit (s := S1x2048x1024) (k0_off1 c (BitVec.ofNat 32 (64 * k.val))) S1x64x512.size (k0_off1_inb c k)
abbrev keepRect (c : Dev nD) (k : Fin 8) : Rect S1x2048x1024 :=
  Rect.unit (s := S1x2048x1024) (k0_off2 c (BitVec.ofNat 32 (64 * k.val))) S1x64x512.size (k0_off2_inb c k)

def dflt (b : Ref sig .tc) : b.ty.Contents (Elt F) := fun _ => Classical.arbitrary _

def zchunkOf (i : S512x512.Idx) : Fin 8 := ⟨(i 0).val / 64, Nat.div_lt_of_lt_mul (i 0).isLt⟩

def ZSv (c : Dev nD) : (cc0_scratch0 : Ref sig .tc).ty.Contents (Elt F) := fun i =>
  (zsM.access (zrect (zchunkOf i))).write (Elt F) (dflt cc0_scratch0)
    (zpay (xM.view.readAt (Elt F) (sendRect c (zchunkOf i)).toLoadRect (X m c))) Finset.univ i

def ZRv (c : Dev nD) : (cc0_scratch1 : Ref sig .tc).ty.Contents (Elt F) := ZSv m (zp c)

def ownerOf (z : ℕ) (i : S2048x512.Idx) : Dev nD := ⟨(4 * ((i 0).val / 1024) + 2 * (((i 0).val / 512) % 2) + z % 2) % 8, Nat.mod_lt _ (by decide)⟩
def ochunkOf (i : S2048x512.Idx) : Fin 8 := ⟨((i 0).val % 512) / 64, by have := Nat.mod_lt (i 0).val (show 0 < 512 by decide); omega⟩

def Sv (d : Dev nD) (k : Fin 8) : (cc0_stg1_0 : Ref sig .tc).ty.Contents (Elt F) :=
  (oM.access (orect d k)).write (Elt F) (dflt cc0_stg1_0)
    (rpay (xM.view.readAt (Elt F) (keepRect d k).toLoadRect (X m d))
      (zrM.view.readAt (Elt F) (zrect k).toLoadRect (ZRv m d))) Finset.univ

def OUTv (c : Dev nD) : (cc0_stg1_0 : Ref sig .tc).ty.Contents (Elt F) := fun i =>
  Sv m (ownerOf c.val i) (ochunkOf i) i

def zsPts (c : Dev nD) (k : Fin 8) (f : (cc0_scratch0 : Ref sig .tc).ty.Contents (Elt F)) : sProp 𝕄 :=
  (zsCh k).view.loc (c : Thread nD τ) ↦[(zsCh k).view.set]{fullShare} f
def zrPts (c : Dev nD) (k : Fin 8) (f : (cc0_scratch1 : Ref sig .tc).ty.Contents (Elt F)) : sProp 𝕄 :=
  (zrCh k).view.loc (c : Thread nD τ) ↦[(zrCh k).view.set]{fullShare} f

def oPts (c d : Dev nD) (k : Fin 8) (q : PosShare TreeShare) (f : (cc0_stg1_0 : Ref sig .tc).ty.Contents (Elt F)) : sProp 𝕄 :=
  (oCh d k).view.loc (c : Thread nD τ) ↦[(oCh d k).view.set]{q} f

end Cert.KernelIdeal.RS

end
-- ==== Proof.Sched.lean ====
import proofs.«901029_g7700000000001030_dist_rs_v7x_xyz2x2x2_z_m2048_n512_bf16_1_alg».proof.Proof.Proto

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def payDma (c : Dev nD) (q : DmaSem sig) : sProp 𝕄 :=
  if h2 : q.val < 2 then iprop(emp)
  else if h : q.val < 10 then zsPts c ⟨q.val - 2, by omega⟩ (ZSv m c)
  else if h : q.val < 18 then zrPts c ⟨q.val - 10, by omega⟩ (ZRv m c)
  else if h : q.val < 26 then oPts c c ⟨q.val - 18, by omega⟩ fullShare.left (OUTv m c)
  else if h : q.val < 34 then oPts c (xp c) ⟨q.val - 26, by omega⟩ fullShare (OUTv m c)
  else if h : q.val < 42 then oPts c c ⟨q.val - 34, by omega⟩ fullShare.right (OUTv m c)
  else if h : q.val < 50 then oPts c (yp c) ⟨q.val - 42, by omega⟩ fullShare (OUTv m c)
  else if h : q.val < 54 then oPts c (yp c) ⟨q.val - 50, by omega⟩ fullShare (OUTv m c)
  else if h : q.val < 58 then oPts c (xp (yp c)) ⟨q.val - 54, by omega⟩ fullShare (OUTv m c)
  else if h : q.val < 62 then oPts c (xp c) ⟨q.val - 58 + 4, by omega⟩ fullShare (OUTv m c)
  else oPts c (xp (yp c)) ⟨q.val - 62 + 4, by have := q.isLt; (have : sig.nDmaSem = 66 := rfl); omega⟩ fullShare (OUTv m c)

def barPay (c : Dev nD) (d : Fin 3) : sProp 𝕄 :=
  if d = 0 then iprop(∃ f, bigSep Finset.univ fun k : Fin 8 => zrPts (zp c) k f)
  else if d = 1 then
    iprop(∃ f, (bigSep Finset.univ fun k : Fin 8 => oPts (xp c) c k fullShare f)
      ∗ (bigSep Finset.univ fun r : Fin 4 => oPts (xp c) (yp c) ⟨r.val, by omega⟩ fullShare f))
  else
    iprop(∃ f, (bigSep Finset.univ fun k : Fin 8 => oPts (yp c) c k fullShare f)
      ∗ (bigSep Finset.univ fun r : Fin 4 => oPts (yp c) (xp c) ⟨r.val + 4, by omega⟩ fullShare f))

def Rd : Rounds.Schedule (GSem nD τ sig) (Fin 3) 𝕄 where
  duties g r :=
    if r = 0 ∧ g.1.2 = .tc then
      (match g.2 with
        | .reg s => if s = barS then Finset.univ else ∅
        | .dma q => if 2 ≤ q.val then {0} else ∅)
    else ∅
  unitless _ := False
  amount g _ _ := match g.2 with
    | .reg _ => 1
    | .dma _ => N
  payload g _ d := match g.2 with
    | .reg _ => barPay g.1.1 d
    | .dma q => payDma m g.1.1 q
  amount_pos g _ _ _ := by
    cases g.2 with
    | reg _ => exact Nat.one_pos
    | dma _ => exact N_pos

def obl (c : Dev nD) : List (GSem nD τ sig × ℕ) :=
  [(barCell (zp c), 1), (barCell (xp c), 1), (barCell (yp c), 1)]
  ++ ord.map (fun k => (dcell (zp c) (zrs k), N))
  ++ ord.flatMap (fun k => [(dcell (xp c) (xrs k), N), (dcell (yp c) (yrs k), N)])
  ++ [(dcell (yp c) (fyr 0), N), (dcell (xp c) (fxr 0), N), (dcell (yp c) (fyr 1), N), (dcell (xp c) (fxr 1), N),
      (dcell (yp c) (fyr 2), N), (dcell (xp c) (fxr 2), N), (dcell (yp c) (fyr 3), N), (dcell (xp c) (fxr 3), N)]

def Orem (c : Dev nD) (n : ℕ) : CellTallies nD τ sig Unit :=
  (((obl c).drop n).map fun p => tallyAt p.1 () p.2).sum

def L (g : GSem nD τ sig) : Finset Unit := if g.1.2 = .tc then {()} else ∅

def lv (g : GSem nD τ sig) (_ : Unit) : ℕ :=
  match g.2 with
  | .reg _ => 1
  | .dma q =>
    if 10 ≤ q.val ∧ q.val < 18 then 2
    else if (26 ≤ q.val ∧ q.val < 34) ∨ (42 ≤ q.val ∧ q.val < 50) then 3
    else if (54 ≤ q.val ∧ q.val < 58) ∨ 62 ≤ q.val then 4
    else 0

def records (K : Dev nD × Fin 65 → ℕ) : sProp 𝕄 :=
  iprop((bigSep Finset.univ fun ck : Dev nD × Fin 65 => cellInv ER (Rd m) (K ck) (kcell ck))
    ∗ bigSep Finset.univ fun ck : Dev nD × Fin 65 => reached ER (kcell ck) 0)

instance records_pers (K : Dev nD × Fin 65 → ℕ) : BI.Persistent (records m K) := by unfold records; infer_instance

def payToks (c : Dev nD) : sProp 𝕄 :=
  iprop(dutyTok ER (barCell (zp c)) 0 0 ∗ dutyTok ER (barCell (xp c)) 0 1 ∗ dutyTok ER (barCell (yp c)) 0 2
    ∗ (bigSep Finset.univ fun k : Fin 8 => iprop(dutyTok ER (dcell c (zss k)) 0 0 ∗ dutyTok ER (dcell (zp c) (zrs k)) 0 0))
    ∗ (bigSep Finset.univ fun k : Fin 8 => iprop(dutyTok ER (dcell c (xss k)) 0 0 ∗ dutyTok ER (dcell (xp c) (xrs k)) 0 0))
    ∗ (bigSep Finset.univ fun k : Fin 8 => iprop(dutyTok ER (dcell c (yss k)) 0 0 ∗ dutyTok ER (dcell (yp c) (yrs k)) 0 0))
    ∗ (bigSep Finset.univ fun r : Fin 4 => iprop(dutyTok ER (dcell c (fxs r)) 0 0 ∗ dutyTok ER (dcell (xp c) (fxr r)) 0 0))
    ∗ (bigSep Finset.univ fun r : Fin 4 => iprop(dutyTok ER (dcell c (fys r)) 0 0 ∗ dutyTok ER (dcell (yp c) (fyr r)) 0 0)))

def positions (c : Dev nD) : sProp 𝕄 := bigSep Finset.univ fun j : Fin 65 => atPos ER (kcell (c, j)) 0 ∅ 0

def ghost (K : Dev nD × Fin 65 → ℕ) (c : Dev nD) : sProp 𝕄 := iprop(records m K ∗ positions c ∗ payToks c)

def creds (c : Dev nD) : sProp 𝕄 :=
  iprop(cred (tallyAt (barCell c) () 3)
    ∗ (bigSep Finset.univ fun k : Fin 8 => cred (tallyAt (dcell c (zrs k)) () N))
    ∗ (bigSep Finset.univ fun k : Fin 8 => cred (tallyAt (dcell c (xrs k)) () N))
    ∗ (bigSep Finset.univ fun k : Fin 8 => cred (tallyAt (dcell c (yrs k)) () N))
    ∗ (bigSep Finset.univ fun r : Fin 4 => cred (tallyAt (dcell c (fxr r)) () N))
    ∗ (bigSep Finset.univ fun r : Fin 4 => cred (tallyAt (dcell c (fyr r)) () N)))

def start (c : Dev nD) : sProp 𝕄 := iprop((∃ K, ghost m K c) ∗ creds c ∗ levAts L lv)

def Φ₀ (c : Dev nD) : sProp 𝕄 :=
  iprop(start m c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₁ (c : Dev nD) : sProp 𝕄 :=
  iprop((((c : Thread nD τ).loc cc0_scratch0) ↦{fullShare} ZSv m c) ∗ (((c : Thread nD τ).loc cc0_scratch1) ↦{fullShare} ZRv m c)
    ∗ bigSep Finset.univ fun j : Fin 64 => semVal ((c : Thread nD τ), osem j) 0)

def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => OUTv m c
  Φ t := match t with
    | ⟨0, _⟩ => Φ₀ m c
    | ⟨_ + 1, _⟩ => Φ₁ m c
  q _ := fullShare
  owed t := match t with
    | ⟨0, _⟩ => Orem c 0
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.RS

end
-- ==== Proof.Tables.lean ====
import proofs.«901029_g7700000000001030_dist_rs_v7x_xyz2x2x2_z_m2048_n512_bf16_1_alg».proof.Proof.Sched

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
private theorem bigSep_fin3 (Φ : Fin 3 → sProp 𝕄) : bigSep Finset.univ Φ = iprop(Φ 0 ∗ Φ 1 ∗ Φ 2) :=
  bigSep_univ_eq_bigSepL [0, 1, 2] (by decide) (by decide) Φ

theorem duties_bar (c : Dev nD) : (Rd (F := F) m).duties (barCell c) 0 = Finset.univ := by
  dsimp only [Rd]; rw [if_pos ⟨rfl, rfl⟩]; exact if_pos rfl
theorem duties_dma (c : Dev nD) (q : DmaSem sig) (hq : 2 ≤ q.val) : (Rd (F := F) m).duties (dcell c q) 0 = {0} := by
  dsimp only [Rd]; rw [if_pos ⟨rfl, rfl⟩]; exact if_pos hq
theorem duties_later (g : GSem nD τ sig) : ∀ r, 1 ≤ r → (Rd (F := F) m).duties g r = ∅ :=
  fun r hr => by dsimp only [Rd]; exact if_neg fun h => by omega

theorem amount_bar (c : Dev nD) (d : Fin 3) : (Rd (F := F) m).amount (barCell c) 0 d = 1 := rfl
theorem amount_dma (c : Dev nD) (q : DmaSem sig) (d : Fin 3) : (Rd (F := F) m).amount (dcell c q) 0 d = N := rfl

theorem expect_bar (c : Dev nD) : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_dma (c : Dev nD) (q : DmaSem sig) (hq : 2 ≤ q.val) : (Rd (F := F) m).expect (dcell c q) 0 = N := by
  unfold Schedule.expect Schedule.amountOf; rw [duties_dma m c q hq, Finset.sum_singleton, amount_dma]

theorem payload_bar (c : Dev nD) (d : Fin 3) : (Rd (F := F) m).payload (barCell c) 0 d = barPay c d := rfl
theorem payload_dma (c : Dev nD) (q : DmaSem sig) (d : Fin 3) : (Rd (F := F) m).payload (dcell c q) 0 d = payDma m c q := rfl

theorem rest_bar (c : Dev nD) : bigSep ((Rd (F := F) m).duties (barCell c) 0 \ ∅) (fun d => (Rd (F := F) m).payload (barCell c) 0 d) = iprop(barPay (F := F) c 0 ∗ barPay c 1 ∗ barPay c 2) := by
  rw [Finset.sdiff_empty, duties_bar, bigSep_fin3]
  rfl

theorem rest_dma (c : Dev nD) (q : DmaSem sig) (hq : 2 ≤ q.val) : bigSep ((Rd (F := F) m).duties (dcell c q) 0 \ ∅) (fun d => (Rd (F := F) m).payload (dcell c q) 0 d) = payDma m c q := by
  rw [Finset.sdiff_empty, duties_dma m c q hq, bigSep_singleton, payload_dma]

theorem payDma_zss (c : Dev nD) (k : Fin 8) : payDma m c (zss k) = zsPts c k (ZSv m c) := by
  unfold payDma
  rw [dif_neg (show ¬ 2 + k.val < 2 by omega), dif_pos (show 2 + k.val < 10 by omega)]
  exact congrArg (fun k' => zsPts c k' (ZSv m c)) (Fin.ext (show 2 + k.val - 2 = k.val by omega))
theorem payDma_zrs (c : Dev nD) (k : Fin 8) : payDma m c (zrs k) = zrPts c k (ZRv m c) := by
  unfold payDma
  rw [dif_neg (show ¬ 10 + k.val < 2 by omega), dif_neg (show ¬ 10 + k.val < 10 by omega), dif_pos (show 10 + k.val < 18 by omega)]
  exact congrArg (fun k' => zrPts c k' (ZRv m c)) (Fin.ext (show 10 + k.val - 10 = k.val by omega))
theorem payDma_xss (c : Dev nD) (k : Fin 8) : payDma m c (xss k) = oPts c c k fullShare.left (OUTv m c) := by
  unfold payDma
  rw [dif_neg (show ¬ 18 + k.val < 2 by omega), dif_neg (show ¬ 18 + k.val < 10 by omega), dif_neg (show ¬ 18 + k.val < 18 by omega),
    dif_pos (show 18 + k.val < 26 by omega)]
  exact congrArg (fun k' => oPts c c k' fullShare.left (OUTv m c)) (Fin.ext (show 18 + k.val - 18 = k.val by omega))
theorem payDma_xrs (c : Dev nD) (k : Fin 8) : payDma m c (xrs k) = oPts c (xp c) k fullShare (OUTv m c) := by
  unfold payDma
  rw [dif_neg (show ¬ 26 + k.val < 2 by omega), dif_neg (show ¬ 26 + k.val < 10 by omega), dif_neg (show ¬ 26 + k.val < 18 by omega),
    dif_neg (show ¬ 26 + k.val < 26 by omega), dif_pos (show 26 + k.val < 34 by omega)]
  exact congrArg (fun k' => oPts c (xp c) k' fullShare (OUTv m c)) (Fin.ext (show 26 + k.val - 26 = k.val by omega))
theorem payDma_yss (c : Dev nD) (k : Fin 8) : payDma m c (yss k) = oPts c c k fullShare.right (OUTv m c) := by
  unfold payDma
  rw [dif_neg (show ¬ 34 + k.val < 2 by omega), dif_neg (show ¬ 34 + k.val < 10 by omega), dif_neg (show ¬ 34 + k.val < 18 by omega),
    dif_neg (show ¬ 34 + k.val < 26 by omega), dif_neg (show ¬ 34 + k.val < 34 by omega), dif_pos (show 34 + k.val < 42 by omega)]
  exact congrArg (fun k' => oPts c c k' fullShare.right (OUTv m c)) (Fin.ext (show 34 + k.val - 34 = k.val by omega))
theorem payDma_yrs (c : Dev nD) (k : Fin 8) : payDma m c (yrs k) = oPts c (yp c) k fullShare (OUTv m c) := by
  unfold payDma
  rw [dif_neg (show ¬ 42 + k.val < 2 by omega), dif_neg (show ¬ 42 + k.val < 10 by omega), dif_neg (show ¬ 42 + k.val < 18 by omega),
    dif_neg (show ¬ 42 + k.val < 26 by omega), dif_neg (show ¬ 42 + k.val < 34 by omega), dif_neg (show ¬ 42 + k.val < 42 by omega),
    dif_pos (show 42 + k.val < 50 by omega)]
  exact congrArg (fun k' => oPts c (yp c) k' fullShare (OUTv m c)) (Fin.ext (show 42 + k.val - 42 = k.val by omega))
theorem payDma_fxs (c : Dev nD) (r : Fin 4) : payDma m c (fxs r) = oPts c (yp c) ⟨r.val, by omega⟩ fullShare (OUTv m c) := by
  unfold payDma
  rw [dif_neg (show ¬ 50 + r.val < 2 by omega), dif_neg (show ¬ 50 + r.val < 10 by omega), dif_neg (show ¬ 50 + r.val < 18 by omega),
    dif_neg (show ¬ 50 + r.val < 26 by omega), dif_neg (show ¬ 50 + r.val < 34 by omega), dif_neg (show ¬ 50 + r.val < 42 by omega),
    dif_neg (show ¬ 50 + r.val < 50 by omega), dif_pos (show 50 + r.val < 54 by omega)]
  exact congrArg (fun k' => oPts c (yp c) k' fullShare (OUTv m c)) (Fin.ext (show 50 + r.val - 50 = r.val by omega))
theorem payDma_fxr (c : Dev nD) (r : Fin 4) : payDma m c (fxr r) = oPts c (xp (yp c)) ⟨r.val, by omega⟩ fullShare (OUTv m c) := by
  unfold payDma
  rw [dif_neg (show ¬ 54 + r.val < 2 by omega), dif_neg (show ¬ 54 + r.val < 10 by omega), dif_neg (show ¬ 54 + r.val < 18 by omega),
    dif_neg (show ¬ 54 + r.val < 26 by omega), dif_neg (show ¬ 54 + r.val < 34 by omega), dif_neg (show ¬ 54 + r.val < 42 by omega),
    dif_neg (show ¬ 54 + r.val < 50 by omega), dif_neg (show ¬ 54 + r.val < 54 by omega), dif_pos (show 54 + r.val < 58 by omega)]
  exact congrArg (fun k' => oPts c (xp (yp c)) k' fullShare (OUTv m c)) (Fin.ext (show 54 + r.val - 54 = r.val by omega))
theorem payDma_fys (c : Dev nD) (r : Fin 4) : payDma m c (fys r) = oPts c (xp c) ⟨r.val + 4, by omega⟩ fullShare (OUTv m c) := by
  unfold payDma
  rw [dif_neg (show ¬ 58 + r.val < 2 by omega), dif_neg (show ¬ 58 + r.val < 10 by omega), dif_neg (show ¬ 58 + r.val < 18 by omega),
    dif_neg (show ¬ 58 + r.val < 26 by omega), dif_neg (show ¬ 58 + r.val < 34 by omega), dif_neg (show ¬ 58 + r.val < 42 by omega),
    dif_neg (show ¬ 58 + r.val < 50 by omega), dif_neg (show ¬ 58 + r.val < 54 by omega), dif_neg (show ¬ 58 + r.val < 58 by omega),
    dif_pos (show 58 + r.val < 62 by omega)]
  exact congrArg (fun k' => oPts c (xp c) k' fullShare (OUTv m c)) (Fin.ext (show 58 + r.val - 58 + 4 = r.val + 4 by omega))
theorem payDma_fyr (c : Dev nD) (r : Fin 4) : payDma m c (fyr r) = oPts c (xp (yp c)) ⟨r.val + 4, by omega⟩ fullShare (OUTv m c) := by
  unfold payDma
  rw [dif_neg (show ¬ 62 + r.val < 2 by omega), dif_neg (show ¬ 62 + r.val < 10 by omega), dif_neg (show ¬ 62 + r.val < 18 by omega),
    dif_neg (show ¬ 62 + r.val < 26 by omega), dif_neg (show ¬ 62 + r.val < 34 by omega), dif_neg (show ¬ 62 + r.val < 42 by omega),
    dif_neg (show ¬ 62 + r.val < 50 by omega), dif_neg (show ¬ 62 + r.val < 54 by omega), dif_neg (show ¬ 62 + r.val < 58 by omega),
    dif_neg (show ¬ 62 + r.val < 62 by omega)]
  exact congrArg (fun k' => oPts c (xp (yp c)) k' fullShare (OUTv m c)) (Fin.ext (show 62 + r.val - 62 + 4 = r.val + 4 by omega))

instance Rd_payload_storable (g : GSem nD τ sig) (r : ℕ) (d : Fin 3) : BI.Storable (upEmb : UEmb _ 𝕄) ((Rd (F := F) m).payload g r d) := by
  obtain ⟨t, s⟩ := g
  cases s with
  | reg s =>
    show BI.Storable upEmb (barPay t.1 d)
    unfold barPay zrPts oPts
    (repeat' split) <;> infer_instance
  | dma q =>
    show BI.Storable upEmb (payDma m t.1 q)
    unfold payDma zsPts zrPts oPts
    (repeat' split) <;> infer_instance

end Cert.KernelIdeal.RS

end
-- ==== Proof.Alloc.lean ====
import proofs.«901029_g7700000000001030_dist_rs_v7x_xyz2x2x2_z_m2048_n512_bf16_1_alg».proof.Proof.Sched
import proofs.«901029_g7700000000001030_dist_rs_v7x_xyz2x2x2_z_m2048_n512_bf16_1_alg».proof.Proof.Tables
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem csem_succ (j : Fin 64) : csem j.succ = osem j := by
  dsimp only [csem]
  rw [dif_neg (by rw [Fin.val_succ]; exact Nat.succ_ne_zero _)]
  exact congrArg SemLoc.dma (Fin.ext (by show 1 + j.succ.val = 2 + j.val; rw [Fin.val_succ]; omega))

theorem csem_injective : Function.Injective (csem : Fin 65 → SemLoc sig) := by
  intro j j' h
  by_cases h0 : j.val = 0 <;> by_cases h0' : j'.val = 0
  · exact Fin.ext (h0.trans h0'.symm)
  · exfalso; dsimp only [csem] at h; rw [dif_pos h0, dif_neg h0'] at h; cases h
  · exfalso; dsimp only [csem] at h; rw [dif_neg h0, dif_pos h0'] at h; cases h
  · dsimp only [csem] at h; rw [dif_neg h0, dif_neg h0'] at h
    have h3 : 1 + j.val = 1 + j'.val := congrArg Fin.val (SemLoc.dma.inj h)
    exact Fin.ext (by omega)

theorem kcell_injective : Function.Injective (kcell : Dev nD × Fin 65 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

abbrev tokOf (cj : Dev nD × (Fin 3 ⊕ Fin 64)) : GSem nD τ sig × ℕ × Fin 3 := match cj.2 with
  | .inl d => (barCell cj.1, 0, d)
  | .inr j => (((cj.1 : Thread nD τ), osem j), 0, 0)

theorem tokOf_injective : Function.Injective (tokOf : Dev nD × (Fin 3 ⊕ Fin 64) → GSem nD τ sig × ℕ × Fin 3) := by
  rintro ⟨c, j⟩ ⟨c', j'⟩ h
  have h1 : c = c' := by
    have := congrArg (fun x : GSem nD τ sig × ℕ × Fin 3 => x.1.1.1) h
    rcases j with d | j <;> rcases j' with d' | j' <;> exact this
  subst h1
  rcases j with d | j <;> rcases j' with d' | j'
  · have : d = d' := congrArg (fun x : GSem nD τ sig × ℕ × Fin 3 => x.2.2) h
    rw [this]
  · exact absurd (congrArg (fun x : GSem nD τ sig × ℕ × Fin 3 => x.1.2) h) (fun h' => by cases h')
  · exact absurd (congrArg (fun x : GSem nD τ sig × ℕ × Fin 3 => x.1.2) h) (fun h' => by cases h')
  · have h2 : osem j = osem j' := congrArg (fun x : GSem nD τ sig × ℕ × Fin 3 => x.1.2) h
    have h3 : 2 + j.val = 2 + j'.val := congrArg Fin.val (SemLoc.dma.inj h2)
    have : j = j' := Fin.ext (by omega)
    rw [this]

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun d : Fin 3 => dutyTok ER (barCell c) 0 d)
    ∗ bigSep Finset.univ fun j : Fin 64 => dutyTok ER ((c : Thread nD τ), osem j) 0 0)

def G (c : Dev nD) : sProp 𝕄 :=
  iprop((bigSep Finset.univ fun j : Fin 65 => roundState ER (Rd m) (kcell (c, j)) 0)
    ∗ (bigSep Finset.univ fun j : Fin 65 => iprop(atPos ER (kcell (c, j)) 0 ∅ 0 ∗ reached ER (kcell (c, j)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 65 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU (u₀ : UU) : sProp 𝕄) ⊢ |={Set.univ}=> iprop(BI.own (EP (initOf (Pipeline.cells cfgs cellOf_inj) (Pipeline.launchToks cfgs cellOf_inj))) ∗ bigSep Finset.univ (G (F := F) m)) := by
  unfold u₀
  iintro Hu
  ihave H := (ownU_pair _ _) $$ Hu
  icases H with ⟨HP, HX⟩
  imod (fund_ring m) $$ HX with HG
  imodintro
  isplitl [HP] <;> iassumption

theorem ownSemFacts : Pipeline.OwnSemFacts cfg0.spec osem := by
  decide

theorem ownSems0_eq (c : Dev nD) : (Pipeline.ownSems0 (Ix := Unit) (Name := ℕ) (U := UU) (Lvl := ℕ) (Val := Elt F) (τ := τ) osem c : sProp 𝕄)
    = bigSep Finset.univ fun j : Fin 64 => semVal ((c : Thread nD τ), osem j) 0 := rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_fin65 (Φ : Fin 65 → sProp 𝕄) : bigSep Finset.univ Φ = iprop(Φ 0 ∗ bigSep Finset.univ fun j : Fin 64 => Φ j.succ) := by
  rw [Fin.univ_succ, Finset.cons_eq_insert, bigSep_insert (by simp [Fin.succ_ne_zero]), bigSep_map]
  rfl

theorem kcell_succ (c : Dev nD) (j : Fin 64) : kcell (c, j.succ) = ((c : Thread nD τ), osem j) :=
  congrArg (Prod.mk (c : Thread nD τ)) (csem_succ j)

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  have e : (bigSep Finset.univ fun j : Fin 64 => (semVal (kcell (c, j.succ)) 0 : sProp 𝕄))
      = bigSep Finset.univ fun j : Fin 64 => semVal ((c : Thread nD τ), osem j) 0 :=
    bigSep_congr fun j _ => by rw [kcell_succ]
  rw [ownSems0_eq, unscopedSems0_eq, bigSep_fin65, e]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 65 => iprop(∃ κ : ℕ, cellInv ER (Rd m) κ (kcell (c, k))))
          ∗ (bigSep Finset.univ fun k : Fin 65 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 65 => semVal (kcell (c, k)) 0) ∗ bigSep Finset.univ fun k : Fin 65 => roundState ER (Rd m) (kcell (c, k)) 0)
      ⊢ (|={Set.univ}=> bigSep Finset.univ fun k : Fin 65 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 65 → ℕ) (c : Dev nD) : iprop(records m K ∗ positions c ∗ payToks c) ⊢ G' m c := by
  unfold G' ghost
  iintro H
  iexists K
  iexact H

theorem bigSep_three (Φ : Fin 3 → sProp 𝕄) : bigSep Finset.univ Φ = iprop(Φ 0 ∗ Φ 1 ∗ Φ 2) :=
  bigSep_univ_eq_bigSepL [0, 1, 2] (by decide) (by decide) Φ

theorem bigSep_fin_add (a b : ℕ) (Φ : Fin (a + b) → sProp 𝕄) :
    bigSep Finset.univ Φ = iprop((bigSep Finset.univ fun i : Fin a => Φ (Fin.castAdd b i)) ∗ bigSep Finset.univ fun j : Fin b => Φ (Fin.natAdd a j)) := by
  rw [bigSep_univ_equiv finSumFinEquiv Φ, bigSep_univ_sum]
  rfl

theorem sep_congr {P P' Q Q' : sProp 𝕄} (h : P = P') (h' : Q = Q') : iprop(P ∗ Q) = iprop(P' ∗ Q') := by rw [h, h']

theorem dma_groups (Ψ : DmaSem sig → sProp 𝕄) :
    (bigSep Finset.univ fun j : Fin 64 => Ψ ⟨2 + j.val, by show 2 + j.val < 66; omega⟩)
      = iprop(((bigSep Finset.univ fun k : Fin 8 => Ψ (zss k)) ∗ (bigSep Finset.univ fun k : Fin 8 => Ψ (zrs k))
          ∗ (bigSep Finset.univ fun k : Fin 8 => Ψ (xss k)) ∗ (bigSep Finset.univ fun k : Fin 8 => Ψ (xrs k))
          ∗ (bigSep Finset.univ fun k : Fin 8 => Ψ (yss k)) ∗ (bigSep Finset.univ fun k : Fin 8 => Ψ (yrs k)))
        ∗ ((bigSep Finset.univ fun r : Fin 4 => Ψ (fxs r)) ∗ (bigSep Finset.univ fun r : Fin 4 => Ψ (fxr r))
          ∗ (bigSep Finset.univ fun r : Fin 4 => Ψ (fys r)) ∗ (bigSep Finset.univ fun r : Fin 4 => Ψ (fyr r)))) := by
  rw [bigSep_fin_add 48 16, bigSep_fin_add 4 12, bigSep_fin_add 4 8, bigSep_fin_add 4 4,
    bigSep_fin_add 8 40, bigSep_fin_add 8 32, bigSep_fin_add 8 24, bigSep_fin_add 8 16, bigSep_fin_add 8 8]
  refine sep_congr (sep_congr ?_ (sep_congr ?_ (sep_congr ?_ (sep_congr ?_ (sep_congr ?_ ?_))))) (sep_congr ?_ (sep_congr ?_ (sep_congr ?_ ?_))) <;>
    exact bigSep_congr fun k _ => congrArg Ψ (Fin.ext (by simp only [Fin.coe_castAdd, Fin.coe_natAdd] <;> omega))

def toksS (c : Dev nD) : sProp 𝕄 :=
  iprop((dutyTok ER (barCell c) 0 0 ∗ dutyTok ER (barCell c) 0 1 ∗ dutyTok ER (barCell c) 0 2)
    ∗ ((bigSep Finset.univ fun k : Fin 8 => dutyTok ER (dcell c (zss k)) 0 0) ∗ (bigSep Finset.univ fun k : Fin 8 => dutyTok ER (dcell c (zrs k)) 0 0)
      ∗ (bigSep Finset.univ fun k : Fin 8 => dutyTok ER (dcell c (xss k)) 0 0) ∗ (bigSep Finset.univ fun k : Fin 8 => dutyTok ER (dcell c (xrs k)) 0 0)
      ∗ (bigSep Finset.univ fun k : Fin 8 => dutyTok ER (dcell c (yss k)) 0 0) ∗ (bigSep Finset.univ fun k : Fin 8 => dutyTok ER (dcell c (yrs k)) 0 0))
    ∗ ((bigSep Finset.univ fun r : Fin 4 => dutyTok ER (dcell c (fxs r)) 0 0) ∗ (bigSep Finset.univ fun r : Fin 4 => dutyTok ER (dcell c (fxr r)) 0 0)
      ∗ (bigSep Finset.univ fun r : Fin 4 => dutyTok ER (dcell c (fys r)) 0 0) ∗ (bigSep Finset.univ fun r : Fin 4 => dutyTok ER (dcell c (fyr r)) 0 0)))

theorem toks_eq (c : Dev nD) : (toks c : sProp 𝕄) = toksS c := by
  unfold toks toksS
  rw [bigSep_three]
  exact congrArg (fun X : sProp 𝕄 => iprop((dutyTok ER (barCell c) 0 0 ∗ dutyTok ER (barCell c) 0 1 ∗ dutyTok ER (barCell c) 0 2) ∗ X))
    (dma_groups (fun q => (dutyTok ER (dcell c q) 0 0 : sProp 𝕄)))

theorem around (e : Dev nD ≃ Dev nD) (Φ : Dev nD → sProp 𝕄) : bigSep Finset.univ Φ ⊢ bigSep Finset.univ fun c => Φ (e c) :=
  Entails.of_eq (bigSep_univ_equiv e Φ)

theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold toksS payToks
  simp only [bigSep_sep']
  iintro ⟨⟨B0, B1, B2⟩, ⟨ZS, ZR, XS, XR, YS, YR⟩, FXS, FXR, FYS, FYR⟩
  ihave B0' := (around zpE fun c : Dev nD => (dutyTok ER (barCell c) 0 0 : sProp 𝕄)) $$ B0
  ihave B1' := (around xpE fun c : Dev nD => (dutyTok ER (barCell c) 0 1 : sProp 𝕄)) $$ B1
  ihave B2' := (around ypE fun c : Dev nD => (dutyTok ER (barCell c) 0 2 : sProp 𝕄)) $$ B2
  ihave ZR' := (around zpE fun c : Dev nD => (bigSep Finset.univ fun k : Fin 8 => dutyTok ER (dcell c (zrs k)) 0 0 : sProp 𝕄)) $$ ZR
  ihave XR' := (around xpE fun c : Dev nD => (bigSep Finset.univ fun k : Fin 8 => dutyTok ER (dcell c (xrs k)) 0 0 : sProp 𝕄)) $$ XR
  ihave YR' := (around ypE fun c : Dev nD => (bigSep Finset.univ fun k : Fin 8 => dutyTok ER (dcell c (yrs k)) 0 0 : sProp 𝕄)) $$ YR
  ihave FXR' := (around xpE fun c : Dev nD => (bigSep Finset.univ fun r : Fin 4 => dutyTok ER (dcell c (fxr r)) 0 0 : sProp 𝕄)) $$ FXR
  ihave FYR' := (around ypE fun c : Dev nD => (bigSep Finset.univ fun r : Fin 4 => dutyTok ER (dcell c (fyr r)) 0 0 : sProp 𝕄)) $$ FYR
  isplitl [B0']; · iexact B0'
  isplitl [B1']; · iexact B1'
  isplitl [B2']; · iexact B2'
  isplitl [ZS ZR']
  · isplitl [ZS]; · iexact ZS
    iexact ZR'
  isplitl [XS XR']
  · isplitl [XS]; · iexact XS
    iexact XR'
  isplitl [YS YR']
  · isplitl [YS]; · iexact YS
    iexact YR'
  isplitl [FXS FXR']
  · isplitl [FXS]; · iexact FXS
    iexact FXR'
  isplitl [FYS]; · iexact FYS
  iexact FYR'

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 65 => iprop(∃ κ : ℕ, cellInv ER (Rd m) κ (kcell (c, k))))
          ∗ (bigSep Finset.univ fun k : Fin 65 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 65 => iprop(∃ κ : ℕ, cellInv ER (Rd m) κ (kcell ck))),
    bigSep_congr (s := Finset.univ) (fun (c : Dev nD) _ => bigSep_sep' Finset.univ (fun k : Fin 65 => (atPos ER (kcell (c, k)) 0 ∅ 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.RS

end
-- ==== Proof.Levels.lean ====
import proofs.«901029_g7700000000001030_dist_rs_v7x_xyz2x2x2_z_m2048_n512_bf16_1_alg».proof.Proof.Sched

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

theorem obl_get (c : Dev nD) : obl c =
    [(barCell (zp c), 1), (barCell (xp c), 1), (barCell (yp c), 1),
     (dcell (zp c) (zrs 4), N), (dcell (zp c) (zrs 0), N), (dcell (zp c) (zrs 5), N), (dcell (zp c) (zrs 1), N),
     (dcell (zp c) (zrs 6), N), (dcell (zp c) (zrs 2), N), (dcell (zp c) (zrs 7), N), (dcell (zp c) (zrs 3), N),
     (dcell (xp c) (xrs 4), N), (dcell (yp c) (yrs 4), N), (dcell (xp c) (xrs 0), N), (dcell (yp c) (yrs 0), N),
     (dcell (xp c) (xrs 5), N), (dcell (yp c) (yrs 5), N), (dcell (xp c) (xrs 1), N), (dcell (yp c) (yrs 1), N),
     (dcell (xp c) (xrs 6), N), (dcell (yp c) (yrs 6), N), (dcell (xp c) (xrs 2), N), (dcell (yp c) (yrs 2), N),
     (dcell (xp c) (xrs 7), N), (dcell (yp c) (yrs 7), N), (dcell (xp c) (xrs 3), N), (dcell (yp c) (yrs 3), N),
     (dcell (yp c) (fyr 0), N), (dcell (xp c) (fxr 0), N), (dcell (yp c) (fyr 1), N), (dcell (xp c) (fxr 1), N),
     (dcell (yp c) (fyr 2), N), (dcell (xp c) (fxr 2), N), (dcell (yp c) (fyr 3), N), (dcell (xp c) (fxr 3), N)] := rfl

theorem obl_length (c : Dev nD) : (obl c).length = 35 := rfl

theorem Orem_step (c : Dev nD) (n : ℕ) (p : GSem nD τ sig × ℕ) (h : (obl c)[n]? = some p) :
    Orem c n = Orem c (n + 1) + tallyAt p.1 () p.2 := by
  obtain ⟨hn, rfl⟩ := List.getElem?_eq_some_iff.mp h
  unfold Orem
  rw [List.drop_eq_getElem_cons hn, List.map_cons, List.sum_cons, add_comm]

theorem Orem_at (c : Dev nD) (n : ℕ) (g : GSem nD τ sig) (k : ℕ) (h : (obl c)[n]? = some (g, k)) :
    Orem c n = Orem c (n + 1) + tallyAt g () k := Orem_step c n _ h

theorem Orem_end (c : Dev nD) : Orem c 35 = 0 := by
  unfold Orem
  rw [List.drop_eq_nil_of_le (by rw [obl_length])]
  rfl

def lvTbl : List ℕ :=
  [1, 1, 1, 2, 2, 2, 2, 2, 2, 2, 2, 3, 3, 3, 3, 3, 3, 3, 3, 3, 3, 3, 3, 3, 3, 3, 3, 4, 4, 4, 4, 4, 4, 4, 4]

theorem obl_lv (c : Dev nD) : (obl c).map (fun p => lv p.1 ()) = lvTbl := by
  rw [obl_get]; rfl

theorem obl_tc (c : Dev nD) (p : GSem nD τ sig × ℕ) (hp : p ∈ obl c) : L p.1 = {()} := by
  unfold obl at hp
  simp only [List.mem_append, List.mem_map, List.mem_flatMap, List.mem_cons, List.not_mem_nil, or_false] at hp
  rcases hp with (((rfl | rfl | rfl) | ⟨k, _, rfl⟩) | ⟨k, _, rfl | rfl⟩) | (rfl | rfl | rfl | rfl | rfl | rfl | rfl | rfl) <;>
    exact L_tc _ _

theorem sum_tally_pos (l : List (GSem nD τ sig × ℕ)) (g : GSem nD τ sig) (i : Unit)
    (h : 0 < ((l.map fun p => (tallyAt p.1 () p.2 : CellTallies nD τ sig Unit)).sum) g i) : ∃ p ∈ l, p.1 = g := by
  induction l with
  | nil => exact absurd h (Nat.lt_irrefl 0)
  | cons a l ih =>
    rw [List.map_cons, List.sum_cons] at h
    rcases Pipeline.add_pos_cases h with h | h
    · rw [tallyAt_apply] at h
      by_cases hg : g = a.1 ∧ i = ()
      · exact ⟨a, List.mem_cons_self, hg.1.symm⟩
      · rw [if_neg hg] at h; exact absurd h (Nat.lt_irrefl 0)
    · obtain ⟨p, hp, e⟩ := ih h
      exact ⟨p, List.mem_cons_of_mem _ hp, e⟩

theorem Orem_pos (c : Dev nD) (n : ℕ) (g : GSem nD τ sig) (i : Unit) (h : 0 < Orem c n g i) :
    ∃ j p, n ≤ j ∧ (obl c)[j]? = some p ∧ p.1 = g := by
  obtain ⟨p, hp, e⟩ := sum_tally_pos _ g i h
  obtain ⟨j, hj⟩ := List.mem_iff_getElem?.mp hp
  rw [List.getElem?_drop] at hj
  exact ⟨n + j, p, Nat.le_add_right _ _, hj, e⟩

theorem lv_ge (c : Dev nD) (n i : ℕ) (p : GSem nD τ sig × ℕ) (hi : n ≤ i) (hp : (obl c)[i]? = some p) (b : ℕ)
    (hb : ∀ v ∈ lvTbl.drop n, b < v) : b < lv p.1 () := by
  refine hb _ (List.mem_iff_getElem?.mpr ⟨i - n, ?_⟩)
  rw [List.getElem?_drop, Nat.add_sub_cancel' hi, ← obl_lv c, List.getElem?_map, hp]
  rfl

-- A wait is allowed when every cell still owed lies at a higher level than the cell waited on.
omit [FloatOps F] in
theorem mayWait_rem (c : Dev nD) (sm : SemLoc sig) (n : ℕ)
    (h : ∀ i p, n ≤ i → (obl c)[i]? = some p → lv ((c : Thread nD τ), sm) () < lv p.1 ()) :
    (levAts L lv : sProp 𝕄) ⊢ MayWait (c : Thread nD τ) sm () (Orem c n) :=
  Pipeline.mayWait_of_levAts (by rw [L_tc]; exact Finset.mem_singleton_self _) fun g i hg => by
    obtain ⟨j, p, hj, hp, rfl⟩ := Orem_pos c n g i hg
    refine ⟨?_, h j p hj hp⟩
    rw [obl_tc c p (List.mem_of_getElem? hp)]
    exact Finset.mem_singleton_self _

omit [FloatOps F] in
theorem mayWait_bar (c : Dev nD) : (levAts L lv : sProp 𝕄) ⊢ MayWait (c : Thread nD τ) (.reg barS) () (Orem c 3) :=
  mayWait_rem c _ 3 fun i p hi hp => lv_ge c 3 i p hi hp 1 (by decide)

theorem lv_zrs (c : Dev nD) (k : Fin 8) : lv (dcell c (zrs k)) () = 2 := by
  have := k.isLt
  dsimp only [lv]
  rw [if_pos ⟨by omega, by omega⟩]

theorem lv_xrs (c : Dev nD) (k : Fin 8) : lv (dcell c (xrs k)) () = 3 := by
  have := k.isLt
  dsimp only [lv]
  rw [if_neg (by omega), if_pos (Or.inl ⟨by omega, by omega⟩)]

theorem lv_yrs (c : Dev nD) (k : Fin 8) : lv (dcell c (yrs k)) () = 3 := by
  have := k.isLt
  dsimp only [lv]
  rw [if_neg (by omega), if_pos (Or.inr ⟨by omega, by omega⟩)]

theorem lv_stage (c : Dev nD) (q : DmaSem sig) (hq : q.val < 2) : lv (dcell c q) () = 0 := by
  dsimp only [lv]
  rw [if_neg (by omega), if_neg (by omega), if_neg (by omega)]

omit [FloatOps F] in
theorem mayWait_zrs (c : Dev nD) (k : Fin 8) (n : ℕ) (hn : 11 ≤ n) :
    (levAts L lv : sProp 𝕄) ⊢ MayWait (c : Thread nD τ) (.dma (zrs k)) () (Orem c n) :=
  mayWait_rem c _ n fun i p hi hp => by
    rw [show lv ((c : Thread nD τ), SemLoc.dma (zrs k)) () = 2 from lv_zrs c k]
    exact lv_ge c 11 i p (le_trans hn hi) hp 2 (by decide)

omit [FloatOps F] in
theorem mayWait_xrs (c : Dev nD) (k : Fin 8) (n : ℕ) (hn : 27 ≤ n) :
    (levAts L lv : sProp 𝕄) ⊢ MayWait (c : Thread nD τ) (.dma (xrs k)) () (Orem c n) :=
  mayWait_rem c _ n fun i p hi hp => by
    rw [show lv ((c : Thread nD τ), SemLoc.dma (xrs k)) () = 3 from lv_xrs c k]
    exact lv_ge c 27 i p (le_trans hn hi) hp 3 (by decide)

omit [FloatOps F] in
theorem mayWait_yrs (c : Dev nD) (k : Fin 8) (n : ℕ) (hn : 27 ≤ n) :
    (levAts L lv : sProp 𝕄) ⊢ MayWait (c : Thread nD τ) (.dma (yrs k)) () (Orem c n) :=
  mayWait_rem c _ n fun i p hi hp => by
    rw [show lv ((c : Thread nD τ), SemLoc.dma (yrs k)) () = 3 from lv_yrs c k]
    exact lv_ge c 27 i p (le_trans hn hi) hp 3 (by decide)

omit [FloatOps F] in
theorem mayWait_done (c : Dev nD) (sm : SemLoc sig) : (levAts L lv : sProp 𝕄) ⊢ MayWait (c : Thread nD τ) sm () (Orem c 35) := by
  rw [Orem_end, MayWait_zero]; iintro -; iempintro

omit [FloatOps F] in
theorem mayWait_stage (c : Dev nD) (q : DmaSem sig) (hq : q.val < 2) (O : CellTallies nD τ sig Unit) (hO : O = Orem c 0 ∨ O = 0) :
    (levAts L lv : sProp 𝕄) ⊢ MayWait (c : Thread nD τ) (.dma q) () O := by
  rcases hO with rfl | rfl
  · refine mayWait_rem c _ 0 fun i p hi hp => ?_
    rw [show lv ((c : Thread nD τ), SemLoc.dma q) () = 0 from lv_stage c q hq]
    exact lv_ge c 0 i p hi hp 0 (by decide)
  · rw [MayWait_zero]; iintro -; iempintro

end Cert.KernelIdeal.RS

end
-- ==== Proof.Credit.lean ====
import proofs.«901029_g7700000000001030_dist_rs_v7x_xyz2x2x2_z_m2048_n512_bf16_1_alg».proof.Proof.Sched
import Idealize.ShloMosaic.Lib.Pipeline.Launch

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem credit_Orem_zero (d : Dev nD) : Orem d 0 =
    tallyAt (barCell (zp d)) () 1 + tallyAt (barCell (xp d)) () 1 + tallyAt (barCell (yp d)) () 1
      + (∑ k : Fin 8, tallyAt (dcell (zp d) (zrs k)) () N)
      + (∑ k : Fin 8, tallyAt (dcell (xp d) (xrs k)) () N)
      + (∑ k : Fin 8, tallyAt (dcell (yp d) (yrs k)) () N)
      + (∑ r : Fin 4, tallyAt (dcell (xp d) (fxr r)) () N)
      + (∑ r : Fin 4, tallyAt (dcell (yp d) (fyr r)) () N) := by
  unfold Orem obl ord
  simp only [List.drop_zero, List.map_cons, List.map_nil, List.flatMap_cons, List.flatMap_nil, List.cons_append, List.nil_append,
    List.append_nil, List.map_append, List.sum_cons, List.sum_nil, Fin.sum_univ_eight, Fin.sum_univ_four, add_zero]
  ac_rfl

theorem credit_tallyAt_three (g : GSem nD τ sig) :
    (tallyAt g () 3 : CellTallies nD τ sig Unit) = tallyAt g () 1 + tallyAt g () 1 + tallyAt g () 1 := by
  rw [tallyAt_add, tallyAt_add]

theorem creds_of_launch (c : Dev nD) : (Pipeline.launchCred (fun d : Dev nD => Orem d 0) c : sProp 𝕄) ⊢ creds c := by
  rw [show (fun d : Dev nD => Orem d 0) = _ from funext credit_Orem_zero]
  rw [Pipeline.launchCred_add, Pipeline.launchCred_add, Pipeline.launchCred_add, Pipeline.launchCred_add, Pipeline.launchCred_add,
    Pipeline.launchCred_add, Pipeline.launchCred_add, Pipeline.launchCred_sum, Pipeline.launchCred_sum, Pipeline.launchCred_sum,
    Pipeline.launchCred_sum, Pipeline.launchCred_sum]
  unfold creds
  rw [credit_tallyAt_three]
  refine (BIClass.sep_mono (BIClass.sep_mono (BIClass.sep_mono (BIClass.sep_mono (BIClass.sep_mono (BIClass.sep_mono (BIClass.sep_mono
    (Pipeline.launchCred_tallyAt (.reg barS) zp zp zp_zp zp_zp () 1 c)
    (Pipeline.launchCred_tallyAt (.reg barS) xp xp xp_xp xp_xp () 1 c))
    (Pipeline.launchCred_tallyAt (.reg barS) yp yp yp_yp yp_yp () 1 c))
    (bigSep_mono fun k _ => Pipeline.launchCred_tallyAt (.dma (zrs k)) zp zp zp_zp zp_zp () N c))
    (bigSep_mono fun k _ => Pipeline.launchCred_tallyAt (.dma (xrs k)) xp xp xp_xp xp_xp () N c))
    (bigSep_mono fun k _ => Pipeline.launchCred_tallyAt (.dma (yrs k)) yp yp yp_yp yp_yp () N c))
    (bigSep_mono fun r _ => Pipeline.launchCred_tallyAt (.dma (fxr r)) xp xp xp_xp xp_xp () N c))
    (bigSep_mono fun r _ => Pipeline.launchCred_tallyAt (.dma (fyr r)) yp yp yp_yp yp_yp () N c)).trans ?_
  have hbar (t : CellTallies nD τ sig Unit) : (iprop((cred t ∗ cred t) ∗ cred t) : sProp 𝕄) ⊢ cred (t + t + t) :=
    (sep_mono_left (cred_add t t).2).trans (cred_add (t + t) t).2
  iintro ⟨⟨⟨⟨⟨H, S1⟩, S2⟩, S3⟩, S4⟩, S5⟩
  isplitl [H]; · iapply hbar; iexact H
  iframe # ∗

end Cert.KernelIdeal.RS

end
-- ==== Proof.Stages.lean ====
import proofs.«901029_g7700000000001030_dist_rs_v7x_xyz2x2x2_z_m2048_n512_bf16_1_alg».proof.Proof.Tables

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev tok (g : GSem nD τ sig) : sProp 𝕄 := dutyTok ER g 0 0
abbrev pos0 (g : GSem nD τ sig) : sProp 𝕄 := atPos ER g 0 ∅ 0
abbrev crN (g : GSem nD τ sig) : sProp 𝕄 := cred (tallyAt g () N)

def xPts (c : Dev nD) : sProp 𝕄 := ((c : Thread nD τ).loc cc0_stg0_0) ↦{fullShare} X m c

def Zinit (c : Dev nD) (k : Fin 8) (f0 : (cc0_scratch0 : Ref sig .tc).ty.Contents (Elt F)) (fz : (cc0_scratch1 : Ref sig .tc).ty.Contents (Elt F)) : sProp 𝕄 :=
  iprop(zsPts c k f0 ∗ zrPts (zp c) k fz ∗ tok (dcell c (zss k)) ∗ tok (dcell (zp c) (zrs k)))

def Zsent (c : Dev nD) (k : Fin 8) : sProp 𝕄 := crN (dcell c (zss k))

def Zback (c : Dev nD) (k : Fin 8) : sProp 𝕄 := iprop(zsPts c k (ZSv m c) ∗ semVal (dcell c (zss k)) 0)

def Rinit (c : Dev nD) (k : Fin 8) (fo fx fy : (cc0_stg1_0 : Ref sig .tc).ty.Contents (Elt F)) : sProp 𝕄 :=
  iprop(crN (dcell c (zrs k)) ∗ pos0 (dcell c (zrs k))
    ∗ oPts c c k fullShare fo ∗ oPts (xp c) c k fullShare fx ∗ oPts (yp c) c k fullShare fy
    ∗ tok (dcell c (xss k)) ∗ tok (dcell (xp c) (xrs k)) ∗ tok (dcell c (yss k)) ∗ tok (dcell (yp c) (yrs k)))

def Rsent (c : Dev nD) (k : Fin 8) : sProp 𝕄 :=
  iprop(zrPts c k (ZRv m c) ∗ semVal (dcell c (zrs k)) 0 ∗ crN (dcell c (xss k)) ∗ crN (dcell c (yss k)))

def Rback (c : Dev nD) (k : Fin 8) : sProp 𝕄 :=
  iprop(oPts c c k fullShare (OUTv m c) ∗ semVal (dcell c (xss k)) 0 ∗ semVal (dcell c (yss k)) 0)

def XYinitHi (c : Dev nD) (r : Fin 4) (fy : (cc0_stg1_0 : Ref sig .tc).ty.Contents (Elt F)) : sProp 𝕄 :=
  iprop(crN (dcell c (xrs ⟨r.val + 4, by omega⟩)) ∗ pos0 (dcell c (xrs ⟨r.val + 4, by omega⟩))
    ∗ crN (dcell c (yrs ⟨r.val + 4, by omega⟩)) ∗ pos0 (dcell c (yrs ⟨r.val + 4, by omega⟩))
    ∗ oPts (yp c) (xp c) ⟨r.val + 4, by omega⟩ fullShare fy ∗ tok (dcell c (fys r)) ∗ tok (dcell (yp c) (fyr r)))
def XYdoneHi (c : Dev nD) (r : Fin 4) : sProp 𝕄 :=
  iprop(semVal (dcell c (xrs ⟨r.val + 4, by omega⟩)) 0 ∗ semVal (dcell c (yrs ⟨r.val + 4, by omega⟩)) 0
    ∗ crN (dcell c (fys r)) ∗ oPts c (yp c) ⟨r.val + 4, by omega⟩ fullShare (OUTv m c))

def XYinitLo (c : Dev nD) (r : Fin 4) (fx : (cc0_stg1_0 : Ref sig .tc).ty.Contents (Elt F)) : sProp 𝕄 :=
  iprop(crN (dcell c (xrs ⟨r.val, by omega⟩)) ∗ pos0 (dcell c (xrs ⟨r.val, by omega⟩))
    ∗ crN (dcell c (yrs ⟨r.val, by omega⟩)) ∗ pos0 (dcell c (yrs ⟨r.val, by omega⟩))
    ∗ oPts (xp c) (yp c) ⟨r.val, by omega⟩ fullShare fx ∗ tok (dcell c (fxs r)) ∗ tok (dcell (xp c) (fxr r)))
def XYdoneLo (c : Dev nD) (r : Fin 4) : sProp 𝕄 :=
  iprop(semVal (dcell c (xrs ⟨r.val, by omega⟩)) 0 ∗ semVal (dcell c (yrs ⟨r.val, by omega⟩)) 0
    ∗ oPts c (xp c) ⟨r.val, by omega⟩ fullShare (OUTv m c) ∗ crN (dcell c (fxs r)))

def FbackHi (c : Dev nD) (r : Fin 4) : sProp 𝕄 := iprop(oPts c (xp c) ⟨r.val + 4, by omega⟩ fullShare (OUTv m c) ∗ semVal (dcell c (fys r)) 0)
def FbackLo (c : Dev nD) (r : Fin 4) : sProp 𝕄 := iprop(oPts c (yp c) ⟨r.val, by omega⟩ fullShare (OUTv m c) ∗ semVal (dcell c (fxs r)) 0)

def Dinit (c : Dev nD) (r : Fin 4) : sProp 𝕄 :=
  iprop(crN (dcell c (fxr r)) ∗ pos0 (dcell c (fxr r)) ∗ crN (dcell c (fyr r)) ∗ pos0 (dcell c (fyr r)))
def Ddone (c : Dev nD) (r : Fin 4) : sProp 𝕄 :=
  iprop(oPts c (xp (yp c)) ⟨r.val, by omega⟩ fullShare (OUTv m c) ∗ oPts c (xp (yp c)) ⟨r.val + 4, by omega⟩ fullShare (OUTv m c)
    ∗ semVal (dcell c (fxr r)) 0 ∗ semVal (dcell c (fyr r)) 0)

end Cert.KernelIdeal.RS

end
-- ==== Proof.Cover.lean ====
import proofs.«901029_g7700000000001030_dist_rs_v7x_xyz2x2x2_z_m2048_n512_bf16_1_alg».proof.Proof.Tables
import Idealize.ShloMosaic.Lib.Pipeline.Value

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem mem_zsCh (k : Fin 8) (i : S512x512.Idx) : i ∈ (zsCh k).view.set ↔ (i 0).val / 64 = k.val := by
  show i ∈ ((View.whole cc0_scratch0).slice (zrect k)).set ↔ _
  rw [View.set_slice_whole, Rect.mem_set_unit]
  have h0 : (i 0).val < 512 := (i 0).isLt
  have h1 : (i 1).val < 512 := (i 1).isLt
  show (∀ a : Fin 2, zoff k a ≤ (i a).val ∧ (i a).val < zoff k a + S64x512.size a) ↔ _
  rw [Fin.forall_fin_two]
  show (64 * k.val ≤ (i 0).val ∧ (i 0).val < 64 * k.val + 64) ∧ (0 ≤ (i 1).val ∧ (i 1).val < 0 + 512) ↔ _
  omega

theorem mem_zrCh (k : Fin 8) (i : S512x512.Idx) : i ∈ (zrCh k).view.set ↔ (i 0).val / 64 = k.val := by
  show i ∈ ((View.whole cc0_scratch1).slice (zrect k)).set ↔ _
  rw [View.set_slice_whole, Rect.mem_set_unit]
  have h0 : (i 0).val < 512 := (i 0).isLt
  have h1 : (i 1).val < 512 := (i 1).isLt
  show (∀ a : Fin 2, zoff k a ≤ (i a).val ∧ (i a).val < zoff k a + S64x512.size a) ↔ _
  rw [Fin.forall_fin_two]
  show (64 * k.val ≤ (i 0).val ∧ (i 0).val < 64 * k.val + 64) ∧ (0 ≤ (i 1).val ∧ (i 1).val < 0 + 512) ↔ _
  omega

theorem rme_dvd (d : Dev nD) : rme d = 64 * (rme d / 64) := by revert d; decide

theorem mem_oCh (d : Dev nD) (k : Fin 8) (i : S2048x512.Idx) : i ∈ (oCh d k).view.set ↔ (i 0).val / 64 = rme d / 64 + k.val := by
  show i ∈ ((View.whole cc0_stg1_0).slice (orect d k)).set ↔ _
  rw [View.set_slice_whole, Rect.mem_set_unit]
  have h0 : (i 0).val < 2048 := (i 0).isLt
  have h1 : (i 1).val < 512 := (i 1).isLt
  have hd := rme_dvd d
  show (∀ a : Fin 2, ooff d k a ≤ (i a).val ∧ (i a).val < ooff d k a + S64x512.size a) ↔ _
  rw [Fin.forall_fin_two]
  show (rme d + 64 * k.val ≤ (i 0).val ∧ (i 0).val < rme d + 64 * k.val + 64) ∧ (0 ≤ (i 1).val ∧ (i 1).val < 0 + 512) ↔ _
  omega

theorem pointsTo_cover {ℓ : Loc nD τ sig} {T : Type} [Fintype T] (K : T → Finset (Idx ℓ))
    (hcov : ∀ i, ∃ t, i ∈ K t) (hdis : ∀ t t', t ≠ t' → Disjoint (K t) (K t'))
    (q : PosShare TreeShare) (f : Buf (Elt F) ℓ) :
    ((ℓ ↦{q} f) : sProp 𝕄) = bigSep Finset.univ fun t => ℓ ↦[K t]{q} f := by
  have hu : (Finset.univ : Finset (Idx ℓ)) = Finset.univ.biUnion K := by
    ext i
    simp only [Finset.mem_univ, Finset.mem_biUnion, true_and, true_iff]
    exact hcov i
  rw [hu]
  exact pointsTo_biUnion Finset.univ K fun t _ t' _ hne => hdis t t' hne

theorem zs_split (c : Dev nD) (f : (cc0_scratch0 : Ref sig .tc).ty.Contents (Elt F)) :
    ((((c : Thread nD τ).loc cc0_scratch0) ↦{fullShare} f) : sProp 𝕄) ⊣⊢ bigSep Finset.univ fun k : Fin 8 => zsPts c k f := by
  refine BiEntails.of_eq ?_
  exact pointsTo_cover (ℓ := (c : Thread nD τ).loc cc0_scratch0) (fun k : Fin 8 => (zsCh k).view.set)
    (fun i => ⟨⟨(i 0).val / 64, Nat.div_lt_of_lt_mul (i 0).isLt⟩, (mem_zsCh _ i).mpr rfl⟩)
    (fun k k' hne => Finset.disjoint_left.mpr fun i hi hi' =>
      hne (Fin.ext (((mem_zsCh k i).mp hi).symm.trans ((mem_zsCh k' i).mp hi'))))
    fullShare f

theorem zr_split (c : Dev nD) (f : (cc0_scratch1 : Ref sig .tc).ty.Contents (Elt F)) :
    ((((c : Thread nD τ).loc cc0_scratch1) ↦{fullShare} f) : sProp 𝕄) ⊣⊢ bigSep Finset.univ fun k : Fin 8 => zrPts c k f := by
  refine BiEntails.of_eq ?_
  exact pointsTo_cover (ℓ := (c : Thread nD τ).loc cc0_scratch1) (fun k : Fin 8 => (zrCh k).view.set)
    (fun i => ⟨⟨(i 0).val / 64, Nat.div_lt_of_lt_mul (i 0).isLt⟩, (mem_zrCh _ i).mpr rfl⟩)
    (fun k k' hne => Finset.disjoint_left.mpr fun i hi hi' =>
      hne (Fin.ext (((mem_zrCh k i).mp hi).symm.trans ((mem_zrCh k' i).mp hi'))))
    fullShare f

def quart (c : Dev nD) : Fin 4 → Dev nD := ![c, xp c, yp c, xp (yp c)]

theorem quart_cover : ∀ (c : Dev nD) (r : Fin 4), ∃ j : Fin 4, rme (quart c j) = 512 * r.val := by decide
theorem quart_inj : ∀ (c : Dev nD) (j j' : Fin 4), rme (quart c j) = rme (quart c j') → j = j' := by decide
theorem rme_512 : ∀ d : Dev nD, rme d = 512 * (rme d / 512) := by decide

def oSet (c : Dev nD) (t : Fin 4 × Fin 8) : Finset S2048x512.Idx := (oCh (quart c t.1) t.2).view.set

theorem mem_oSet (c : Dev nD) (j : Fin 4) (k : Fin 8) (i : S2048x512.Idx) :
    i ∈ oSet c (j, k) ↔ (i 0).val / 64 = rme (quart c j) / 64 + k.val := mem_oCh (quart c j) k i

theorem oSet_cover (c : Dev nD) (i : S2048x512.Idx) : ∃ t, i ∈ oSet c t := by
  have h0 : (i 0).val < 2048 := (i 0).isLt
  obtain ⟨j, hj⟩ := quart_cover c ⟨(i 0).val / 512, by omega⟩
  have hj' : rme (quart c j) = 512 * ((i 0).val / 512) := hj
  refine ⟨(j, ⟨(i 0).val / 64 % 8, Nat.mod_lt _ (by decide)⟩), (mem_oSet c j _ i).mpr ?_⟩
  rw [hj']
  show (i 0).val / 64 = 512 * ((i 0).val / 512) / 64 + (i 0).val / 64 % 8
  omega

theorem oSet_disj (c : Dev nD) (t t' : Fin 4 × Fin 8) (hne : t ≠ t') : Disjoint (oSet c t) (oSet c t') := by
  obtain ⟨j, k⟩ := t
  obtain ⟨j', k'⟩ := t'
  refine Finset.disjoint_left.mpr fun i hi hi' => hne ?_
  have e := ((mem_oSet c j k i).mp hi).symm.trans ((mem_oSet c j' k' i).mp hi')
  have h1 := rme_512 (quart c j)
  have h2 := rme_512 (quart c j')
  have hk := k.isLt
  have hk' := k'.isLt
  have hr : rme (quart c j) = rme (quart c j') := by omega
  have hj := quart_inj c _ _ hr
  exact Prod.ext hj (Fin.ext (by show k.val = k'.val; omega))

theorem out_split (c : Dev nD) (f : (cc0_stg1_0 : Ref sig .tc).ty.Contents (Elt F)) :
    ((((c : Thread nD τ).loc cc0_stg1_0) ↦{fullShare} f) : sProp 𝕄) ⊣⊢
      iprop((bigSep Finset.univ fun k : Fin 8 => oPts c c k fullShare f) ∗ (bigSep Finset.univ fun k : Fin 8 => oPts c (xp c) k fullShare f)
        ∗ (bigSep Finset.univ fun k : Fin 8 => oPts c (yp c) k fullShare f) ∗ (bigSep Finset.univ fun k : Fin 8 => oPts c (xp (yp c)) k fullShare f)) := by
  refine BiEntails.of_eq ?_
  have h := pointsTo_cover (F := F) (ℓ := (c : Thread nD τ).loc cc0_stg1_0) (oSet c) (oSet_cover c) (oSet_disj c) fullShare f
  rw [h, bigSep_univ_prod, bigSep_fin4]
  rfl

theorem oPts_halves (c d : Dev nD) (k : Fin 8) (f : (cc0_stg1_0 : Ref sig .tc).ty.Contents (Elt F)) :
    oPts c d k fullShare f ⊣⊢ iprop(oPts (F := F) c d k fullShare.left f ∗ oPts c d k fullShare.right f) :=
  pointsTo_share (PosShare.mem_left_op_right fullShare)

end Cert.KernelIdeal.RS

end
-- ==== Proof.Regroup.lean ====
import proofs.«901029_g7700000000001030_dist_rs_v7x_xyz2x2x2_z_m2048_n512_bf16_1_alg».proof.Proof.Alloc
import proofs.«901029_g7700000000001030_dist_rs_v7x_xyz2x2x2_z_m2048_n512_bf16_1_alg».proof.Proof.Stages
import proofs.«901029_g7700000000001030_dist_rs_v7x_xyz2x2x2_z_m2048_n512_bf16_1_alg».proof.Proof.Cover

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def dmaPositions (c : Dev nD) : sProp 𝕄 := bigSep Finset.univ fun j : Fin 64 => atPos ER ((c : Thread nD τ), osem j) 0 ∅ 0

theorem positions_split (c : Dev nD) : positions (F := F) c ⊣⊢ iprop(atPos ER (barCell c) 0 ∅ 0 ∗ dmaPositions c) := by
  refine BiEntails.of_eq ?_
  unfold positions dmaPositions
  rw [bigSep_fin65]
  exact sep_congr rfl (bigSep_congr fun j _ => congrArg (fun g => (atPos ER g 0 ∅ 0 : sProp 𝕄)) (kcell_succ c j))

def dmaToks (c : Dev nD) : sProp 𝕄 :=
  iprop((bigSep Finset.univ fun k : Fin 8 => iprop(dutyTok ER (dcell c (zss k)) 0 0 ∗ dutyTok ER (dcell (zp c) (zrs k)) 0 0))
    ∗ (bigSep Finset.univ fun k : Fin 8 => iprop(dutyTok ER (dcell c (xss k)) 0 0 ∗ dutyTok ER (dcell (xp c) (xrs k)) 0 0))
    ∗ (bigSep Finset.univ fun k : Fin 8 => iprop(dutyTok ER (dcell c (yss k)) 0 0 ∗ dutyTok ER (dcell (yp c) (yrs k)) 0 0))
    ∗ (bigSep Finset.univ fun r : Fin 4 => iprop(dutyTok ER (dcell c (fxs r)) 0 0 ∗ dutyTok ER (dcell (xp c) (fxr r)) 0 0))
    ∗ (bigSep Finset.univ fun r : Fin 4 => iprop(dutyTok ER (dcell c (fys r)) 0 0 ∗ dutyTok ER (dcell (yp c) (fyr r)) 0 0)))

def dmaCreds (c : Dev nD) : sProp 𝕄 :=
  iprop((bigSep Finset.univ fun k : Fin 8 => cred (tallyAt (dcell c (zrs k)) () N))
    ∗ (bigSep Finset.univ fun k : Fin 8 => cred (tallyAt (dcell c (xrs k)) () N))
    ∗ (bigSep Finset.univ fun k : Fin 8 => cred (tallyAt (dcell c (yrs k)) () N))
    ∗ (bigSep Finset.univ fun r : Fin 4 => cred (tallyAt (dcell c (fxr r)) () N))
    ∗ (bigSep Finset.univ fun r : Fin 4 => cred (tallyAt (dcell c (fyr r)) () N)))

theorem payToks_eq (c : Dev nD) : payToks (F := F) c
    = iprop(dutyTok ER (barCell (zp c)) 0 0 ∗ dutyTok ER (barCell (xp c)) 0 1 ∗ dutyTok ER (barCell (yp c)) 0 2 ∗ dmaToks c) := rfl

theorem creds_eq (c : Dev nD) : creds (F := F) c = iprop(cred (tallyAt (barCell c) () 3) ∗ dmaCreds c) := rfl

def S1 (c : Dev nD) (f0 : (cc0_scratch0 : Ref sig .tc).ty.Contents (Elt F)) (fz : (cc0_scratch1 : Ref sig .tc).ty.Contents (Elt F))
    (fo fx fy : (cc0_stg1_0 : Ref sig .tc).ty.Contents (Elt F)) : sProp 𝕄 :=
  iprop((bigSep Finset.univ fun k : Fin 8 => Zinit c k f0 fz) ∗ (bigSep Finset.univ fun k : Fin 8 => Rinit c k fo fx fy)
    ∗ (bigSep Finset.univ fun r : Fin 4 => XYinitHi c r fy) ∗ (bigSep Finset.univ fun r : Fin 4 => XYinitLo c r fx) ∗ (bigSep Finset.univ fun r : Fin 4 => Dinit c r)
    ∗ (bigSep Finset.univ fun k : Fin 8 => pos0 (dcell c (zss k))) ∗ (bigSep Finset.univ fun k : Fin 8 => pos0 (dcell c (xss k))) ∗ (bigSep Finset.univ fun k : Fin 8 => pos0 (dcell c (yss k)))
    ∗ (bigSep Finset.univ fun r : Fin 4 => pos0 (dcell c (fys r))) ∗ (bigSep Finset.univ fun r : Fin 4 => pos0 (dcell c (fxs r))))

theorem bigSep_halves (Φ : Fin 8 → sProp 𝕄) :
    bigSep Finset.univ Φ = iprop((bigSep Finset.univ fun r : Fin 4 => Φ ⟨r.val, by omega⟩) ∗ bigSep Finset.univ fun r : Fin 4 => Φ ⟨r.val + 4, by omega⟩) := by
  rw [bigSep_fin_add 4 4 Φ]
  exact sep_congr (bigSep_congr fun r _ => congrArg Φ (Fin.ext rfl))
    (bigSep_congr fun r _ => congrArg Φ (Fin.ext (by show 4 + r.val = r.val + 4; omega)))

theorem barPay_zero (c : Dev nD) : barPay (F := F) c 0 = iprop(∃ f, bigSep Finset.univ fun k : Fin 8 => zrPts (zp c) k f) := by
  unfold barPay; rw [if_pos rfl]
theorem barPay_one (c : Dev nD) : barPay (F := F) c 1
    = iprop(∃ f, (bigSep Finset.univ fun k : Fin 8 => oPts (xp c) c k fullShare f)
      ∗ (bigSep Finset.univ fun r : Fin 4 => oPts (xp c) (yp c) ⟨r.val, by omega⟩ fullShare f)) := by
  unfold barPay; rw [if_neg (by decide), if_pos rfl]
theorem barPay_two (c : Dev nD) : barPay (F := F) c 2
    = iprop(∃ f, (bigSep Finset.univ fun k : Fin 8 => oPts (yp c) c k fullShare f)
      ∗ (bigSep Finset.univ fun r : Fin 4 => oPts (yp c) (xp c) ⟨r.val + 4, by omega⟩ fullShare f)) := by
  unfold barPay; rw [if_neg (by decide), if_neg (by decide)]

theorem dmaPositions_eq (c : Dev nD) : dmaPositions (F := F) c
    = iprop(((bigSep Finset.univ fun k : Fin 8 => pos0 (dcell c (zss k))) ∗ (bigSep Finset.univ fun k : Fin 8 => pos0 (dcell c (zrs k)))
          ∗ (bigSep Finset.univ fun k : Fin 8 => pos0 (dcell c (xss k))) ∗ (bigSep Finset.univ fun k : Fin 8 => pos0 (dcell c (xrs k)))
          ∗ (bigSep Finset.univ fun k : Fin 8 => pos0 (dcell c (yss k))) ∗ (bigSep Finset.univ fun k : Fin 8 => pos0 (dcell c (yrs k))))
        ∗ ((bigSep Finset.univ fun r : Fin 4 => pos0 (dcell c (fxs r))) ∗ (bigSep Finset.univ fun r : Fin 4 => pos0 (dcell c (fxr r)))
          ∗ (bigSep Finset.univ fun r : Fin 4 => pos0 (dcell c (fys r))) ∗ (bigSep Finset.univ fun r : Fin 4 => pos0 (dcell c (fyr r))))) :=
  dma_groups (fun q => (pos0 (dcell c q) : sProp 𝕄))

theorem sems_eq (c : Dev nD) : (bigSep Finset.univ fun j : Fin 64 => (semVal ((c : Thread nD τ), osem j) 0 : sProp 𝕄))
    = iprop(((bigSep Finset.univ fun k : Fin 8 => semVal (dcell c (zss k)) 0) ∗ (bigSep Finset.univ fun k : Fin 8 => semVal (dcell c (zrs k)) 0)
          ∗ (bigSep Finset.univ fun k : Fin 8 => semVal (dcell c (xss k)) 0) ∗ (bigSep Finset.univ fun k : Fin 8 => semVal (dcell c (xrs k)) 0)
          ∗ (bigSep Finset.univ fun k : Fin 8 => semVal (dcell c (yss k)) 0) ∗ (bigSep Finset.univ fun k : Fin 8 => semVal (dcell c (yrs k)) 0))
        ∗ ((bigSep Finset.univ fun r : Fin 4 => semVal (dcell c (fxs r)) 0) ∗ (bigSep Finset.univ fun r : Fin 4 => semVal (dcell c (fxr r)) 0)
          ∗ (bigSep Finset.univ fun r : Fin 4 => semVal (dcell c (fys r)) 0) ∗ (bigSep Finset.univ fun r : Fin 4 => semVal (dcell c (fyr r)) 0))) :=
  dma_groups (fun q => (semVal (dcell c q) 0 : sProp 𝕄))

theorem eq_of_biEntails {P Q : sProp 𝕄} (h : P ⊣⊢ Q) : P = Q := equiv_iff.mp ⟨h.mp, h.mpr⟩

theorem S1_intro (c : Dev nD) (f0 : (cc0_scratch0 : Ref sig .tc).ty.Contents (Elt F)) (fo : (cc0_stg1_0 : Ref sig .tc).ty.Contents (Elt F)) :
    iprop(dmaPositions c ∗ dmaToks c ∗ dmaCreds c ∗ (bigSep Finset.univ fun k : Fin 8 => zsPts c k f0) ∗ (bigSep Finset.univ fun k : Fin 8 => oPts c c k fullShare fo)
        ∗ barPay (F := F) c 0 ∗ barPay c 1 ∗ barPay c 2)
      ⊢ iprop(∃ fz fx fy, S1 c f0 fz fo fx fy) := by
  rw [dmaPositions_eq, barPay_zero, barPay_one, barPay_two]
  unfold dmaToks dmaCreds S1 Zinit Rinit XYinitHi XYinitLo Dinit
  simp only [bigSep_sep']
  iintro ⟨⟨⟨PZS, PZR, PXS, PXR, PYS, PYR⟩, PFXS, PFXR, PFYS, PFYR⟩, ⟨⟨TZS, TZR⟩, ⟨TXS, TXR⟩, ⟨TYS, TYR⟩, ⟨TFXS, TFXR⟩, TFYS, TFYR⟩, ⟨CZR, CXR, CYR, CFXR, CFYR⟩, HZS, HO, ⟨%fz, HBZ⟩, ⟨%fx, HBX1, HBX2⟩, %fy, HBY1, HBY2⟩
  iexists fz, fx, fy
  ihave PXR' := (Entails.of_eq (bigSep_halves fun k : Fin 8 => (pos0 (dcell c (xrs k)) : sProp 𝕄))) $$ PXR
  icases PXR' with ⟨PXRlo, PXRhi⟩
  ihave PYR' := (Entails.of_eq (bigSep_halves fun k : Fin 8 => (pos0 (dcell c (yrs k)) : sProp 𝕄))) $$ PYR
  icases PYR' with ⟨PYRlo, PYRhi⟩
  ihave CXR' := (Entails.of_eq (bigSep_halves fun k : Fin 8 => (crN (dcell c (xrs k)) : sProp 𝕄))) $$ CXR
  icases CXR' with ⟨CXRlo, CXRhi⟩
  ihave CYR' := (Entails.of_eq (bigSep_halves fun k : Fin 8 => (crN (dcell c (yrs k)) : sProp 𝕄))) $$ CYR
  icases CYR' with ⟨CYRlo, CYRhi⟩
  iframe

theorem post_intro (c : Dev nD) :
    iprop((bigSep Finset.univ fun k : Fin 8 => Zback m c k)
        ∗ (bigSep Finset.univ fun k : Fin 8 => iprop(zrPts c k (ZRv m c) ∗ semVal (dcell c (zrs k)) 0))
        ∗ (bigSep Finset.univ fun k : Fin 8 => Rback m c k)
        ∗ (bigSep Finset.univ fun r : Fin 4 => iprop(semVal (dcell c (xrs ⟨r.val + 4, by omega⟩)) 0 ∗ semVal (dcell c (yrs ⟨r.val + 4, by omega⟩)) 0 ∗ oPts c (yp c) ⟨r.val + 4, by omega⟩ fullShare (OUTv m c)))
        ∗ (bigSep Finset.univ fun r : Fin 4 => iprop(semVal (dcell c (xrs ⟨r.val, by omega⟩)) 0 ∗ semVal (dcell c (yrs ⟨r.val, by omega⟩)) 0 ∗ oPts c (xp c) ⟨r.val, by omega⟩ fullShare (OUTv m c)))
        ∗ (bigSep Finset.univ fun r : Fin 4 => FbackHi m c r) ∗ (bigSep Finset.univ fun r : Fin 4 => FbackLo m c r) ∗ (bigSep Finset.univ fun r : Fin 4 => Ddone m c r))
      ⊢ iprop(Φ₁ m c ∗ ((((c : Thread nD τ).loc cc0_stg1_0) ↦{fullShare} OUTv m c) : sProp 𝕄)) := by
  unfold Φ₁ Zback Rback FbackHi FbackLo Ddone
  rw [eq_of_biEntails (zs_split c (ZSv m c)), eq_of_biEntails (zr_split c (ZRv m c)), eq_of_biEntails (out_split c (OUTv m c)), sems_eq,
    bigSep_halves (fun k : Fin 8 => (semVal (dcell c (xrs k)) 0 : sProp 𝕄)),
    bigSep_halves (fun k : Fin 8 => (semVal (dcell c (yrs k)) 0 : sProp 𝕄)),
    bigSep_halves (fun k : Fin 8 => (oPts c (xp c) k fullShare (OUTv m c) : sProp 𝕄)),
    bigSep_halves (fun k : Fin 8 => (oPts c (yp c) k fullShare (OUTv m c) : sProp 𝕄)),
    bigSep_halves (fun k : Fin 8 => (oPts c (xp (yp c)) k fullShare (OUTv m c) : sProp 𝕄))]
  simp only [bigSep_sep']
  iintro ⟨⟨A1, A2⟩, ⟨B1, B2⟩, ⟨C1, C2, C3⟩, ⟨D1, D2, D3⟩, ⟨E1, E2, E3⟩, ⟨F1, F2⟩, ⟨G1, G2⟩, H1, H2, H3, H4⟩
  iframe

end Cert.KernelIdeal.RS

end
-- ==== Proof.Regroup2.lean ====
import proofs.«901029_g7700000000001030_dist_rs_v7x_xyz2x2x2_z_m2048_n512_bf16_1_alg».proof.Proof.Regroup

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem waits_intro (c : Dev nD) :
    iprop((bigSep Finset.univ fun k : Fin 8 => Zsent (F := F) c k) ∗ (bigSep Finset.univ fun k : Fin 8 => pos0 (dcell c (zss k)))
        ∗ (bigSep Finset.univ fun k : Fin 8 => Rsent m c k) ∗ (bigSep Finset.univ fun k : Fin 8 => pos0 (dcell c (xss k))) ∗ (bigSep Finset.univ fun k : Fin 8 => pos0 (dcell c (yss k)))
        ∗ (bigSep Finset.univ fun r : Fin 4 => XYdoneHi m c r) ∗ (bigSep Finset.univ fun r : Fin 4 => XYdoneLo m c r)
        ∗ (bigSep Finset.univ fun r : Fin 4 => pos0 (dcell c (fys r))) ∗ (bigSep Finset.univ fun r : Fin 4 => pos0 (dcell c (fxs r))))
      ⊢ iprop(((bigSep Finset.univ fun k : Fin 8 => iprop(Zsent c k ∗ pos0 (dcell c (zss k))))
            ∗ (bigSep Finset.univ fun k : Fin 8 => iprop(crN (dcell c (xss k)) ∗ pos0 (dcell c (xss k))))
            ∗ (bigSep Finset.univ fun k : Fin 8 => iprop(crN (dcell c (yss k)) ∗ pos0 (dcell c (yss k))))
            ∗ (bigSep Finset.univ fun r : Fin 4 => iprop(crN (dcell c (fys r)) ∗ pos0 (dcell c (fys r))))
            ∗ (bigSep Finset.univ fun r : Fin 4 => iprop(crN (dcell c (fxs r)) ∗ pos0 (dcell c (fxs r)))))
          ∗ ((bigSep Finset.univ fun k : Fin 8 => iprop(zrPts c k (ZRv m c) ∗ semVal (dcell c (zrs k)) 0))
            ∗ (bigSep Finset.univ fun r : Fin 4 => iprop(semVal (dcell c (xrs ⟨r.val + 4, by omega⟩)) 0 ∗ semVal (dcell c (yrs ⟨r.val + 4, by omega⟩)) 0 ∗ oPts c (yp c) ⟨r.val + 4, by omega⟩ fullShare (OUTv m c)))
            ∗ (bigSep Finset.univ fun r : Fin 4 => iprop(semVal (dcell c (xrs ⟨r.val, by omega⟩)) 0 ∗ semVal (dcell c (yrs ⟨r.val, by omega⟩)) 0 ∗ oPts c (xp c) ⟨r.val, by omega⟩ fullShare (OUTv m c))))) := by
  unfold Rsent XYdoneHi XYdoneLo
  simp only [bigSep_sep']
  iintro ⟨ZS, PZ, ⟨R1, R2, R3, R4⟩, PX, PY, ⟨H1, H2, H3, H4⟩, ⟨L1, L2, L3, L4⟩, PFY, PFX⟩
  iframe

theorem rback_one (c : Dev nD) (k : Fin 8) :
    iprop((oPts c c k fullShare.left (OUTv m c) ∗ semVal (dcell c (xss k)) 0) ∗ (oPts c c k fullShare.right (OUTv m c) ∗ semVal (dcell c (yss k)) 0))
      ⊢ Rback m c k := by
  unfold Rback
  iintro ⟨⟨HL, SX⟩, HR, SY⟩
  isplitl [HL HR]
  · iapply (oPts_halves c c k (OUTv m c)).mpr
    iframe # ∗
  iframe # ∗

theorem rback_intro (c : Dev nD) :
    iprop((bigSep Finset.univ fun k : Fin 8 => iprop(oPts c c k fullShare.left (OUTv m c) ∗ semVal (dcell c (xss k)) 0))
        ∗ (bigSep Finset.univ fun k : Fin 8 => iprop(oPts c c k fullShare.right (OUTv m c) ∗ semVal (dcell c (yss k)) 0)))
      ⊢ bigSep Finset.univ fun k : Fin 8 => Rback m c k := by
  rw [← bigSep_sep']
  exact bigSep_mono fun k _ => rback_one m c k

end Cert.KernelIdeal.RS

end
-- ==== Proof.Records.lean ====
import proofs.«901029_g7700000000001030_dist_rs_v7x_xyz2x2x2_z_m2048_n512_bf16_1_alg».proof.Proof.Stages

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def jOf (q : DmaSem sig) (hq : 2 ≤ q.val) : Fin 65 := ⟨q.val - 1, by have := q.isLt; (have : sig.nDmaSem = 66 := rfl); omega⟩

theorem kcell_jOf (c : Dev nD) (q : DmaSem sig) (hq : 2 ≤ q.val) : kcell (c, jOf q hq) = dcell c q := by
  unfold kcell csem jOf
  have h0 : ¬ (q.val - 1 = 0) := by omega
  simp only [dif_neg h0]
  congr 2
  exact Fin.ext (by show 1 + (q.val - 1) = q.val; omega)

theorem inv_at (K : Dev nD × Fin 65 → ℕ) (ck : Dev nD × Fin 65) :
    (bigSep Finset.univ fun ck : Dev nD × Fin 65 => (cellInv ER (Rd m) (K ck) (kcell ck) : sProp 𝕄)) ⊢ cellInv ER (Rd m) (K ck) (kcell ck) :=
  bigSep_elim (Finset.mem_univ ck)
theorem reached_at (ck : Dev nD × Fin 65) :
    (bigSep Finset.univ fun ck : Dev nD × Fin 65 => (reached ER (kcell ck) 0 : sProp 𝕄)) ⊢ reached ER (kcell ck) 0 :=
  bigSep_elim (Finset.mem_univ ck)

theorem records_inv (K : Dev nD × Fin 65 → ℕ) (c : Dev nD) (q : DmaSem sig) (hq : 2 ≤ q.val) :
    records m K ⊢ cellInv ER (Rd m) (K (c, jOf q hq)) (dcell c q) := by
  unfold records
  iintro ⟨HI, -⟩
  rw [← kcell_jOf c q hq]
  iapply (inv_at m K (c, jOf q hq)); iexact HI

theorem records_reached (K : Dev nD × Fin 65 → ℕ) (c : Dev nD) (q : DmaSem sig) (hq : 2 ≤ q.val) :
    records m K ⊢ reached ER (dcell c q) 0 := by
  unfold records
  iintro ⟨-, HR⟩
  rw [← kcell_jOf c q hq]
  iapply (reached_at (F := F) (c, jOf q hq)); iexact HR

theorem records_inv_bar (K : Dev nD × Fin 65 → ℕ) (c : Dev nD) :
    records m K ⊢ cellInv ER (Rd m) (K (c, 0)) (barCell c) := by
  unfold records
  iintro ⟨HI, -⟩
  iapply (inv_at m K (c, 0)); iexact HI

theorem records_reached_bar (K : Dev nD × Fin 65 → ℕ) (c : Dev nD) :
    records m K ⊢ reached ER (barCell c) 0 := by
  unfold records
  iintro ⟨-, HR⟩
  iapply (reached_at (F := F) (c, 0)); iexact HR

end Cert.KernelIdeal.RS

end
-- ==== Proof.Bar.lean ====
import proofs.«901029_g7700000000001030_dist_rs_v7x_xyz2x2x2_z_m2048_n512_bf16_1_alg».proof.Proof.Records
import proofs.«901029_g7700000000001030_dist_rs_v7x_xyz2x2x2_z_m2048_n512_bf16_1_alg».proof.Proof.Cover

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bar_owed0 (c : Dev nD) : Orem c 0 = Orem c 1 + tallyAt (barCell (zp c)) () 1 :=
  (show Orem c 0 = tallyAt (barCell (zp c)) () 1 + Orem c 1 from rfl).trans (add_comm _ _)
theorem bar_owed1 (c : Dev nD) : Orem c 1 = Orem c 2 + tallyAt (barCell (xp c)) () 1 :=
  (show Orem c 1 = tallyAt (barCell (xp c)) () 1 + Orem c 2 from rfl).trans (add_comm _ _)
theorem bar_owed2 (c : Dev nD) : Orem c 2 = Orem c 3 + tallyAt (barCell (yp c)) () 1 :=
  (show Orem c 2 = tallyAt (barCell (yp c)) () 1 + Orem c 3 from rfl).trans (add_comm _ _)

theorem bar_pay0 (c : Dev nD) (fz : (cc0_scratch1 : Ref sig .tc).ty.Contents (Elt F)) :
    (bigSep Finset.univ fun k : Fin 8 => zrPts c k fz : sProp 𝕄) ⊢ (Rd (F := F) m).payload (barCell (zp c)) 0 0 := by
  rw [payload_bar]; unfold barPay; rw [if_pos rfl, zp_zp]
  iintro H; iexists fz; iexact H

theorem bar_pay1 (c : Dev nD) (fo : (cc0_stg1_0 : Ref sig .tc).ty.Contents (Elt F)) :
    (iprop((bigSep Finset.univ fun k : Fin 8 => oPts c (xp c) k fullShare fo)
      ∗ (bigSep Finset.univ fun r : Fin 4 => oPts c (xp (yp c)) ⟨r.val, by omega⟩ fullShare fo)) : sProp 𝕄)
      ⊢ (Rd (F := F) m).payload (barCell (xp c)) 0 1 := by
  rw [payload_bar]; unfold barPay; rw [if_neg (by decide), if_pos rfl, xp_xp, ← xp_yp]
  iintro H; iexists fo; iexact H

theorem bar_pay2 (c : Dev nD) (fo : (cc0_stg1_0 : Ref sig .tc).ty.Contents (Elt F)) :
    (iprop((bigSep Finset.univ fun k : Fin 8 => oPts c (yp c) k fullShare fo)
      ∗ (bigSep Finset.univ fun r : Fin 4 => oPts c (xp (yp c)) ⟨r.val + 4, by omega⟩ fullShare fo)) : sProp 𝕄)
      ⊢ (Rd (F := F) m).payload (barCell (yp c)) 0 2 := by
  rw [payload_bar]; unfold barPay; rw [if_neg (by decide), if_neg (by decide), yp_yp]
  iintro H; iexists fo; iexact H

theorem bar_rest (c : Dev nD) :
    (bigSep ((Rd (F := F) m).duties (barCell c) 0 \ ∅) (fun d => (Rd (F := F) m).payload (barCell c) 0 d) : sProp 𝕄)
      ⊢ iprop(barPay (F := F) c 0 ∗ barPay c 1 ∗ barPay c 2) := Entails.of_eq (rest_bar m c)

end Cert.KernelIdeal.RS

end
-- ==== Proof.Steps.lean ====
import proofs.«901029_g7700000000001030_dist_rs_v7x_xyz2x2x2_z_m2048_n512_bf16_1_alg».proof.Proof.Stages
import Idealize.ShloMosaic.Lib.Pipeline.Launch

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem chunk_credit (M : Memref sig .tc .vmem S64x512 .bf16) : M.view.dmaCredit = N := rfl

-- Sending one chunk: the source and the neighbour's rows go to the two cells of the transfer, and the sender owes one chunk less.
theorem wp_send_chunk (c c' n : Dev nD) (hn : n = c')
    {src dst : Memref sig .tc .vmem S64x512 .bf16} (sS sR : DmaSem sig) (hS : 2 ≤ sS.val) (hR : 2 ≤ sR.val) (κS κR : ℕ)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (c' : Thread nD τ)))
    (O : CellTallies nD τ sig Unit) (W : Waits sig Unit) (hN : dst.view.dmaCredit = N)
    (hpayS : (src.view.loc (c : Thread nD τ) ↦[src.view.set]{q} fs : sProp 𝕄) ⊢ payDma m c sS)
    (hpayR : (dst.view.loc (c' : Thread nD τ) ↦[dst.view.set]{fullShare} (dst.view.write (Elt F) fd (src.view.read (Elt F) fs) Finset.univ) : sProp 𝕄) ⊢ payDma m c' sR) :
    iprop(cellInv ER (Rd m) κS (dcell c sS) ∗ cellInv ER (Rd m) κR (dcell c' sR)
        ∗ (src.view.loc (c : Thread nD τ) ↦[src.view.set]{q} fs) ∗ (dst.view.loc (c' : Thread nD τ) ↦[dst.view.set]{fullShare} fd)
        ∗ owes (c : Thread nD τ) (O + tallyAt (dcell c' sR) () N) W
        ∗ dutyTok ER (dcell c sS) 0 0 ∗ reached ER (dcell c sS) 0 ∗ dutyTok ER (dcell c' sR) 0 0 ∗ reached ER (dcell c' sR) 0)
      ⊢ iprop(((cred (tallyAt (dcell c sS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  exact wp_send_pointsTo 𝒱₀ ER (Rd m) (c : Thread nD τ) none
    (show (0 : Fin 3) ∈ (Rd (F := F) m).duties (dcell c sS) 0 by rw [duties_dma m c sS hS]; exact Finset.mem_singleton_self 0)
    (show (0 : Fin 3) ∈ (Rd (F := F) m).duties (dcell n sR) 0 by rw [duties_dma m n sR hR]; exact Finset.mem_singleton_self 0)
    () () N hN (amount_dma m c sS 0) (amount_dma m n sR 0) O rfl hpayS hpayR

-- The only arrival on an own cell is one chunk, so the wait for a chunk's worth hands over what that chunk carries.
theorem wp_wait_dma (c : Dev nD) (q : DmaSem sig) (hq : 2 ≤ q.val) (κ : ℕ)
    {a b : Memref sig .tc .vmem S64x512 .bf16} {ha : a.view.WordExact} {hb : b.view.WordExact}
    {α : Type} {Q : α → sProp 𝕄} {k : PUnit → Prog (TpuEff nD τ sig (Elt F) Λ₀ .tc) α}
    (O : CellTallies nD τ sig Unit) (W : Waits sig Unit) (hN : b.view.dmaCredit = N) :
    iprop(cellInv ER (Rd m) κ (dcell c q) ∗ cred (tallyAt (dcell c q) () N) ∗ owes (c : Thread nD τ) O W
        ∗ MayWait (c : Thread nD τ) (.dma q) () O ∗ atPos ER (dcell c q) 0 ∅ 0)
      ⊢ iprop(((owes (c : Thread nD τ) O (insert (SemLoc.dma q, ()) W) ∗ semVal (dcell c q) 0 ∗ payDma m c q)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q a b ha hb) k) Q) := by
  have hw : ∀ K : PUnit → sProp 𝕄, wpE' (defs₀ (F := F)) 𝒱₀ (c : Thread nD τ) none PendingWaitsCtx.empty Set.univ (.waitDma2 q a b ha hb) K
      = waitSpec (c : Thread nD τ) Set.univ (.dma q) N K := fun K => by
    rw [← hN]; exact wpE_waitDma2_eq 𝒱₀ (c : Thread nD τ) none Set.univ K
  iintro ⟨#Hg, Hcr, HL, HM, Hat⟩ Hk
  iapply (wp_wait_rest_token 𝒱₀ ER (Rd m) (c : Thread nD τ) none hw (Set.mem_univ κ) () (O := O) (W := W) (R := 0) (T := ∅) (m := 0)
    (by rw [expect_dma m c q hq, Nat.zero_add])) $$ [$]
  rw [rest_dma m c q hq]
  iintro ⟨HL, Hat, Hr, Hpay⟩
  imod (cell_close ER (Rd m) (Set.mem_univ κ) (fun h => h) (R := 0 + 1) (duties_later m (dcell c q))) $$ [Hat] with Hz
  · isplitr; · iexact Hg
    iexact Hat
  iapply Hk
  iframe

end Cert.KernelIdeal.RS

end
-- ==== Proof.Landing.lean ====
import proofs.«901029_g7700000000001030_dist_rs_v7x_xyz2x2x2_z_m2048_n512_bf16_1_alg».proof.Proof.Sched
import Idealize.ShloMosaic.Lib.Pipeline.Value

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem zs_emb_row (k : Fin 8) (y : S64x512.Idx) : (((zsCh k).view.emb y) 0 : ℕ) = 64 * k.val + (y 0).val := by
  show zoff k 0 + 1 * (y 0).val = _
  simp [zoff]

theorem zchunkOf_zs_emb (k : Fin 8) (y : S64x512.Idx) : zchunkOf ((zsCh k).view.emb y) = k := by
  apply Fin.ext
  show (((zsCh k).view.emb y) 0 : ℕ) / 64 = k.val
  rw [zs_emb_row]
  have := (y 0).isLt
  have h64 : (y 0).val < 64 := this
  omega

theorem ZSv_of_chunk (c : Dev nD) (k : Fin 8) (i : S512x512.Idx) (h : zchunkOf i = k) :
    ZSv m c i = (zsM.access (zrect k)).write (Elt F) (dflt cc0_scratch0)
      (zpay (xM.view.readAt (Elt F) (sendRect c k).toLoadRect (X m c))) Finset.univ i := by
  subst h; rfl

theorem zs_store_val (c : Dev nD) (k : Fin 8) (f : (cc0_scratch0 : Ref sig .tc).ty.Contents (Elt F)) :
    zsPts c k ((zsM.access (zrect k)).write (Elt F) f (zpay (xM.view.readAt (Elt F) (sendRect c k).toLoadRect (X m c))) Finset.univ) = zsPts c k (ZSv m c) := by
  unfold zsPts
  refine pointsTo_congr fun i hi => ?_
  obtain ⟨y, rfl⟩ := View.exists_emb_of_mem_set _ hi
  rw [ZSv_of_chunk m c k _ (zchunkOf_zs_emb k y)]
  exact (View.write_emb_of_mem (v := (zsCh k).view) (Val := Elt F) f _ (Finset.mem_univ y)).trans
    (View.write_emb_of_mem (v := (zsCh k).view) (Val := Elt F) (dflt cc0_scratch0) _ (Finset.mem_univ y)).symm

theorem z_land_val (c : Dev nD) (k : Fin 8) (fd : (cc0_scratch1 : Ref sig .tc).ty.Contents (Elt F)) :
    ((zrCh k).view.loc ((zp c : Dev nD) : Thread nD τ) ↦[(zrCh k).view.set]{fullShare} ((zrCh k).view.write (Elt F) fd ((zsCh k).view.read (Elt F) (ZSv m c)) Finset.univ) : sProp 𝕄) = zrPts (zp c) k (ZRv m (zp c)) := by
  unfold zrPts
  refine pointsTo_congr fun i hi => ?_
  obtain ⟨y, rfl⟩ := View.exists_emb_of_mem_set _ hi
  rw [View.write_emb_of_mem (v := (zrCh k).view) (Val := Elt F) fd _ (Finset.mem_univ y), View.read_apply]
  show _ = ZSv m (zp (zp c)) ((zsCh k).view.emb y)
  rw [zp_zp, cast_cast, cast_eq]

theorem o_emb_row (d : Dev nD) (k : Fin 8) (y : S64x512.Idx) :
    (((oCh d k).view.emb y) 0 : ℕ) = rme d + 64 * k.val + (y 0).val := by
  show ooff d k 0 + 1 * (y 0).val = _
  simp [ooff]

theorem ownerOf_o_emb (d : Dev nD) (k : Fin 8) (y : S64x512.Idx) (z : ℕ) (hz : z % 2 = d.val % 2) :
    ownerOf z ((oCh d k).view.emb y) = d := by
  apply Fin.ext
  show (4 * ((((oCh d k).view.emb y) 0 : ℕ) / 1024) + 2 * (((((oCh d k).view.emb y) 0 : ℕ) / 512) % 2) + z % 2) % 8 = d.val
  rw [o_emb_row, hz]
  have h64 : (y 0).val < 64 := (y 0).isLt
  have hk := k.isLt
  have hd : d.val < 8 := d.isLt
  unfold rme
  omega

theorem ochunkOf_o_emb (d : Dev nD) (k : Fin 8) (y : S64x512.Idx) : ochunkOf ((oCh d k).view.emb y) = k := by
  apply Fin.ext
  show ((((oCh d k).view.emb y) 0 : ℕ) % 512) / 64 = k.val
  rw [o_emb_row]
  have h64 : (y 0).val < 64 := (y 0).isLt
  have hk := k.isLt
  have hd : d.val < 8 := d.isLt
  unfold rme
  omega

theorem OUTv_of_chunk (c d : Dev nD) (k : Fin 8) (i : S2048x512.Idx) (hd : ownerOf c.val i = d) (hk : ochunkOf i = k) :
    OUTv m c i = Sv m d k i := by
  subst hd; subst hk; rfl

theorem OUTv_congr (c c' : Dev nD) (hz : c'.val % 2 = c.val % 2) : OUTv m c' = OUTv m c := by
  funext i
  have h : ownerOf c'.val i = ownerOf c.val i := by
    apply Fin.ext
    show (_ + c'.val % 2) % 8 = (_ + c.val % 2) % 8
    rw [hz]
  show Sv m (ownerOf c'.val i) (ochunkOf i) i = Sv m (ownerOf c.val i) (ochunkOf i) i
  rw [h]

theorem out_store_val (c : Dev nD) (k : Fin 8) (f : (cc0_stg1_0 : Ref sig .tc).ty.Contents (Elt F)) :
    oPts c c k fullShare ((oM.access (orect c k)).write (Elt F) f (rpay (xM.view.readAt (Elt F) (keepRect c k).toLoadRect (X m c)) (zrM.view.readAt (Elt F) (zrect k).toLoadRect (ZRv m c))) Finset.univ) = oPts c c k fullShare (OUTv m c) := by
  unfold oPts
  refine pointsTo_congr fun i hi => ?_
  obtain ⟨y, rfl⟩ := View.exists_emb_of_mem_set _ hi
  rw [OUTv_of_chunk m c c k _ (ownerOf_o_emb c k y c.val rfl) (ochunkOf_o_emb c k y)]
  exact (View.write_emb_of_mem (v := (oCh c k).view) (Val := Elt F) f _ (Finset.mem_univ y)).trans
    (View.write_emb_of_mem (v := (oCh c k).view) (Val := Elt F) (dflt cc0_stg1_0) _ (Finset.mem_univ y)).symm

theorem o_land_val (c c' d : Dev nD) (k : Fin 8) (hz : c'.val % 2 = c.val % 2) (fd : (cc0_stg1_0 : Ref sig .tc).ty.Contents (Elt F)) :
    ((oCh d k).view.loc (c' : Thread nD τ) ↦[(oCh d k).view.set]{fullShare} ((oCh d k).view.write (Elt F) fd ((oCh d k).view.read (Elt F) (OUTv m c)) Finset.univ) : sProp 𝕄) = oPts c' d k fullShare (OUTv m c') := by
  unfold oPts
  refine pointsTo_congr fun i hi => ?_
  obtain ⟨y, rfl⟩ := View.exists_emb_of_mem_set _ hi
  rw [View.write_emb_of_mem (v := (oCh d k).view) (Val := Elt F) fd _ (Finset.mem_univ y), View.read_apply,
    OUTv_congr m c c' hz, cast_cast, cast_eq]

end Cert.KernelIdeal.RS

end
-- ==== Proof.ZIter.lean ====
import proofs.«901029_g7700000000001030_dist_rs_v7x_xyz2x2x2_z_m2048_n512_bf16_1_alg».proof.Proof.Steps
import proofs.«901029_g7700000000001030_dist_rs_v7x_xyz2x2x2_z_m2048_n512_bf16_1_alg».proof.Proof.Records
import proofs.«901029_g7700000000001030_dist_rs_v7x_xyz2x2x2_z_m2048_n512_bf16_1_alg».proof.Proof.Landing
import proofs.«901029_g7700000000001030_dist_rs_v7x_xyz2x2x2_z_m2048_n512_bf16_1_alg».proof.Proof.Cover
import proofs.«901029_g7700000000001030_dist_rs_v7x_xyz2x2x2_z_m2048_n512_bf16_1_alg».proof.Proof.Levels

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- Chunk k along z: the columns the device does not keep are stored in the send buffer and sent to the z neighbour.
theorem zIter_spec (K : Dev nD × Fin 65 → ℕ) (c : Dev nD) (k : Fin 8) (i : ℕ)
    (hO : Orem c i = Orem c (i + 1) + tallyAt (dcell (zp c) (zrs k)) () N)
    (o1 : Fin 3 → ℕ) (ho1 : o1 = k0_off1 c (BitVec.ofNat 32 (64 * k.val)))
    (oz : Fin 2 → ℕ) (hoz : oz = zoff k)
    (pay : Vec F S1x64x512 .f32 → FVec F S64x512 .bf16) (hpay : pay = zpay)
    (n : Dev nD) (hn : n = zp c)
    (sS sR : DmaSem sig) (hsS : sS = zss k) (hsR : sR = zrs k)
    {h1 : ∀ a, o1 a + S1x64x512.size a ≤ S1x2048x1024.size a}
    {hz : ∀ a, oz a + S64x512.size a ≤ S512x512.size a}
    {hl1 : (xM : Memref sig .tc .vmem S1x2048x1024 .f32).view.LoadsAt (Rect.unit (s := S1x2048x1024) o1 S1x64x512.size h1).toLoadRect}
    {hl2 : (zsM : Memref sig .tc .vmem S512x512 .bf16).view.LoadsAt (Rect.unit (s := S512x512) oz S64x512.size hz).toLoadRect}
    {hx : ((zsM : Memref sig .tc .vmem S512x512 .bf16).access (Rect.unit (s := S512x512) oz S64x512.size hz)).Stores Finset.univ}
    {hm : (Finset.univ : Finset (Rect.unit (s := S512x512) oz S64x512.size hz).shape.Idx) = Finset.univ ∨ ∀ a, (Rect.unit (s := S512x512) oz S64x512.size hz).stride a = 1}
    {hs1 hs2 : ∀ a, (Rect.unit (s := S512x512) oz S64x512.size hz).stride a = 1}
    {hsc : ((zrM : Memref sig .tc .vmem S512x512 .bf16).slice (Rect.unit (s := S512x512) oz S64x512.size hz) hs2).view.ref.isScScratch = false}
    {hsrc : ((zsM : Memref sig .tc .vmem S512x512 .bf16).slice (Rect.unit (s := S512x512) oz S64x512.size hz) hs1).view.WordExact}
    {hdst : ((zrM : Memref sig .tc .vmem S512x512 .bf16).slice (Rect.unit (s := S512x512) oz S64x512.size hz) hs2).view.WordExact}
    {hsem : DmaTarget.Typed .vmem (.dma sR) (.remote (Dev.tc n : Thread nD τ) ((zrM : Memref sig .tc .vmem S512x512 .bf16).slice (Rect.unit (s := S512x512) oz S64x512.size hz) hs2) (.dma sS) hsc)}
    (f0 : (cc0_scratch0 : Ref sig .tc).ty.Contents (Elt F)) (fz : (cc0_scratch1 : Ref sig .tc).ty.Contents (Elt F)) (W : Waits sig Unit)
    {α : Type} {Q : α → sProp 𝕄} {kk : PUnit → Prog (TpuEff nD τ sig (Elt F) Λ₀ .tc) α} :
    iprop(records m K ∗ Zinit c k f0 fz ∗ xPts m c ∗ owes (c : Thread nD τ) (Orem c i) W)
      ⊢ iprop(((Zsent c k ∗ xPts m c ∗ owes (c : Thread nD τ) (Orem c (i + 1)) W)
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load (xM : Memref sig .tc .vmem S1x2048x1024 .f32) (Rect.unit (s := S1x2048x1024) o1 S1x64x512.size h1).toLoadRect hl1) fun x =>
             .op (.load (zsM : Memref sig .tc .vmem S512x512 .bf16) (Rect.unit (s := S512x512) oz S64x512.size hz).toLoadRect hl2) fun _ =>
             .op (.store (zsM : Memref sig .tc .vmem S512x512 .bf16) (Rect.unit (s := S512x512) oz S64x512.size hz) (pay x) Finset.univ hx hm) fun _ =>
             .op (.enqueueDma ((zsM : Memref sig .tc .vmem S512x512 .bf16).slice (Rect.unit (s := S512x512) oz S64x512.size hz) hs1)
                (.remote (Dev.tc n : Thread nD τ) ((zrM : Memref sig .tc .vmem S512x512 .bf16).slice (Rect.unit (s := S512x512) oz S64x512.size hz) hs2) (.dma sS) hsc)
                (.dma sR) hsrc hdst hsem) kk) Q) := by
  subst ho1 hoz hpay hn hsS hsR
  have hS : 2 ≤ (zss k).val := by show 2 ≤ 2 + k.val; omega
  have hR : 2 ≤ (zrs k).val := by show 2 ≤ 10 + k.val; omega
  have hsub : (zsM : Memref sig .tc .vmem S512x512 .bf16).view.setOn (Rect.unit (s := S512x512) (zoff k) S64x512.size hz).toLoadRect.set ⊆ (zsCh k).view.set :=
    (View.set_slice _ _).ge
  have hpayS : ((zsCh k).view.loc (c : Thread nD τ) ↦[(zsCh k).view.set]{fullShare} ZSv m c : sProp 𝕄) ⊢ payDma m c (zss k) :=
    Entails.of_eq (payDma_zss m c k).symm
  have hpayR : ((zrCh k).view.loc ((zp c : Dev nD) : Thread nD τ) ↦[(zrCh k).view.set]{fullShare} ((zrCh k).view.write (Elt F) fz ((zsCh k).view.read (Elt F) (ZSv m c)) Finset.univ) : sProp 𝕄)
      ⊢ payDma m (zp c) (zrs k) :=
    Entails.of_eq ((z_land_val m c k fz).trans (payDma_zrs m (zp c) k).symm)
  rw [hO]
  unfold Zinit Zsent xPts zsPts zrPts
  iintro ⟨#Hrec, ⟨Hzs, Hzr, HtS, HtR⟩, HX, HL⟩ Hk
  iapply (wp_load 𝒱₀ (c : Thread nD τ) none Set.univ (m := (xM : Memref sig .tc .vmem S1x2048x1024 .f32)) (Finset.subset_univ _)) $$ [HX]
  · iexact HX
  iintro HX
  iapply (wp_load 𝒱₀ (c : Thread nD τ) none Set.univ (m := (zsM : Memref sig .tc .vmem S512x512 .bf16)) hsub) $$ [Hzs]
  · iexact Hzs
  iintro Hzs
  iapply (wp_store 𝒱₀ (c : Thread nD τ) none Set.univ (m := (zsM : Memref sig .tc .vmem S512x512 .bf16)) (r := Rect.unit (s := S512x512) (zoff k) S64x512.size hz) (S := (zsCh k).view.set) (Finset.Subset.refl _)) $$ [Hzs]
  · iexact Hzs
  iintro Hzs
  have e := zs_store_val m c k f0
  unfold zsPts at e
  ihave Hzs' := (Entails.of_eq e) $$ Hzs
  ihave HiS := (records_inv m K c (zss k) hS) $$ Hrec
  ihave HiR := (records_inv m K (zp c) (zrs k) hR) $$ Hrec
  ihave HrS := (records_reached m K c (zss k) hS) $$ Hrec
  ihave HrR := (records_reached m K (zp c) (zrs k) hR) $$ Hrec
  iapply (wp_send_chunk m c (zp c) (zp c) rfl (src := zsCh k) (dst := zrCh k) (zss k) (zrs k) hS hR (K (c, jOf (zss k) hS)) (K (zp c, jOf (zrs k) hR)) fullShare (ZSv m c) fz
    (Orem c (i + 1)) W (chunk_credit _) hpayS hpayR) $$ [$]
  iintro ⟨Hcr, HL⟩
  iapply Hk
  iframe # ∗

end Cert.KernelIdeal.RS

end
-- ==== Proof.RIter.lean ====
import proofs.«901029_g7700000000001030_dist_rs_v7x_xyz2x2x2_z_m2048_n512_bf16_1_alg».proof.Proof.Records
import proofs.«901029_g7700000000001030_dist_rs_v7x_xyz2x2x2_z_m2048_n512_bf16_1_alg».proof.Proof.Landing
import proofs.«901029_g7700000000001030_dist_rs_v7x_xyz2x2x2_z_m2048_n512_bf16_1_alg».proof.Proof.Cover
import proofs.«901029_g7700000000001030_dist_rs_v7x_xyz2x2x2_z_m2048_n512_bf16_1_alg».proof.Proof.Levels
import proofs.«901029_g7700000000001030_dist_rs_v7x_xyz2x2x2_z_m2048_n512_bf16_1_alg».proof.Proof.Steps

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- Chunk k reduced: the neighbour's chunk has landed, the sum is stored as the chunk's final contents, and a half share goes to each of x and y.
theorem rIter_spec (K : Dev nD × Fin 65 → ℕ) (c : Dev nD) (k : Fin 8) (i : ℕ)
    (hO1 : Orem c i = Orem c (i+1) + tallyAt (dcell (xp c) (xrs k)) () N)
    (hO2 : Orem c (i+1) = Orem c (i+2) + tallyAt (dcell (yp c) (yrs k)) () N)
    (hmw : (levAts L lv : sProp 𝕄) ⊢ MayWait (c : Thread nD τ) (.dma (zrs k)) () (Orem c i))
    {o2 : Fin 3 → ℕ} (ho2 : o2 = k0_off2 c (BitVec.ofNat 32 (64 * k.val)))
    {oz o3 o4 o5 : Fin 2 → ℕ} (hoz : oz = zoff k) (ho3 : o3 = ooff c k) (ho4 : o4 = ooff c k) (ho5 : o5 = ooff c k)
    {pay : Vec F S1x64x512 .f32 → Vec F S64x512 .bf16 → FVec F S64x512 .bf16} (hpay : pay = rpay)
    {nx ny : Dev nD} (hnx : nx = xp c) (hny : ny = yp c)
    {szr sxs sxr sys syr : DmaSem sig} (hszr : szr = zrs k) (hsxs : sxs = xss k) (hsxr : sxr = xrs k)
    (hsys : sys = yss k) (hsyr : syr = yrs k)
    {a b : Memref sig .tc .vmem S64x512 .bf16} {ha : a.view.WordExact} {hb : b.view.WordExact}
    {inb2 : ∀ a, o2 a + S1x64x512.size a ≤ S1x2048x1024.size a}
    {hl2 : xM.view.LoadsAt (Rect.unit (s := S1x2048x1024) o2 S1x64x512.size inb2).toLoadRect}
    {inbz : ∀ a, oz a + S64x512.size a ≤ S512x512.size a}
    {hlz : zrM.view.LoadsAt (Rect.unit (s := S512x512) oz S64x512.size inbz).toLoadRect}
    {inb3 : ∀ a, o3 a + S64x512.size a ≤ S2048x512.size a}
    {hl3 : oM.view.LoadsAt (Rect.unit (s := S2048x512) o3 S64x512.size inb3).toLoadRect}
    {hx3 : (oM.access (Rect.unit (s := S2048x512) o3 S64x512.size inb3)).Stores Finset.univ}
    {hm3 : (Finset.univ : Finset (Rect.unit (s := S2048x512) o3 S64x512.size inb3).shape.Idx) = Finset.univ ∨ ∀ a, (Rect.unit (s := S2048x512) o3 S64x512.size inb3).stride a = 1}
    {inb4 : ∀ a, o4 a + S64x512.size a ≤ S2048x512.size a}
    {hs4 : ∀ a, (Rect.unit (s := S2048x512) o4 S64x512.size inb4).stride a = 1}
    {hscx : (oM.slice (Rect.unit (s := S2048x512) o4 S64x512.size inb4) hs4).view.ref.isScScratch = false}
    {hsrcx hdstx : (oM.slice (Rect.unit (s := S2048x512) o4 S64x512.size inb4) hs4).view.WordExact}
    {hsemx : DmaTarget.Typed .vmem (.dma sxr) (.remote (Dev.tc nx : Thread nD τ) (oM.slice (Rect.unit (s := S2048x512) o4 S64x512.size inb4) hs4) (.dma sxs) hscx)}
    {inb5 : ∀ a, o5 a + S64x512.size a ≤ S2048x512.size a}
    {hs5 : ∀ a, (Rect.unit (s := S2048x512) o5 S64x512.size inb5).stride a = 1}
    {hscy : (oM.slice (Rect.unit (s := S2048x512) o5 S64x512.size inb5) hs5).view.ref.isScScratch = false}
    {hsrcy hdsty : (oM.slice (Rect.unit (s := S2048x512) o5 S64x512.size inb5) hs5).view.WordExact}
    {hsemy : DmaTarget.Typed .vmem (.dma syr) (.remote (Dev.tc ny : Thread nD τ) (oM.slice (Rect.unit (s := S2048x512) o5 S64x512.size inb5) hs5) (.dma sys) hscy)}
    (fo fx fy : (cc0_stg1_0 : Ref sig .tc).ty.Contents (Elt F)) (W : Waits sig Unit)
    {α : Type} {Q : α → sProp 𝕄} {kk : PUnit → Prog (TpuEff nD τ sig (Elt F) Λ₀ .tc) α} :
    iprop(records m K ∗ levAts L lv ∗ Rinit c k fo fx fy ∗ xPts m c ∗ owes (c : Thread nD τ) (Orem c i) W)
      ⊢ iprop(((Rsent m c k ∗ xPts m c ∗ ∃ W', owes (c : Thread nD τ) (Orem c (i+2)) W')
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 szr a b ha hb) fun _ =>
             .op (.load xM (Rect.unit (s := S1x2048x1024) o2 S1x64x512.size inb2).toLoadRect hl2) fun x1 =>
             .op (.load zrM (Rect.unit (s := S512x512) oz S64x512.size inbz).toLoadRect hlz) fun x2 =>
             .op (.load oM (Rect.unit (s := S2048x512) o3 S64x512.size inb3).toLoadRect hl3) fun _ =>
             .op (.store oM (Rect.unit (s := S2048x512) o3 S64x512.size inb3) (pay x1 x2) Finset.univ hx3 hm3) fun _ =>
             .op (.enqueueDma (oM.slice (Rect.unit (s := S2048x512) o4 S64x512.size inb4) hs4)
                   (.remote (Dev.tc nx : Thread nD τ) (oM.slice (Rect.unit (s := S2048x512) o4 S64x512.size inb4) hs4) (.dma sxs) hscx)
                   (.dma sxr) hsrcx hdstx hsemx) fun _ =>
             .op (.enqueueDma (oM.slice (Rect.unit (s := S2048x512) o5 S64x512.size inb5) hs5)
                   (.remote (Dev.tc ny : Thread nD τ) (oM.slice (Rect.unit (s := S2048x512) o5 S64x512.size inb5) hs5) (.dma sys) hscy)
                   (.dma syr) hsrcy hdsty hsemy) kk) Q) := by
  subst ho2 hoz ho3 ho4 ho5 hpay hnx hny hszr hsxs hsxr hsys hsyr
  have hzr : 2 ≤ (zrs k).val := by show 2 ≤ 10 + k.val; omega
  have hxs : 2 ≤ (xss k).val := by show 2 ≤ 18 + k.val; omega
  have hxr : 2 ≤ (xrs k).val := by show 2 ≤ 26 + k.val; omega
  have hys : 2 ≤ (yss k).val := by show 2 ≤ 34 + k.val; omega
  have hyr : 2 ≤ (yrs k).val := by show 2 ≤ 42 + k.val; omega
  rw [hO1, hO2] at hmw
  rw [hO1, hO2]
  unfold Rinit Rsent xPts oPts zrPts
  iintro ⟨#Hrec, #Hlev, ⟨Hcr, Hpos, Ho, Hox, Hoy, T1, T2, T3, T4⟩, HX, Hown⟩ Hk
  ihave Hinv := (records_inv m K c (zrs k) hzr) $$ Hrec
  ihave Hmw := hmw $$ Hlev
  iapply (wp_wait_dma m c (zrs k) hzr (K (c, jOf (zrs k) hzr)) _ W (chunk_credit _)) $$ [$]
  iintro ⟨Hown, Hsv, Hzr⟩
  ihave Hzr := (show payDma m c (zrs k) ⊢ ((zrCh k).view.loc (c : Thread nD τ) ↦[(zrCh k).view.set]{fullShare} ZRv m c : sProp 𝕄)
    from Entails.of_eq (payDma_zrs m c k)) $$ Hzr
  iapply (wp_load 𝒱₀ (c : Thread nD τ) none Set.univ (m := xM) (Finset.subset_univ _)) $$ HX
  iintro HX
  iapply (wp_load_rect 𝒱₀ (c : Thread nD τ) none Set.univ (m := zrM) (Finset.Subset.refl _)) $$ Hzr
  iintro Hzr
  iapply (wp_load_rect 𝒱₀ (c : Thread nD τ) none Set.univ (m := oM) (Finset.Subset.refl _)) $$ Ho
  iintro Ho
  have hSo : (oM.access (Rect.unit (s := S2048x512) (ooff c k) S64x512.size inb3)).setOn Finset.univ ⊆ (oCh c k).view.set :=
    Finset.Subset.refl _
  iapply (wp_store 𝒱₀ (c : Thread nD τ) none Set.univ (m := oM) hSo) $$ Ho
  iintro Ho
  ihave Ho : ((oCh c k).view.loc (c : Thread nD τ) ↦[(oCh c k).view.set]{fullShare} OUTv m c) $$ [Ho]
  · iapply (show ((oCh c k).view.loc (c : Thread nD τ) ↦[(oCh c k).view.set]{fullShare}
          ((oM.access (orect c k)).write (Elt F) fo (rpay (xM.view.readAt (Elt F) (keepRect c k).toLoadRect (X m c))
            (zrM.view.readAt (Elt F) (zrect k).toLoadRect (ZRv m c))) Finset.univ) : sProp 𝕄)
        ⊢ ((oCh c k).view.loc (c : Thread nD τ) ↦[(oCh c k).view.set]{fullShare} OUTv m c : sProp 𝕄)
      from Entails.of_eq (out_store_val m c k fo))
    iexact Ho
  ihave Ho := (show ((oCh c k).view.loc (c : Thread nD τ) ↦[(oCh c k).view.set]{fullShare} OUTv m c : sProp 𝕄) ⊢
      iprop(((oCh c k).view.loc (c : Thread nD τ) ↦[(oCh c k).view.set]{fullShare.left} OUTv m c)
        ∗ ((oCh c k).view.loc (c : Thread nD τ) ↦[(oCh c k).view.set]{fullShare.right} OUTv m c))
    from (oPts_halves c c k (OUTv m c)).1) $$ Ho
  icases Ho with ⟨Hol, Hor⟩
  have hpaySx : ((oCh c k).view.loc (c : Thread nD τ) ↦[(oCh c k).view.set]{fullShare.left} OUTv m c : sProp 𝕄) ⊢ payDma m c (xss k) :=
    Entails.of_eq (payDma_xss m c k).symm
  have hpayRx : ((oCh c k).view.loc ((xp c : Dev nD) : Thread nD τ) ↦[(oCh c k).view.set]{fullShare}
      ((oCh c k).view.write (Elt F) fx ((oCh c k).view.read (Elt F) (OUTv m c)) Finset.univ) : sProp 𝕄) ⊢ payDma m (xp c) (xrs k) := by
    rw [payDma_xrs, xp_xp]; exact Entails.of_eq (o_land_val m c (xp c) c k (z_xp c) fx)
  ihave HinvS := (records_inv m K c (xss k) hxs) $$ Hrec
  ihave HinvR := (records_inv m K (xp c) (xrs k) hxr) $$ Hrec
  ihave HrS := (records_reached m K c (xss k) hxs) $$ Hrec
  ihave HrR := (records_reached m K (xp c) (xrs k) hxr) $$ Hrec
  iapply (wp_send_chunk m c (xp c) (xp c) rfl (src := oCh c k) (dst := oCh c k) (xss k) (xrs k) hxs hxr _ _ fullShare.left (OUTv m c) fx
    (Orem c (i + 2) + tallyAt (dcell (yp c) (yrs k)) () N) _ (chunk_credit _) hpaySx hpayRx) $$ [$]
  iintro ⟨Hcx, Hown⟩
  have hpaySy : ((oCh c k).view.loc (c : Thread nD τ) ↦[(oCh c k).view.set]{fullShare.right} OUTv m c : sProp 𝕄) ⊢ payDma m c (yss k) :=
    Entails.of_eq (payDma_yss m c k).symm
  have hpayRy : ((oCh c k).view.loc ((yp c : Dev nD) : Thread nD τ) ↦[(oCh c k).view.set]{fullShare}
      ((oCh c k).view.write (Elt F) fy ((oCh c k).view.read (Elt F) (OUTv m c)) Finset.univ) : sProp 𝕄) ⊢ payDma m (yp c) (yrs k) := by
    rw [payDma_yrs, yp_yp]; exact Entails.of_eq (o_land_val m c (yp c) c k (z_yp c) fy)
  ihave HinvS' := (records_inv m K c (yss k) hys) $$ Hrec
  ihave HinvR' := (records_inv m K (yp c) (yrs k) hyr) $$ Hrec
  ihave HrS' := (records_reached m K c (yss k) hys) $$ Hrec
  ihave HrR' := (records_reached m K (yp c) (yrs k) hyr) $$ Hrec
  iapply (wp_send_chunk m c (yp c) (yp c) rfl (src := oCh c k) (dst := oCh c k) (yss k) (yrs k) hys hyr _ _ fullShare.right (OUTv m c) fy
    (Orem c (i + 2)) _ (chunk_credit _) hpaySy hpayRy) $$ [$]
  iintro ⟨Hcy, Hown⟩
  iapply Hk
  isplitl [Hzr Hsv Hcx Hcy]
  · iframe # ∗
  isplitl [HX]; · iexact HX
  iexists _
  iexact Hown

end Cert.KernelIdeal.RS

end
-- ==== Proof.XYIter.lean ====
import proofs.«901029_g7700000000001030_dist_rs_v7x_xyz2x2x2_z_m2048_n512_bf16_1_alg».proof.Proof.Records
import proofs.«901029_g7700000000001030_dist_rs_v7x_xyz2x2x2_z_m2048_n512_bf16_1_alg».proof.Proof.Landing
import proofs.«901029_g7700000000001030_dist_rs_v7x_xyz2x2x2_z_m2048_n512_bf16_1_alg».proof.Proof.Cover
import proofs.«901029_g7700000000001030_dist_rs_v7x_xyz2x2x2_z_m2048_n512_bf16_1_alg».proof.Proof.Steps
import proofs.«901029_g7700000000001030_dist_rs_v7x_xyz2x2x2_z_m2048_n512_bf16_1_alg».proof.Proof.Levels

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- The wait on an own cell, the cell's payload given as what its table entry says it is.
theorem wait_own (K : Dev nD × Fin 65 → ℕ) (c : Dev nD) (q : DmaSem sig) (hq : 2 ≤ q.val) {P : sProp 𝕄} (hP : payDma m c q = P)
    {a b : Memref sig .tc .vmem S64x512 .bf16} {ha : a.view.WordExact} {hb : b.view.WordExact}
    {α : Type} {Q : α → sProp 𝕄} {kk : PUnit → Prog (TpuEff nD τ sig (Elt F) Λ₀ .tc) α}
    (O : CellTallies nD τ sig Unit) (W : Waits sig Unit) (hN : b.view.dmaCredit = N)
    (hmw : (levAts L lv : sProp 𝕄) ⊢ MayWait (c : Thread nD τ) (.dma q) () O) :
    iprop(records m K ∗ levAts L lv ∗ crN (dcell c q) ∗ pos0 (dcell c q) ∗ owes (c : Thread nD τ) O W)
      ⊢ iprop(((P ∗ semVal (dcell c q) 0 ∗ ∃ W', owes (c : Thread nD τ) O W')
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q a b ha hb) kk) Q) := by
  subst hP
  iintro ⟨#HR, #HL, Hc, Hp, Ho⟩ Hk
  ihave #HI := (records_inv m K c q hq) $$ HR
  ihave #HM := hmw $$ HL
  iapply (wp_wait_dma m c q hq (K (c, jOf q hq)) O W hN) $$ [Hc Hp Ho] [Hk]
  · iframe # ∗
  · iintro ⟨Ho, Hs, Hpay⟩
    iapply Hk
    isplitl [Hpay]; · iexact Hpay
    isplitl [Hs]; · iexact Hs
    iexists _; iexact Ho

theorem wait_done (K : Dev nD × Fin 65 → ℕ) (c : Dev nD) (q : DmaSem sig) (hq : 2 ≤ q.val) {P : sProp 𝕄} (hP : payDma m c q = P)
    {a b : Memref sig .tc .vmem S64x512 .bf16} {ha : a.view.WordExact} {hb : b.view.WordExact}
    {α : Type} {Q : α → sProp 𝕄} {kk : PUnit → Prog (TpuEff nD τ sig (Elt F) Λ₀ .tc) α} (W : Waits sig Unit) :
    iprop(records m K ∗ levAts L lv ∗ crN (dcell c q) ∗ pos0 (dcell c q) ∗ owes (c : Thread nD τ) (Orem c 35) W)
      ⊢ iprop(((P ∗ semVal (dcell c q) 0 ∗ ∃ W', owes (c : Thread nD τ) (Orem c 35) W')
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q a b ha hb) kk) Q) :=
  wait_own m K c q hq hP (Orem c 35) W (chunk_credit _) (mayWait_done c _)

-- A chunk of the diagonal quarter has arrived once both forwards of it have: one wait on each.
theorem d_spec (K : Dev nD × Fin 65 → ℕ) (c : Dev nD) (r : Fin 4) (qx qy : DmaSem sig) (hqx : qx = fxr r) (hqy : qy = fyr r)
    {a1 b1 a2 b2 : Memref sig .tc .vmem S64x512 .bf16}
    {ha1 : a1.view.WordExact} {hb1 : b1.view.WordExact} {ha2 : a2.view.WordExact} {hb2 : b2.view.WordExact}
    {α : Type} {Q : α → sProp 𝕄} {kk : PUnit → Prog (TpuEff nD τ sig (Elt F) Λ₀ .tc) α} (W : Waits sig Unit) :
    iprop(records m K ∗ levAts L lv ∗ Dinit c r ∗ owes (c : Thread nD τ) (Orem c 35) W)
      ⊢ iprop(((Ddone m c r ∗ ∃ W', owes (c : Thread nD τ) (Orem c 35) W') -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 qx a1 b1 ha1 hb1) fun _ => .op (.waitDma2 qy a2 b2 ha2 hb2) kk) Q) := by
  subst hqx; subst hqy
  unfold Dinit
  iintro ⟨#HR, #HL, ⟨Hc1, Hp1, Hc2, Hp2⟩, Ho⟩ Hk
  iapply (wait_done m K c (fxr r) (by show 2 ≤ 54 + r.val; omega) (payDma_fxr m c r) W) $$ [Hc1 Hp1 Ho] [Hk Hc2 Hp2]
  · iframe # ∗
  iintro ⟨Hpay1, Hs1, ⟨%W1, Ho⟩⟩
  iapply (wait_done m K c (fyr r) (by show 2 ≤ 62 + r.val; omega) (payDma_fyr m c r) W1) $$ [Hc2 Hp2 Ho] [Hk Hpay1 Hs1]
  · iframe # ∗
  iintro ⟨Hpay2, Hs2, Ho⟩
  iapply Hk
  isplitr [Ho]
  · unfold Ddone
    iframe # ∗
  · iexact Ho

end Cert.KernelIdeal.RS

end
-- ==== Proof.XYHi.lean ====
import proofs.«901029_g7700000000001030_dist_rs_v7x_xyz2x2x2_z_m2048_n512_bf16_1_alg».proof.Proof.XYIter

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem payS_hi (c : Dev nD) (r : Fin 4) (k : Fin 8) (hk : k.val = r.val + 4) :
    (((oCh (xp c) k).view.loc (c : Thread nD τ)) ↦[(oCh (xp c) k).view.set]{fullShare} (OUTv m c) : sProp 𝕄)
      ⊢ payDma m c (fys r) := by
  have h8 : r.val + 4 < 8 := by have := r.isLt; omega
  obtain rfl : k = ⟨r.val + 4, h8⟩ := Fin.ext hk
  rw [payDma_fys]; unfold oPts; exact .rfl

private theorem payR_hi (c : Dev nD) (r : Fin 4) (k : Fin 8) (hk : k.val = r.val + 4) (fy : (cc0_stg1_0 : Ref sig .tc).ty.Contents (Elt F)) :
    (((oCh (xp c) k).view.loc ((yp c : Dev nD) : Thread nD τ)) ↦[(oCh (xp c) k).view.set]{fullShare}
        ((oCh (xp c) k).view.write (Elt F) fy ((oCh (xp c) k).view.read (Elt F) (OUTv m c)) Finset.univ) : sProp 𝕄)
      ⊢ payDma m (yp c) (fyr r) := by
  have h8 : r.val + 4 < 8 := by have := r.isLt; omega
  obtain rfl : k = ⟨r.val + 4, h8⟩ := Fin.ext hk
  rw [payDma_fyr, yp_yp, o_land_val m c (yp c) (xp c) _ (z_yp c) fy]

private theorem payS_lo (c : Dev nD) (r : Fin 4) (k : Fin 8) (hk : k.val = r.val) :
    (((oCh (yp c) k).view.loc (c : Thread nD τ)) ↦[(oCh (yp c) k).view.set]{fullShare} (OUTv m c) : sProp 𝕄)
      ⊢ payDma m c (fxs r) := by
  have h8 : r.val < 8 := by have := r.isLt; omega
  obtain rfl : k = ⟨r.val, h8⟩ := Fin.ext hk
  rw [payDma_fxs]; unfold oPts; exact .rfl

private theorem payR_lo (c : Dev nD) (r : Fin 4) (k : Fin 8) (hk : k.val = r.val) (fx : (cc0_stg1_0 : Ref sig .tc).ty.Contents (Elt F)) :
    (((oCh (yp c) k).view.loc ((xp c : Dev nD) : Thread nD τ)) ↦[(oCh (yp c) k).view.set]{fullShare}
        ((oCh (yp c) k).view.write (Elt F) fx ((oCh (yp c) k).view.read (Elt F) (OUTv m c)) Finset.univ) : sProp 𝕄)
      ⊢ payDma m (xp c) (fxr r) := by
  have h8 : r.val < 8 := by have := r.isLt; omega
  obtain rfl : k = ⟨r.val, h8⟩ := Fin.ext hk
  rw [payDma_fxr, xp_yp, xp_xp, o_land_val m c (xp c) (yp c) _ (z_xp c) fx]

-- Chunks 4 to 7: what arrives along x is forwarded along y.
theorem xyHi_spec (K : Dev nD × Fin 65 → ℕ) (c : Dev nD) (r : Fin 4) (k : Fin 8) (hk : k.val = r.val + 4) (i j : ℕ)
    (qx qy sfs sfr : DmaSem sig) (hqx : qx = xrs k) (hqy : qy = yrs k) (hsfs : sfs = fys r) (hsfr : sfr = fyr r)
    (ny : Dev nD) (hny : ny = yp c) (o : Fin 2 → ℕ) (ho : o = ooff (xp c) k)
    {inb : ∀ a, o a + S64x512.size a ≤ S2048x512.size a}
    {hst : ∀ a, (Rect.unit (s := S2048x512) o S64x512.size inb).stride a = 1}
    {hsc : (oM.slice (Rect.unit (s := S2048x512) o S64x512.size inb) hst).view.ref.isScScratch = false}
    {hsrc : (oM.slice (Rect.unit (s := S2048x512) o S64x512.size inb) hst).view.WordExact}
    {hdst : (oM.slice (Rect.unit (s := S2048x512) o S64x512.size inb) hst).view.WordExact}
    {hsem : DmaTarget.Typed .vmem (.dma sfr) (.remote (Dev.tc ny : Thread nD τ) (oM.slice (Rect.unit (s := S2048x512) o S64x512.size inb) hst) (.dma sfs) hsc)}
    {a1 b1 a2 b2 : Memref sig .tc .vmem S64x512 .bf16}
    {ha1 : a1.view.WordExact} {hb1 : b1.view.WordExact} {ha2 : a2.view.WordExact} {hb2 : b2.view.WordExact}
    {α : Type} {Q : α → sProp 𝕄} {kk : PUnit → Prog (TpuEff nD τ sig (Elt F) Λ₀ .tc) α}
    (fy : (cc0_stg1_0 : Ref sig .tc).ty.Contents (Elt F)) (W : Waits sig Unit)
    (hO : Orem c i = Orem c j + tallyAt (dcell (yp c) (fyr r)) () N)
    (hmw1 : (levAts L lv : sProp 𝕄) ⊢ MayWait (c : Thread nD τ) (.dma qx) () (Orem c i))
    (hmw2 : (levAts L lv : sProp 𝕄) ⊢ MayWait (c : Thread nD τ) (.dma qy) () (Orem c j)) :
    iprop(records m K ∗ levAts L lv ∗ XYinitHi c r fy ∗ owes (c : Thread nD τ) (Orem c i) W)
      ⊢ iprop(((XYdoneHi m c r ∗ ∃ W', owes (c : Thread nD τ) (Orem c j) W') -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 qx a1 b1 ha1 hb1) fun _ =>
               .op (.enqueueDma (oM.slice (Rect.unit (s := S2048x512) o S64x512.size inb) hst)
                      (.remote (Dev.tc ny : Thread nD τ) (oM.slice (Rect.unit (s := S2048x512) o S64x512.size inb) hst) (.dma sfs) hsc)
                      (.dma sfr) hsrc hdst hsem) fun _ =>
               .op (.waitDma2 qy a2 b2 ha2 hb2) kk) Q) := by
  have h8 : r.val + 4 < 8 := by have := r.isLt; omega
  obtain rfl : k = ⟨r.val + 4, h8⟩ := Fin.ext hk
  subst hqx; subst hqy; subst hsfs; subst hsfr; subst ho
  unfold XYinitHi
  iintro ⟨#HR, #HL, ⟨Hcx, Hpx, Hcy, Hpy, Hdst, Hts, Htr⟩, Ho⟩ Hk
  iapply (wait_own m K c _ (by show 2 ≤ 26 + (r.val + 4); omega) (payDma_xrs m c _) (Orem c i) W (chunk_credit _) hmw1) $$ [Hcx Hpx Ho] [Hk Hcy Hpy Hdst Hts Htr]
  · iframe # ∗
  iintro ⟨Hsrc, Hsx, ⟨%W1, Ho⟩⟩
  rw [hO]
  have hS : 2 ≤ (fys r).val := by show 2 ≤ 58 + r.val; omega
  have hR : 2 ≤ (fyr r).val := by show 2 ≤ 62 + r.val; omega
  ihave #HIs := (records_inv m K c (fys r) hS) $$ HR
  ihave #HIr := (records_inv m K (yp c) (fyr r) hR) $$ HR
  ihave #HRs := (records_reached m K c (fys r) hS) $$ HR
  ihave #HRr := (records_reached m K (yp c) (fyr r) hR) $$ HR
  unfold oPts
  iapply (wp_send_chunk m c (yp c) ny hny (src := oCh (xp c) ⟨r.val + 4, h8⟩) (dst := oCh (xp c) ⟨r.val + 4, h8⟩) (fys r) (fyr r) hS hR
      (K (c, jOf (fys r) hS)) (K (yp c, jOf (fyr r) hR)) fullShare (OUTv m c) fy (Orem c j) W1 (chunk_credit _)
      (payS_hi m c r _ rfl) (payR_hi m c r _ rfl fy)) $$ [Hsrc Hdst Ho Hts Htr] [Hk Hcy Hpy Hsx]
  · iframe # ∗
  iintro ⟨Hcs, Ho⟩
  iapply (wait_own m K c _ (by show 2 ≤ 42 + (r.val + 4); omega) (payDma_yrs m c _) (Orem c j) W1 (chunk_credit _) hmw2) $$ [Hcy Hpy Ho] [Hk Hsx Hcs]
  · iframe # ∗
  iintro ⟨Hy, Hsy, Ho⟩
  iapply Hk
  isplitr [Ho]
  · unfold XYdoneHi
    iframe # ∗
  · iexact Ho

-- Chunks 0 to 3: what arrives along y is forwarded along x.
theorem xyLo_spec (K : Dev nD × Fin 65 → ℕ) (c : Dev nD) (r : Fin 4) (k : Fin 8) (hk : k.val = r.val) (i j : ℕ)
    (qx qy sfs sfr : DmaSem sig) (hqx : qx = xrs k) (hqy : qy = yrs k) (hsfs : sfs = fxs r) (hsfr : sfr = fxr r)
    (nx : Dev nD) (hnx : nx = xp c) (o : Fin 2 → ℕ) (ho : o = ooff (yp c) k)
    {inb : ∀ a, o a + S64x512.size a ≤ S2048x512.size a}
    {hst : ∀ a, (Rect.unit (s := S2048x512) o S64x512.size inb).stride a = 1}
    {hsc : (oM.slice (Rect.unit (s := S2048x512) o S64x512.size inb) hst).view.ref.isScScratch = false}
    {hsrc : (oM.slice (Rect.unit (s := S2048x512) o S64x512.size inb) hst).view.WordExact}
    {hdst : (oM.slice (Rect.unit (s := S2048x512) o S64x512.size inb) hst).view.WordExact}
    {hsem : DmaTarget.Typed .vmem (.dma sfr) (.remote (Dev.tc nx : Thread nD τ) (oM.slice (Rect.unit (s := S2048x512) o S64x512.size inb) hst) (.dma sfs) hsc)}
    {a1 b1 a2 b2 : Memref sig .tc .vmem S64x512 .bf16}
    {ha1 : a1.view.WordExact} {hb1 : b1.view.WordExact} {ha2 : a2.view.WordExact} {hb2 : b2.view.WordExact}
    {α : Type} {Q : α → sProp 𝕄} {kk : PUnit → Prog (TpuEff nD τ sig (Elt F) Λ₀ .tc) α}
    (fx : (cc0_stg1_0 : Ref sig .tc).ty.Contents (Elt F)) (W : Waits sig Unit)
    (hO : Orem c i = Orem c j + tallyAt (dcell (xp c) (fxr r)) () N)
    (hmw1 : (levAts L lv : sProp 𝕄) ⊢ MayWait (c : Thread nD τ) (.dma qx) () (Orem c i))
    (hmw2 : (levAts L lv : sProp 𝕄) ⊢ MayWait (c : Thread nD τ) (.dma qy) () (Orem c i)) :
    iprop(records m K ∗ levAts L lv ∗ XYinitLo c r fx ∗ owes (c : Thread nD τ) (Orem c i) W)
      ⊢ iprop(((XYdoneLo m c r ∗ ∃ W', owes (c : Thread nD τ) (Orem c j) W') -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 qx a1 b1 ha1 hb1) fun _ =>
               .op (.waitDma2 qy a2 b2 ha2 hb2) fun _ =>
               .op (.enqueueDma (oM.slice (Rect.unit (s := S2048x512) o S64x512.size inb) hst)
                      (.remote (Dev.tc nx : Thread nD τ) (oM.slice (Rect.unit (s := S2048x512) o S64x512.size inb) hst) (.dma sfs) hsc)
                      (.dma sfr) hsrc hdst hsem) kk) Q) := by
  have h8 : r.val < 8 := by have := r.isLt; omega
  obtain rfl : k = ⟨r.val, h8⟩ := Fin.ext hk
  subst hqx; subst hqy; subst hsfs; subst hsfr; subst ho
  unfold XYinitLo
  iintro ⟨#HR, #HL, ⟨Hcx, Hpx, Hcy, Hpy, Hdst, Hts, Htr⟩, Ho⟩ Hk
  iapply (wait_own m K c _ (by show 2 ≤ 26 + r.val; omega) (payDma_xrs m c _) (Orem c i) W (chunk_credit _) hmw1) $$ [Hcx Hpx Ho] [Hk Hcy Hpy Hdst Hts Htr]
  · iframe # ∗
  iintro ⟨Hx, Hsx, ⟨%W1, Ho⟩⟩
  iapply (wait_own m K c _ (by show 2 ≤ 42 + r.val; omega) (payDma_yrs m c _) (Orem c i) W1 (chunk_credit _) hmw2) $$ [Hcy Hpy Ho] [Hk Hsx Hx Hdst Hts Htr]
  · iframe # ∗
  iintro ⟨Hsrc, Hsy, ⟨%W2, Ho⟩⟩
  rw [hO]
  have hS : 2 ≤ (fxs r).val := by show 2 ≤ 50 + r.val; omega
  have hR : 2 ≤ (fxr r).val := by show 2 ≤ 54 + r.val; omega
  ihave #HIs := (records_inv m K c (fxs r) hS) $$ HR
  ihave #HIr := (records_inv m K (xp c) (fxr r) hR) $$ HR
  ihave #HRs := (records_reached m K c (fxs r) hS) $$ HR
  ihave #HRr := (records_reached m K (xp c) (fxr r) hR) $$ HR
  unfold oPts
  iapply (wp_send_chunk m c (xp c) nx hnx (src := oCh (yp c) ⟨r.val, h8⟩) (dst := oCh (yp c) ⟨r.val, h8⟩) (fxs r) (fxr r) hS hR
      (K (c, jOf (fxs r) hS)) (K (xp c, jOf (fxr r) hR)) fullShare (OUTv m c) fx (Orem c j) W2 (chunk_credit _)
      (payS_lo m c r _ rfl) (payR_lo m c r _ rfl fx)) $$ [Hsrc Hdst Ho Hts Htr] [Hk Hsx Hsy Hx]
  · iframe # ∗
  iintro ⟨Hcs, Ho⟩
  iapply Hk
  isplitr [Ho]
  · unfold XYdoneLo oPts
    iframe # ∗
  · iexists _; iexact Ho

end Cert.KernelIdeal.RS

end
-- ==== Proof.BodyOb.lean ====
import proofs.«901029_g7700000000001030_dist_rs_v7x_xyz2x2x2_z_m2048_n512_bf16_1_alg».proof.Proof.Regroup2
import proofs.«901029_g7700000000001030_dist_rs_v7x_xyz2x2x2_z_m2048_n512_bf16_1_alg».proof.Proof.Bar
import proofs.«901029_g7700000000001030_dist_rs_v7x_xyz2x2x2_z_m2048_n512_bf16_1_alg».proof.Proof.ZIter
import proofs.«901029_g7700000000001030_dist_rs_v7x_xyz2x2x2_z_m2048_n512_bf16_1_alg».proof.Proof.RIter
import proofs.«901029_g7700000000001030_dist_rs_v7x_xyz2x2x2_z_m2048_n512_bf16_1_alg».proof.Proof.XYHi
import proofs.«901029_g7700000000001030_dist_rs_v7x_xyz2x2x2_z_m2048_n512_bf16_1_alg».proof.Proof.XYIter
import proofs.«901029_g7700000000001030_dist_rs_v7x_xyz2x2x2_z_m2048_n512_bf16_1_alg».proof.Proof.Levels
import proofs.«901029_g7700000000001030_dist_rs_v7x_xyz2x2x2_z_m2048_n512_bf16_1_alg».proof.Proof.Gen.KernelIdeal.Skeleton
import proofs.«901029_g7700000000001030_dist_rs_v7x_xyz2x2x2_z_m2048_n512_bf16_1_alg».proof.Proof.Gen.KernelIdeal.Points

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem xPts_eq (c : Dev nD) : xPts m c = ((((c : Thread nD τ).loc cc0_stg0_0) ↦{fullShare} X m c) : sProp 𝕄) := rfl

theorem fetch_0 (t : Fin cfg0.N) : (cfg0.win (0 : Fin 2)).fetch t = true := fetch0_0 t

def bodyPre (K : Dev nD × Fin 65 → ℕ) (c : Dev nD) : sProp 𝕄 :=
  iprop((ghost m K c ∗ creds c ∗ levAts L lv
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ m c ∗ (dats m 0 c).owesAt () t0_0.succ ∗ stg c cc0_stg0_0 (X m c) ∗ stg c cc0_stg1_0 (OUTv m c))

-- The body chunk by chunk in program order: every chunk of every buffer is written once and read only after the wait for it.
set_option maxRecDepth 65536 in
set_option maxHeartbeats 8000000 in
theorem sound_body (K : Dev nD × Fin 65 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7 cc0_scratch8 cc0_scratch9 cc0_scratch10 cc0_scratch11) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, semSignalWord, semWaitWord, Prog.lift, Prog.bind_op, Prog.bind_ret, Prog.pure_eq_ret, wp_deviceId]
  unfold bodyPre ghost
  iintro ⟨⟨⟨⟨#HR, Hpos, Htok⟩, Hcr, #Hlev, ⟨%f0, Hzs⟩, ⟨%fz0, Hzr⟩⟩, Ho, ⟨%d0, %g0, %hg0, Hx⟩, ⟨%d1, %g1, %hg1, Hout⟩⟩, Hk⟩
  have hx : g0 = X m c := by rw [hg0]; unfold Dat.before; rw [if_pos (fetch_0 t0_0)]; rfl
  subst hx
  unfold Dat.owesAt Pipeline.owesWithin
  icases Ho with ⟨%W, %hW, HO⟩
  rw [show (dats m 0 c).owed t0_0.castSucc = Orem c 0 from rfl]
  ihave Hpos' := ((positions_split c).mp) $$ Hpos
  icases Hpos' with ⟨HposB, HposD⟩
  ihave Htok' := (Entails.of_eq (payToks_eq c)) $$ Htok
  icases Htok' with ⟨Ht1, Ht2, Ht3, HtokD⟩
  ihave Hcr' := (Entails.of_eq (creds_eq c)) $$ Hcr
  icases Hcr' with ⟨HcrB, HcrD⟩
  ihave Hzs' := ((zs_split c f0).mp) $$ Hzs
  ihave Hzr' := ((zr_split c fz0).mp) $$ Hzr
  ihave Hout' := ((out_split c g1).mp) $$ Hout
  icases Hout' with ⟨HoMe, HoX, HoY, HoD⟩
  ihave HoD' := (Entails.of_eq (bigSep_halves _)) $$ HoD
  icases HoD' with ⟨HoDlo, HoDhi⟩
  simp only [dev1_eq c, dev2_eq c, dev3_eq c]
  iapply (Rounds.wp_signal 𝒱₀ ER (Rd m) (c : Thread nD τ) none (dst := ((zp c : Dev nD) : Thread nD τ)) (sem := barS) (r := 0) (d := 0)
      (κ := K (zp c, 0)) (by rw [duties_bar]; exact Finset.mem_univ _) ((amount_bar m (zp c) 0).trans (by decide)) () (Orem c 1) (bar_owed0 c)) $$ [HO Ht1 Hzr']
  · isplitr; · iapply (records_inv_bar m K (zp c)); iexact HR
    isplitl [HO]; · iexact HO
    isplitl [Ht1]; · iexact Ht1
    isplitl [Hzr']; · iapply (bar_pay0 m c fz0); iexact Hzr'
    iapply (records_reached_bar m K (zp c)); iexact HR
  iintro HO
  iapply (Rounds.wp_signal 𝒱₀ ER (Rd m) (c : Thread nD τ) none (dst := ((xp c : Dev nD) : Thread nD τ)) (sem := barS) (r := 0) (d := 1)
      (κ := K (xp c, 0)) (by rw [duties_bar]; exact Finset.mem_univ _) ((amount_bar m (xp c) 1).trans (by decide)) () (Orem c 2) (bar_owed1 c)) $$ [HO Ht2 HoX HoDlo]
  · isplitr; · iapply (records_inv_bar m K (xp c)); iexact HR
    isplitl [HO]; · iexact HO
    isplitl [Ht2]; · iexact Ht2
    isplitl [HoX HoDlo]
    · iapply (bar_pay1 m c g1)
      iframe # ∗
    iapply (records_reached_bar m K (xp c)); iexact HR
  iintro HO
  iapply (Rounds.wp_signal 𝒱₀ ER (Rd m) (c : Thread nD τ) none (dst := ((yp c : Dev nD) : Thread nD τ)) (sem := barS) (r := 0) (d := 2)
      (κ := K (yp c, 0)) (by rw [duties_bar]; exact Finset.mem_univ _) ((amount_bar m (yp c) 2).trans (by decide)) () (Orem c 3) (bar_owed2 c)) $$ [HO Ht3 HoY HoDhi]
  · isplitr; · iapply (records_inv_bar m K (yp c)); iexact HR
    isplitl [HO]; · iexact HO
    isplitl [Ht3]; · iexact Ht3
    isplitl [HoY HoDhi]
    · iapply (bar_pay2 m c g1)
      iframe # ∗
    iapply (records_reached_bar m K (yp c)); iexact HR
  iintro HO
  iapply (Rounds.wp_wait_rest_token 𝒱₀ ER (Rd m) (c : Thread nD τ) none (sm := .reg barS) (κ := K (c, 0))
      (wpE_semWait_eq 𝒱₀ (c : Thread nD τ) none Set.univ) (Set.mem_univ _) () (O := Orem c 3) (W := W) (R := 0) (m := 0) (T := ∅)
      (by rw [expect_bar]; decide)) $$ [HcrB HO HposB]
  · isplitr; · iapply (records_inv_bar m K c); iexact HR
    isplitl [HcrB]; · iexact HcrB
    isplitl [HO]; · iexact HO
    isplitr; · iapply (mayWait_bar c); iexact Hlev
    iexact HposB
  iintro ⟨HO, -, -, Hpay⟩
  ihave HB := (bar_rest m c) $$ Hpay
  ihave HS := (S1_intro c f0 g1) $$ [HposD HtokD HcrD Hzs' HoMe HB]
  · iframe # ∗
  icases HS with ⟨%fz, %fx, %fy, HS⟩
  unfold S1
  icases HS with ⟨HZ, HRi, HXh, HXl, HD, Hpz, Hpx, Hpy, Hpfy, Hpfx⟩
  ihave Hx1 := (Entails.of_eq (xPts_eq m c).symm) $$ Hx
  ihave HZ' := (Entails.of_eq (bigSep_fin8 _)) $$ HZ
  icases HZ' with ⟨Z0, Z1, Z2, Z3, Z4, Z5, Z6, Z7⟩
  iapply (zIter_spec m K c 4 3 (Orem_at c 3 _ _ rfl) _ rfl _ rfl _ rfl _ (dev4_eq c) _ _ rfl rfl f0 fz _) $$ [Z4 Hx1 HO]
  · iframe # ∗
  iintro ⟨Sz4, Hx1, HO⟩
  iapply (zIter_spec m K c 0 4 (Orem_at c 4 _ _ rfl) _ rfl _ rfl _ rfl _ (dev5_eq c) _ _ rfl rfl f0 fz _) $$ [Z0 Hx1 HO]
  · iframe # ∗
  iintro ⟨Sz0, Hx1, HO⟩
  iapply (zIter_spec m K c 5 5 (Orem_at c 5 _ _ rfl) _ rfl _ rfl _ rfl _ (dev6_eq c) _ _ rfl rfl f0 fz _) $$ [Z5 Hx1 HO]
  · iframe # ∗
  iintro ⟨Sz5, Hx1, HO⟩
  iapply (zIter_spec m K c 1 6 (Orem_at c 6 _ _ rfl) _ rfl _ rfl _ rfl _ (dev7_eq c) _ _ rfl rfl f0 fz _) $$ [Z1 Hx1 HO]
  · iframe # ∗
  iintro ⟨Sz1, Hx1, HO⟩
  iapply (zIter_spec m K c 6 7 (Orem_at c 7 _ _ rfl) _ rfl _ rfl _ rfl _ (dev8_eq c) _ _ rfl rfl f0 fz _) $$ [Z6 Hx1 HO]
  · iframe # ∗
  iintro ⟨Sz6, Hx1, HO⟩
  iapply (zIter_spec m K c 2 8 (Orem_at c 8 _ _ rfl) _ rfl _ rfl _ rfl _ (dev9_eq c) _ _ rfl rfl f0 fz _) $$ [Z2 Hx1 HO]
  · iframe # ∗
  iintro ⟨Sz2, Hx1, HO⟩
  iapply (zIter_spec m K c 7 9 (Orem_at c 9 _ _ rfl) _ rfl _ rfl _ rfl _ (dev10_eq c) _ _ rfl rfl f0 fz _) $$ [Z7 Hx1 HO]
  · iframe # ∗
  iintro ⟨Sz7, Hx1, HO⟩
  iapply (zIter_spec m K c 3 10 (Orem_at c 10 _ _ rfl) _ rfl _ rfl _ rfl _ (dev11_eq c) _ _ rfl rfl f0 fz _) $$ [Z3 Hx1 HO]
  · iframe # ∗
  iintro ⟨Sz3, Hx1, HO⟩
  ihave HZs : (bigSep Finset.univ fun k : Fin 8 => Zsent (F := F) c k) $$ [Sz0 Sz1 Sz2 Sz3 Sz4 Sz5 Sz6 Sz7]
  · rw [bigSep_fin8]; iframe
  ihave HRi' := (Entails.of_eq (bigSep_fin8 _)) $$ HRi
  icases HRi' with ⟨R0, R1, R2, R3, R4, R5, R6, R7⟩
  iapply (rIter_spec m K c 4 11 (Orem_at c 11 _ _ rfl) (Orem_at c 12 _ _ rfl) (mayWait_zrs c 4 11 (by decide))
    rfl rfl (off3_eq c 4) (off4_eq c 4) (off4_eq c 4) rfl (dev12_eq c) (dev13_eq c) rfl rfl rfl rfl rfl g1 fx fy _) $$ [R4 Hx1 HO]
  · iframe # ∗
  iintro ⟨T4, Hx1, ⟨%Wr0, HO⟩⟩
  iapply (rIter_spec m K c 0 13 (Orem_at c 13 _ _ rfl) (Orem_at c 14 _ _ rfl) (mayWait_zrs c 0 13 (by decide))
    rfl rfl (off3_eq c 0) (off4_eq c 0) (off4_eq c 0) rfl (dev14_eq c) (dev15_eq c) rfl rfl rfl rfl rfl g1 fx fy _) $$ [R0 Hx1 HO]
  · iframe # ∗
  iintro ⟨T0, Hx1, ⟨%Wr1, HO⟩⟩
  iapply (rIter_spec m K c 5 15 (Orem_at c 15 _ _ rfl) (Orem_at c 16 _ _ rfl) (mayWait_zrs c 5 15 (by decide))
    rfl rfl (off3_eq c 5) (off4_eq c 5) (off4_eq c 5) rfl (dev16_eq c) (dev17_eq c) rfl rfl rfl rfl rfl g1 fx fy _) $$ [R5 Hx1 HO]
  · iframe # ∗
  iintro ⟨T5, Hx1, ⟨%Wr2, HO⟩⟩
  iapply (rIter_spec m K c 1 17 (Orem_at c 17 _ _ rfl) (Orem_at c 18 _ _ rfl) (mayWait_zrs c 1 17 (by decide))
    rfl rfl (off3_eq c 1) (off4_eq c 1) (off4_eq c 1) rfl (dev18_eq c) (dev19_eq c) rfl rfl rfl rfl rfl g1 fx fy _) $$ [R1 Hx1 HO]
  · iframe # ∗
  iintro ⟨T1, Hx1, ⟨%Wr3, HO⟩⟩
  iapply (rIter_spec m K c 6 19 (Orem_at c 19 _ _ rfl) (Orem_at c 20 _ _ rfl) (mayWait_zrs c 6 19 (by decide))
    rfl rfl (off3_eq c 6) (off4_eq c 6) (off4_eq c 6) rfl (dev20_eq c) (dev21_eq c) rfl rfl rfl rfl rfl g1 fx fy _) $$ [R6 Hx1 HO]
  · iframe # ∗
  iintro ⟨T6, Hx1, ⟨%Wr4, HO⟩⟩
  iapply (rIter_spec m K c 2 21 (Orem_at c 21 _ _ rfl) (Orem_at c 22 _ _ rfl) (mayWait_zrs c 2 21 (by decide))
    rfl rfl (off3_eq c 2) (off4_eq c 2) (off4_eq c 2) rfl (dev22_eq c) (dev23_eq c) rfl rfl rfl rfl rfl g1 fx fy _) $$ [R2 Hx1 HO]
  · iframe # ∗
  iintro ⟨T2, Hx1, ⟨%Wr5, HO⟩⟩
  iapply (rIter_spec m K c 7 23 (Orem_at c 23 _ _ rfl) (Orem_at c 24 _ _ rfl) (mayWait_zrs c 7 23 (by decide))
    rfl rfl (off3_eq c 7) (off4_eq c 7) (off4_eq c 7) rfl (dev24_eq c) (dev25_eq c) rfl rfl rfl rfl rfl g1 fx fy _) $$ [R7 Hx1 HO]
  · iframe # ∗
  iintro ⟨T7, Hx1, ⟨%Wr6, HO⟩⟩
  iapply (rIter_spec m K c 3 25 (Orem_at c 25 _ _ rfl) (Orem_at c 26 _ _ rfl) (mayWait_zrs c 3 25 (by decide))
    rfl rfl (off3_eq c 3) (off4_eq c 3) (off4_eq c 3) rfl (dev26_eq c) (dev27_eq c) rfl rfl rfl rfl rfl g1 fx fy _) $$ [R3 Hx1 HO]
  · iframe # ∗
  iintro ⟨T3, Hx1, ⟨%Wr7, HO⟩⟩
  ihave HRs : (bigSep Finset.univ fun k : Fin 8 => Rsent m c k) $$ [T0 T1 T2 T3 T4 T5 T6 T7]
  · rw [bigSep_fin8]; iframe
  ihave HXh' := (Entails.of_eq (bigSep_fin4 _)) $$ HXh
  icases HXh' with ⟨Hh0, Hh1, Hh2, Hh3⟩
  ihave HXl' := (Entails.of_eq (bigSep_fin4 _)) $$ HXl
  icases HXl' with ⟨Hl0, Hl1, Hl2, Hl3⟩
  iapply (xyHi_spec m K c 0 4 rfl 27 28 (xrs 4) (yrs 4) (fys 0) (fyr 0) rfl rfl rfl rfl _ (dev28_eq c) _ (off5_eq c 0) fy _
      (Orem_at c 27 _ _ rfl) (mayWait_xrs c 4 27 (by decide)) (mayWait_yrs c 4 28 (by decide))) $$ [Hh0 HO]
  · iframe # ∗
  iintro ⟨Dh0, ⟨%Wh0, HO⟩⟩
  iapply (xyLo_spec m K c 0 0 rfl 28 29 (xrs 0) (yrs 0) (fxs 0) (fxr 0) rfl rfl rfl rfl _ (dev29_eq c) _ (off6_eq c 0) fx _
      (Orem_at c 28 _ _ rfl) (mayWait_xrs c 0 28 (by decide)) (mayWait_yrs c 0 28 (by decide))) $$ [Hl0 HO]
  · iframe # ∗
  iintro ⟨Dl0, ⟨%Wl0, HO⟩⟩
  iapply (xyHi_spec m K c 1 5 rfl 29 30 (xrs 5) (yrs 5) (fys 1) (fyr 1) rfl rfl rfl rfl _ (dev30_eq c) _ (off5_eq c 1) fy _
      (Orem_at c 29 _ _ rfl) (mayWait_xrs c 5 29 (by decide)) (mayWait_yrs c 5 30 (by decide))) $$ [Hh1 HO]
  · iframe # ∗
  iintro ⟨Dh1, ⟨%Wh1, HO⟩⟩
  iapply (xyLo_spec m K c 1 1 rfl 30 31 (xrs 1) (yrs 1) (fxs 1) (fxr 1) rfl rfl rfl rfl _ (dev31_eq c) _ (off6_eq c 1) fx _
      (Orem_at c 30 _ _ rfl) (mayWait_xrs c 1 30 (by decide)) (mayWait_yrs c 1 30 (by decide))) $$ [Hl1 HO]
  · iframe # ∗
  iintro ⟨Dl1, ⟨%Wl1, HO⟩⟩
  iapply (xyHi_spec m K c 2 6 rfl 31 32 (xrs 6) (yrs 6) (fys 2) (fyr 2) rfl rfl rfl rfl _ (dev32_eq c) _ (off5_eq c 2) fy _
      (Orem_at c 31 _ _ rfl) (mayWait_xrs c 6 31 (by decide)) (mayWait_yrs c 6 32 (by decide))) $$ [Hh2 HO]
  · iframe # ∗
  iintro ⟨Dh2, ⟨%Wh2, HO⟩⟩
  iapply (xyLo_spec m K c 2 2 rfl 32 33 (xrs 2) (yrs 2) (fxs 2) (fxr 2) rfl rfl rfl rfl _ (dev33_eq c) _ (off6_eq c 2) fx _
      (Orem_at c 32 _ _ rfl) (mayWait_xrs c 2 32 (by decide)) (mayWait_yrs c 2 32 (by decide))) $$ [Hl2 HO]
  · iframe # ∗
  iintro ⟨Dl2, ⟨%Wl2, HO⟩⟩
  iapply (xyHi_spec m K c 3 7 rfl 33 34 (xrs 7) (yrs 7) (fys 3) (fyr 3) rfl rfl rfl rfl _ (dev34_eq c) _ (off5_eq c 3) fy _
      (Orem_at c 33 _ _ rfl) (mayWait_xrs c 7 33 (by decide)) (mayWait_yrs c 7 34 (by decide))) $$ [Hh3 HO]
  · iframe # ∗
  iintro ⟨Dh3, ⟨%Wh3, HO⟩⟩
  iapply (xyLo_spec m K c 3 3 rfl 34 35 (xrs 3) (yrs 3) (fxs 3) (fxr 3) rfl rfl rfl rfl _ (dev35_eq c) _ (off6_eq c 3) fx _
      (Orem_at c 34 _ _ rfl) (mayWait_xrs c 3 34 (by decide)) (mayWait_yrs c 3 34 (by decide))) $$ [Hl3 HO]
  · iframe # ∗
  iintro ⟨Dl3, ⟨%Wl3, HO⟩⟩
  ihave HXhd : (bigSep Finset.univ fun r : Fin 4 => XYdoneHi m c r) $$ [Dh0 Dh1 Dh2 Dh3]
  · rw [bigSep_fin4]; iframe
  ihave HXld : (bigSep Finset.univ fun r : Fin 4 => XYdoneLo m c r) $$ [Dl0 Dl1 Dl2 Dl3]
  · rw [bigSep_fin4]; iframe
  ihave HD' := (Entails.of_eq (bigSep_fin4 _)) $$ HD
  icases HD' with ⟨D0, D1, D2, D3⟩
  iapply (d_spec m K c 0 (fxr 0) (fyr 0) rfl rfl _) $$ [D0 HO]
  · iframe # ∗
  iintro ⟨E0, ⟨%Wd0, HO⟩⟩
  iapply (d_spec m K c 1 (fxr 1) (fyr 1) rfl rfl _) $$ [D1 HO]
  · iframe # ∗
  iintro ⟨E1, ⟨%Wd1, HO⟩⟩
  iapply (d_spec m K c 2 (fxr 2) (fyr 2) rfl rfl _) $$ [D2 HO]
  · iframe # ∗
  iintro ⟨E2, ⟨%Wd2, HO⟩⟩
  iapply (d_spec m K c 3 (fxr 3) (fyr 3) rfl rfl _) $$ [D3 HO]
  · iframe # ∗
  iintro ⟨E3, ⟨%Wd3, HO⟩⟩
  ihave HDd : (bigSep Finset.univ fun r : Fin 4 => Ddone m c r) $$ [E0 E1 E2 E3]
  · rw [bigSep_fin4]; iframe
  ihave HWI := (waits_intro m c) $$ [HZs Hpz HRs Hpx Hpy HXhd HXld Hpfy Hpfx]
  · iframe
  icases HWI with ⟨⟨HwZ, HwX, HwY, HwH, HwL⟩, HsZr, HsHi, HsLo⟩
  ihave HwZ' := (Entails.of_eq (bigSep_fin8 _)) $$ HwZ
  icases HwZ' with ⟨⟨Zs0, Zp0⟩, ⟨Zs1, Zp1⟩, ⟨Zs2, Zp2⟩, ⟨Zs3, Zp3⟩, ⟨Zs4, Zp4⟩, ⟨Zs5, Zp5⟩, ⟨Zs6, Zp6⟩, ⟨Zs7, Zp7⟩⟩
  ihave HwX' := (Entails.of_eq (bigSep_fin8 _)) $$ HwX
  icases HwX' with ⟨⟨Xs0, Xp0⟩, ⟨Xs1, Xp1⟩, ⟨Xs2, Xp2⟩, ⟨Xs3, Xp3⟩, ⟨Xs4, Xp4⟩, ⟨Xs5, Xp5⟩, ⟨Xs6, Xp6⟩, ⟨Xs7, Xp7⟩⟩
  ihave HwY' := (Entails.of_eq (bigSep_fin8 _)) $$ HwY
  icases HwY' with ⟨⟨Ys0, Yp0⟩, ⟨Ys1, Yp1⟩, ⟨Ys2, Yp2⟩, ⟨Ys3, Yp3⟩, ⟨Ys4, Yp4⟩, ⟨Ys5, Yp5⟩, ⟨Ys6, Yp6⟩, ⟨Ys7, Yp7⟩⟩
  ihave HwH' := (Entails.of_eq (bigSep_fin4 _)) $$ HwH
  icases HwH' with ⟨⟨Hs0, Hp0⟩, ⟨Hs1, Hp1⟩, ⟨Hs2, Hp2⟩, ⟨Hs3, Hp3⟩⟩
  ihave HwL' := (Entails.of_eq (bigSep_fin4 _)) $$ HwL
  icases HwL' with ⟨⟨Ls0, Lp0⟩, ⟨Ls1, Lp1⟩, ⟨Ls2, Lp2⟩, ⟨Ls3, Lp3⟩⟩
  unfold Zsent
  iapply (wait_done m K c (zss 4) (by decide) (payDma_zss m c 4) _) $$ [Zs4 Zp4 HO]
  · iframe # ∗
  iintro ⟨Bz4, Bzs4, ⟨%Ww0, HO⟩⟩
  iapply (wait_done m K c (zss 0) (by decide) (payDma_zss m c 0) _) $$ [Zs0 Zp0 HO]
  · iframe # ∗
  iintro ⟨Bz0, Bzs0, ⟨%Ww1, HO⟩⟩
  iapply (wait_done m K c (zss 5) (by decide) (payDma_zss m c 5) _) $$ [Zs5 Zp5 HO]
  · iframe # ∗
  iintro ⟨Bz5, Bzs5, ⟨%Ww2, HO⟩⟩
  iapply (wait_done m K c (zss 1) (by decide) (payDma_zss m c 1) _) $$ [Zs1 Zp1 HO]
  · iframe # ∗
  iintro ⟨Bz1, Bzs1, ⟨%Ww3, HO⟩⟩
  iapply (wait_done m K c (zss 6) (by decide) (payDma_zss m c 6) _) $$ [Zs6 Zp6 HO]
  · iframe # ∗
  iintro ⟨Bz6, Bzs6, ⟨%Ww4, HO⟩⟩
  iapply (wait_done m K c (zss 2) (by decide) (payDma_zss m c 2) _) $$ [Zs2 Zp2 HO]
  · iframe # ∗
  iintro ⟨Bz2, Bzs2, ⟨%Ww5, HO⟩⟩
  iapply (wait_done m K c (zss 7) (by decide) (payDma_zss m c 7) _) $$ [Zs7 Zp7 HO]
  · iframe # ∗
  iintro ⟨Bz7, Bzs7, ⟨%Ww6, HO⟩⟩
  iapply (wait_done m K c (zss 3) (by decide) (payDma_zss m c 3) _) $$ [Zs3 Zp3 HO]
  · iframe # ∗
  iintro ⟨Bz3, Bzs3, ⟨%Ww7, HO⟩⟩
  iapply (wait_done m K c (xss 4) (by decide) (payDma_xss m c 4) _) $$ [Xs4 Xp4 HO]
  · iframe # ∗
  iintro ⟨BXo4, BXv4, ⟨%Ww8, HO⟩⟩
  iapply (wait_done m K c (xss 0) (by decide) (payDma_xss m c 0) _) $$ [Xs0 Xp0 HO]
  · iframe # ∗
  iintro ⟨BXo0, BXv0, ⟨%Ww9, HO⟩⟩
  iapply (wait_done m K c (xss 5) (by decide) (payDma_xss m c 5) _) $$ [Xs5 Xp5 HO]
  · iframe # ∗
  iintro ⟨BXo5, BXv5, ⟨%Ww10, HO⟩⟩
  iapply (wait_done m K c (xss 1) (by decide) (payDma_xss m c 1) _) $$ [Xs1 Xp1 HO]
  · iframe # ∗
  iintro ⟨BXo1, BXv1, ⟨%Ww11, HO⟩⟩
  iapply (wait_done m K c (xss 6) (by decide) (payDma_xss m c 6) _) $$ [Xs6 Xp6 HO]
  · iframe # ∗
  iintro ⟨BXo6, BXv6, ⟨%Ww12, HO⟩⟩
  iapply (wait_done m K c (xss 2) (by decide) (payDma_xss m c 2) _) $$ [Xs2 Xp2 HO]
  · iframe # ∗
  iintro ⟨BXo2, BXv2, ⟨%Ww13, HO⟩⟩
  iapply (wait_done m K c (xss 7) (by decide) (payDma_xss m c 7) _) $$ [Xs7 Xp7 HO]
  · iframe # ∗
  iintro ⟨BXo7, BXv7, ⟨%Ww14, HO⟩⟩
  iapply (wait_done m K c (xss 3) (by decide) (payDma_xss m c 3) _) $$ [Xs3 Xp3 HO]
  · iframe # ∗
  iintro ⟨BXo3, BXv3, ⟨%Ww15, HO⟩⟩
  iapply (wait_done m K c (yss 4) (by decide) (payDma_yss m c 4) _) $$ [Ys4 Yp4 HO]
  · iframe # ∗
  iintro ⟨BYo4, BYv4, ⟨%Ww16, HO⟩⟩
  iapply (wait_done m K c (yss 0) (by decide) (payDma_yss m c 0) _) $$ [Ys0 Yp0 HO]
  · iframe # ∗
  iintro ⟨BYo0, BYv0, ⟨%Ww17, HO⟩⟩
  iapply (wait_done m K c (yss 5) (by decide) (payDma_yss m c 5) _) $$ [Ys5 Yp5 HO]
  · iframe # ∗
  iintro ⟨BYo5, BYv5, ⟨%Ww18, HO⟩⟩
  iapply (wait_done m K c (yss 1) (by decide) (payDma_yss m c 1) _) $$ [Ys1 Yp1 HO]
  · iframe # ∗
  iintro ⟨BYo1, BYv1, ⟨%Ww19, HO⟩⟩
  iapply (wait_done m K c (yss 6) (by decide) (payDma_yss m c 6) _) $$ [Ys6 Yp6 HO]
  · iframe # ∗
  iintro ⟨BYo6, BYv6, ⟨%Ww20, HO⟩⟩
  iapply (wait_done m K c (yss 2) (by decide) (payDma_yss m c 2) _) $$ [Ys2 Yp2 HO]
  · iframe # ∗
  iintro ⟨BYo2, BYv2, ⟨%Ww21, HO⟩⟩
  iapply (wait_done m K c (yss 7) (by decide) (payDma_yss m c 7) _) $$ [Ys7 Yp7 HO]
  · iframe # ∗
  iintro ⟨BYo7, BYv7, ⟨%Ww22, HO⟩⟩
  iapply (wait_done m K c (yss 3) (by decide) (payDma_yss m c 3) _) $$ [Ys3 Yp3 HO]
  · iframe # ∗
  iintro ⟨BYo3, BYv3, ⟨%Ww23, HO⟩⟩
  iapply (wait_done m K c (fys 0) (by decide) (payDma_fys m c 0) _) $$ [Hs0 Hp0 HO]
  · iframe # ∗
  iintro ⟨BH0, BHs0, ⟨%Ww24, HO⟩⟩
  iapply (wait_done m K c (fxs 0) (by decide) (payDma_fxs m c 0) _) $$ [Ls0 Lp0 HO]
  · iframe # ∗
  iintro ⟨BL0, BLs0, ⟨%Ww25, HO⟩⟩
  iapply (wait_done m K c (fys 1) (by decide) (payDma_fys m c 1) _) $$ [Hs1 Hp1 HO]
  · iframe # ∗
  iintro ⟨BH1, BHs1, ⟨%Ww26, HO⟩⟩
  iapply (wait_done m K c (fxs 1) (by decide) (payDma_fxs m c 1) _) $$ [Ls1 Lp1 HO]
  · iframe # ∗
  iintro ⟨BL1, BLs1, ⟨%Ww27, HO⟩⟩
  iapply (wait_done m K c (fys 2) (by decide) (payDma_fys m c 2) _) $$ [Hs2 Hp2 HO]
  · iframe # ∗
  iintro ⟨BH2, BHs2, ⟨%Ww28, HO⟩⟩
  iapply (wait_done m K c (fxs 2) (by decide) (payDma_fxs m c 2) _) $$ [Ls2 Lp2 HO]
  · iframe # ∗
  iintro ⟨BL2, BLs2, ⟨%Ww29, HO⟩⟩
  iapply (wait_done m K c (fys 3) (by decide) (payDma_fys m c 3) _) $$ [Hs3 Hp3 HO]
  · iframe # ∗
  iintro ⟨BH3, BHs3, ⟨%Ww30, HO⟩⟩
  iapply (wait_done m K c (fxs 3) (by decide) (payDma_fxs m c 3) _) $$ [Ls3 Lp3 HO]
  · iframe # ∗
  iintro ⟨BL3, BLs3, ⟨%Ww31, HO⟩⟩
  ihave HZb : (bigSep Finset.univ fun k : Fin 8 => Zback m c k) $$ [Bz0 Bz1 Bz2 Bz3 Bz4 Bz5 Bz6 Bz7 Bzs0 Bzs1 Bzs2 Bzs3 Bzs4 Bzs5 Bzs6 Bzs7]
  · rw [bigSep_fin8]; unfold Zback; iframe
  ihave HXb : (bigSep Finset.univ fun k : Fin 8 => iprop(oPts c c k fullShare.left (OUTv m c) ∗ semVal (dcell c (xss k)) 0)) $$ [BXo0 BXo1 BXo2 BXo3 BXo4 BXo5 BXo6 BXo7 BXv0 BXv1 BXv2 BXv3 BXv4 BXv5 BXv6 BXv7]
  · rw [bigSep_fin8]; iframe
  ihave HYb : (bigSep Finset.univ fun k : Fin 8 => iprop(oPts c c k fullShare.right (OUTv m c) ∗ semVal (dcell c (yss k)) 0)) $$ [BYo0 BYo1 BYo2 BYo3 BYo4 BYo5 BYo6 BYo7 BYv0 BYv1 BYv2 BYv3 BYv4 BYv5 BYv6 BYv7]
  · rw [bigSep_fin8]; iframe
  ihave HFh : (bigSep Finset.univ fun r : Fin 4 => FbackHi m c r) $$ [BH0 BH1 BH2 BH3 BHs0 BHs1 BHs2 BHs3]
  · rw [bigSep_fin4]; unfold FbackHi; iframe
  ihave HFl : (bigSep Finset.univ fun r : Fin 4 => FbackLo m c r) $$ [BL0 BL1 BL2 BL3 BLs0 BLs1 BLs2 BLs3]
  · rw [bigSep_fin4]; unfold FbackLo; iframe
  rw [wp_ret]; imodintro
  iapply Hk
  unfold bodyPost
  ihave HRb := (rback_intro m c) $$ [HXb HYb]
  · iframe # ∗
  ihave HP := (post_intro m c) $$ [HZb HsZr HRb HsHi HsLo HFh HFl HDd]
  · iframe # ∗
  icases HP with ⟨HΦ, Hout2⟩
  isplitl [HΦ]; · iexact HΦ
  isplitl [HO]
  · unfold Dat.owesAt Pipeline.owesWithin
    rw [show (dats m 0 c).owed t0_0.succ = 0 from rfl]
    iexists Ww31
    isplitr; · ipureintro; exact fun _ _ => Or.inl trivial
    ihave HO' := (Entails.of_eq (congrArg (fun O => (owes (c : Thread nD τ) O Ww31 : sProp 𝕄)) (Orem_end c))) $$ HO
    iexact HO'
  isplitl [Hx1]
  · iexists _; isplitr; · (ipureintro; rfl)
    ihave Hx2 := (Entails.of_eq (xPts_eq m c)) $$ Hx1
    iexact Hx2
  iexists _; isplitr; · (ipureintro; rfl)
  iexact Hout2

set_option maxRecDepth 4000 in
def bodyPre' (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

set_option maxRecDepth 65536 in
set_option maxHeartbeats 8000000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7 cc0_scratch8 cc0_scratch9 cc0_scratch10 cc0_scratch11) (fun _ => bodyPost m c)
  unfold bodyPre' Φ₀ start
  iintro ⟨⟨⟨⟨%K, Hg⟩, Hcr, Hlev⟩, Hzs, Hzr⟩, Ho, Hx, Hout⟩
  iapply (sound_body m K c fun _ => bodyPost m c)
  unfold bodyPre
  isplitr []
  · isplitl [Hg Hcr Hlev Hzs Hzr]
    · iframe # ∗
    isplitl [Ho]; · iexact Ho
    isplitl [Hx] <;> iassumption
  · iintro H; iexact H

end Cert.KernelIdeal.RS

end
-- ==== Proof.Launch.lean ====
import proofs.«901029_g7700000000001030_dist_rs_v7x_xyz2x2x2_z_m2048_n512_bf16_1_alg».proof.Proof.Alloc
import proofs.«901029_g7700000000001030_dist_rs_v7x_xyz2x2x2_z_m2048_n512_bf16_1_alg».proof.Proof.Levels
import proofs.«901029_g7700000000001030_dist_rs_v7x_xyz2x2x2_z_m2048_n512_bf16_1_alg».proof.Proof.Credit
import proofs.«901029_g7700000000001030_dist_rs_v7x_xyz2x2x2_z_m2048_n512_bf16_1_alg».proof.Proof.Tables
import proofs.«901029_g7700000000001030_dist_rs_v7x_xyz2x2x2_z_m2048_n512_bf16_1_alg».proof.Proof.BodyOb
import proofs.«901029_g7700000000001030_dist_rs_v7x_xyz2x2x2_z_m2048_n512_bf16_1_alg».proof.Proof.Gen.KernelIdeal.Frame
import proofs.«901029_g7700000000001030_dist_rs_v7x_xyz2x2x2_z_m2048_n512_bf16_1_alg».proof.Proof.Gen.KernelIdeal.Launch

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats (F := F) m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d : Dev nD => Orem d 0) c ∗ prngReg c (ρ c) ∗ G' m c)
      ⊢ |={Set.univ}=> iprop(start (F := F) m c ∗ emp) := by
  iintro ⟨-, Hlev, Hcr, -, HG⟩
  ihave Hc := (creds_of_launch (F := F) c) $$ Hcr
  imodintro
  unfold start G'
  isplitl
  · iframe # ∗
  · iempintro

theorem phi0_intro (c : Dev nD) :
    iprop(start m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold Φ₀
  iintro ⟨Hs, -, ⟨Hr0, Hr1⟩⟩
  iframe # ∗

theorem phi1_exit (c : Dev nD) :
    (dats (F := F) m 0 c).Φ (Fin.last cfg0.N) ⊢ iprop(emp ∗ Pipeline.ownSems0 osem c ∗ Pipeline.scopedRest cfg0.spec c) := by
  rw [show (dats (F := F) m 0 c).Φ (Fin.last cfg0.N) = Φ₁ m c from rfl, scopedRest0_eq, ownSems0_eq]
  unfold Φ₁
  iintro ⟨Hr0, Hr1, Hz⟩
  isplitr; · iempintro
  isplitl [Hz]; · iexact Hz
  isplitl [Hr0]
  · iexists (ZSv m c); iexact Hr0
  · iexists (ZRv m c); iexact Hr1

theorem stage_sem_lt (w : Fin cfg0.W) (s : Fin (cfg0.win w).nbuf) : ((cfg0.win w).sem s).val < 2 := by
  have hw : w = 0 ∨ w = 1 := by
    obtain ⟨w, hw⟩ := w
    have : w < 2 := hw
    rcases Nat.lt_succ_iff_lt_or_eq.mp this with h | h
    · left; exact Fin.ext (by show w = 0; omega)
    · right; exact Fin.ext (by show w = 1; omega)
  rcases hw with rfl | rfl
  · show (0 : ℕ) < 2; decide
  · show (1 : ℕ) < 2; decide

theorem owed_cases (c : Dev nD) (t : Fin (cfg0.N + 1)) :
    (dats (F := F) m 0 c).owed t = Orem c 0 ∨ (dats (F := F) m 0 c).owed t = 0 := by
  rcases t with ⟨_ | _, ht⟩
  · exact Or.inl rfl
  · exact Or.inr rfl

theorem waits (c : Dev nD) : (levAts L lv : sProp 𝕄) ⊢ Pipeline.cellsWaits cfgs (dats (F := F) m) () 0 c :=
  Pipeline.cellsWaits_intro cfgs (dats (F := F) m) () 0 c fun w s t =>
    mayWait_stage c _ (stage_sem_lt w s) _ (owed_cases m c t)

def finalA (c : Dev nD) (w : Fin cfg0.W) : Buf (Elt F) ((cfg0.win w).arr.view.loc (c : Thread nD τ)) := (dats (F := F) m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

-- The launch theorem over the per-device body proof: every fair run ends with each device's arrays at their named final contents.
set_option maxRecDepth 32768 in
theorem run_main : θ_run defs (onTc (τ := τ) (main (F := F))) (s₀ m ρ) (QC m) :=
  Pipeline.θ_run_region_owing_glob_pf (fun p => (cfgs p).toPCfg) (fun p => (cfgs p).toPCfg_adm) (dats (F := F) m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun c => Orem c 0) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA (F := F) m c (0 : Fin 2) = m ((c : Thread nD τ).loc main_arg0) :=
  (dats (F := F) m 0 c).arrAt_in (0 : Fin 2) rfl _

theorem read_out_blk (c : Dev nD) (G : Buf (Elt F) ((cfg0.win (1 : Fin 2)).arr.view.loc (c : Thread nD τ))) :
    ((cfg0.win (1 : Fin 2)).blk t0_0).view.read (Elt F) G = G :=
  Memref.read_access_unit_zero (Elt F) main_v1 (off := fun a => 0 * S2048x512.size a) (funext fun a => Nat.zero_mul _) _ G

section Out
attribute [local irreducible] OUTv

theorem after_out (c : Dev nD) : (dats (F := F) m 0 c).after (1 : Fin 2) t0_0 = OUTv m c := rfl

theorem flushed_out (c : Dev nD) : (dats (F := F) m 0 c).flushed (1 : Fin 2) t0_0 = OUTv m c := by
  show (cfg0.win (1 : Fin 2)).cut (cfg0.grid.coords t0_0) ((dats (F := F) m 0 c).after (1 : Fin 2) t0_0) = OUTv m c
  rw [after_out]
  funext j
  exact congrArg (OUTv m c) (funext fun a => Fin.ext rfl)

theorem finalA_out (c : Dev nD) : finalA (F := F) m c (1 : Fin 2) = OUTv m c := by
  unfold finalA
  show (dats (F := F) m 0 c).arrAt (1 : Fin 2) ((t0_0 : Fin cfg0.N).val + 1) = _
  rw [Dat.arrAt_succ, flush0_1, if_pos rfl]
  exact ((read_out_blk c _).symm.trans (View.read_write_univ _ _)).trans (flushed_out m c)

end Out

/-- info: 'Cert.KernelIdeal.RS.run_main' depends on axioms: [propext, Classical.choice, Quot.sound] -/
#guard_msgs in #print axioms run_main

end Cert.KernelIdeal.RS

end
-- ==== Proof.Bits.Geom.lean ====
import proofs.«901029_g7700000000001030_dist_rs_v7x_xyz2x2x2_z_m2048_n512_bf16_1_alg».proof.Proof.Gen.Kernel
import Idealize.ShloMosaic.Lib.Tactic

noncomputable section

namespace Cert.Kernel.RS

open Cert.Kernel Cert.Kernel.Gen
open Idealize.ShloMosaic Idealize.ShloMosaic.TcCoe Idealize.SL.Sem

theorem zp_lt : ∀ c : Dev nD, (4 * (c.val / 4) + 2 * ((c.val / 2) % 2) + 1) - (c.val % 2) < nD := by decide
def zp (c : Dev nD) : Dev nD := ⟨(4 * (c.val / 4) + 2 * ((c.val / 2) % 2) + 1) - (c.val % 2), zp_lt c⟩

theorem xp_lt : ∀ c : Dev nD, (2 * ((c.val / 2) % 2) + (c.val % 2) + 4) - 4 * (c.val / 4) < nD := by decide
def xp (c : Dev nD) : Dev nD := ⟨(2 * ((c.val / 2) % 2) + (c.val % 2) + 4) - 4 * (c.val / 4), xp_lt c⟩

theorem yp_lt : ∀ c : Dev nD, (4 * (c.val / 4) + (c.val % 2) + 2) - 2 * ((c.val / 2) % 2) < nD := by decide
def yp (c : Dev nD) : Dev nD := ⟨(4 * (c.val / 4) + (c.val % 2) + 2) - 2 * ((c.val / 2) % 2), yp_lt c⟩

theorem zp_zp (c : Dev nD) : zp (zp c) = c := by revert c; decide
theorem xp_xp (c : Dev nD) : xp (xp c) = c := by revert c; decide
theorem yp_yp (c : Dev nD) : yp (yp c) = c := by revert c; decide
theorem xp_yp (c : Dev nD) : xp (yp c) = yp (xp c) := by revert c; decide

def zpE : Dev nD ≃ Dev nD := ⟨zp, zp, zp_zp, zp_zp⟩
def xpE : Dev nD ≃ Dev nD := ⟨xp, xp, xp_xp, xp_xp⟩
def ypE : Dev nD ≃ Dev nD := ⟨yp, yp, yp_yp, yp_yp⟩

theorem z_xp (c : Dev nD) : (xp c).val % 2 = c.val % 2 := by revert c; decide
theorem z_yp (c : Dev nD) : (yp c).val % 2 = c.val % 2 := by revert c; decide
theorem z_zp (c : Dev nD) : (zp c).val % 2 = 1 - c.val % 2 := by revert c; decide

theorem dev1_eq (c : Dev nD) : (⟨k0_dev1 c, k0_dev1_lt c⟩ : Dev nD) = zp c := Fin.ext (k0_dev1_eq c)
theorem dev2_eq (c : Dev nD) : (⟨k0_dev2 c, k0_dev2_lt c⟩ : Dev nD) = xp c := Fin.ext (k0_dev2_eq c)
theorem dev3_eq (c : Dev nD) : (⟨k0_dev3 c, k0_dev3_lt c⟩ : Dev nD) = yp c := Fin.ext (k0_dev3_eq c)
theorem dev4_eq (c : Dev nD) : (⟨k0_dev4 c, k0_dev4_lt c⟩ : Dev nD) = zp c := Fin.ext (k0_dev4_eq c)
theorem dev5_eq (c : Dev nD) : (⟨k0_dev5 c, k0_dev5_lt c⟩ : Dev nD) = zp c := Fin.ext (k0_dev5_eq c)
theorem dev6_eq (c : Dev nD) : (⟨k0_dev6 c, k0_dev6_lt c⟩ : Dev nD) = zp c := Fin.ext (k0_dev6_eq c)
theorem dev7_eq (c : Dev nD) : (⟨k0_dev7 c, k0_dev7_lt c⟩ : Dev nD) = zp c := Fin.ext (k0_dev7_eq c)
theorem dev8_eq (c : Dev nD) : (⟨k0_dev8 c, k0_dev8_lt c⟩ : Dev nD) = zp c := Fin.ext (k0_dev8_eq c)
theorem dev9_eq (c : Dev nD) : (⟨k0_dev9 c, k0_dev9_lt c⟩ : Dev nD) = zp c := Fin.ext (k0_dev9_eq c)
theorem dev10_eq (c : Dev nD) : (⟨k0_dev10 c, k0_dev10_lt c⟩ : Dev nD) = zp c := Fin.ext (k0_dev10_eq c)
theorem dev11_eq (c : Dev nD) : (⟨k0_dev11 c, k0_dev11_lt c⟩ : Dev nD) = zp c := Fin.ext (k0_dev11_eq c)
theorem dev12_eq (c : Dev nD) : (⟨k0_dev12 c, k0_dev12_lt c⟩ : Dev nD) = xp c := Fin.ext (k0_dev12_eq c)
theorem dev13_eq (c : Dev nD) : (⟨k0_dev13 c, k0_dev13_lt c⟩ : Dev nD) = yp c := Fin.ext (k0_dev13_eq c)
theorem dev14_eq (c : Dev nD) : (⟨k0_dev14 c, k0_dev14_lt c⟩ : Dev nD) = xp c := Fin.ext (k0_dev14_eq c)
theorem dev15_eq (c : Dev nD) : (⟨k0_dev15 c, k0_dev15_lt c⟩ : Dev nD) = yp c := Fin.ext (k0_dev15_eq c)
theorem dev16_eq (c : Dev nD) : (⟨k0_dev16 c, k0_dev16_lt c⟩ : Dev nD) = xp c := Fin.ext (k0_dev16_eq c)
theorem dev17_eq (c : Dev nD) : (⟨k0_dev17 c, k0_dev17_lt c⟩ : Dev nD) = yp c := Fin.ext (k0_dev17_eq c)
theorem dev18_eq (c : Dev nD) : (⟨k0_dev18 c, k0_dev18_lt c⟩ : Dev nD) = xp c := Fin.ext (k0_dev18_eq c)
theorem dev19_eq (c : Dev nD) : (⟨k0_dev19 c, k0_dev19_lt c⟩ : Dev nD) = yp c := Fin.ext (k0_dev19_eq c)
theorem dev20_eq (c : Dev nD) : (⟨k0_dev20 c, k0_dev20_lt c⟩ : Dev nD) = xp c := Fin.ext (k0_dev20_eq c)
theorem dev21_eq (c : Dev nD) : (⟨k0_dev21 c, k0_dev21_lt c⟩ : Dev nD) = yp c := Fin.ext (k0_dev21_eq c)
theorem dev22_eq (c : Dev nD) : (⟨k0_dev22 c, k0_dev22_lt c⟩ : Dev nD) = xp c := Fin.ext (k0_dev22_eq c)
theorem dev23_eq (c : Dev nD) : (⟨k0_dev23 c, k0_dev23_lt c⟩ : Dev nD) = yp c := Fin.ext (k0_dev23_eq c)
theorem dev24_eq (c : Dev nD) : (⟨k0_dev24 c, k0_dev24_lt c⟩ : Dev nD) = xp c := Fin.ext (k0_dev24_eq c)
theorem dev25_eq (c : Dev nD) : (⟨k0_dev25 c, k0_dev25_lt c⟩ : Dev nD) = yp c := Fin.ext (k0_dev25_eq c)
theorem dev26_eq (c : Dev nD) : (⟨k0_dev26 c, k0_dev26_lt c⟩ : Dev nD) = xp c := Fin.ext (k0_dev26_eq c)
theorem dev27_eq (c : Dev nD) : (⟨k0_dev27 c, k0_dev27_lt c⟩ : Dev nD) = yp c := Fin.ext (k0_dev27_eq c)
theorem dev28_eq (c : Dev nD) : (⟨k0_dev28 c, k0_dev28_lt c⟩ : Dev nD) = yp c := Fin.ext (k0_dev28_eq c)
theorem dev29_eq (c : Dev nD) : (⟨k0_dev29 c, k0_dev29_lt c⟩ : Dev nD) = xp c := Fin.ext (k0_dev29_eq c)
theorem dev30_eq (c : Dev nD) : (⟨k0_dev30 c, k0_dev30_lt c⟩ : Dev nD) = yp c := Fin.ext (k0_dev30_eq c)
theorem dev31_eq (c : Dev nD) : (⟨k0_dev31 c, k0_dev31_lt c⟩ : Dev nD) = xp c := Fin.ext (k0_dev31_eq c)
theorem dev32_eq (c : Dev nD) : (⟨k0_dev32 c, k0_dev32_lt c⟩ : Dev nD) = yp c := Fin.ext (k0_dev32_eq c)
theorem dev33_eq (c : Dev nD) : (⟨k0_dev33 c, k0_dev33_lt c⟩ : Dev nD) = xp c := Fin.ext (k0_dev33_eq c)
theorem dev34_eq (c : Dev nD) : (⟨k0_dev34 c, k0_dev34_lt c⟩ : Dev nD) = yp c := Fin.ext (k0_dev34_eq c)
theorem dev35_eq (c : Dev nD) : (⟨k0_dev35 c, k0_dev35_lt c⟩ : Dev nD) = xp c := Fin.ext (k0_dev35_eq c)

def rme (c : Dev nD) : ℕ := 1024 * (c.val / 4) + 512 * ((c.val / 2) % 2)

theorem rme_zp (c : Dev nD) : rme (zp c) = rme c := by revert c; decide
theorem rme_lt (c : Dev nD) : rme c + 512 ≤ 2048 := by revert c; decide

def ooff (c : Dev nD) (k : Fin 8) : Fin 2 → ℕ := ![rme c + 64 * k.val, 0]

theorem ooff_inb (c : Dev nD) (k : Fin 8) : ∀ a, ooff c k a + S64x512.size a ≤ S2048x512.size a := by
  revert c k; decide

theorem off3_eq (c : Dev nD) (k : Fin 8) : k0_off3 c (BitVec.ofNat 32 (64 * k.val)) = ooff c k := k0_off3_eq c k
theorem off4_eq (c : Dev nD) (k : Fin 8) : k0_off4 c (BitVec.ofNat 32 (64 * k.val)) = ooff c k := k0_off4_eq c k

theorem off5_eq (c : Dev nD) (r : Fin 4) : k0_off5 c (BitVec.ofNat 32 (256 + 64 * r.val)) = ooff (xp c) ⟨r.val + 4, by omega⟩ := by
  rw [k0_off5_eq]; revert c r; decide

theorem off6_eq (c : Dev nD) (r : Fin 4) : k0_off6 c (BitVec.ofNat 32 (64 * r.val)) = ooff (yp c) ⟨r.val, by omega⟩ := by
  rw [k0_off6_eq]; revert c r; decide

def sendoff (c : Dev nD) (k : Fin 8) : Fin 3 → ℕ := ![0, rme c + 64 * k.val, 512 - 512 * (c.val % 2)]
def keepoff (c : Dev nD) (k : Fin 8) : Fin 3 → ℕ := ![0, rme c + 64 * k.val, 512 * (c.val % 2)]
theorem off1_eq (c : Dev nD) (k : Fin 8) : k0_off1 c (BitVec.ofNat 32 (64 * k.val)) = sendoff c k := k0_off1_eq c k
theorem off2_eq (c : Dev nD) (k : Fin 8) : k0_off2 c (BitVec.ofNat 32 (64 * k.val)) = keepoff c k := k0_off2_eq c k

def zoff (k : Fin 8) : Fin 2 → ℕ := ![64 * k.val, 0]
theorem zoff_inb (k : Fin 8) : ∀ a, zoff k a + S64x512.size a ≤ S512x512.size a := by revert k; decide

end Cert.Kernel.RS

end
-- ==== Proof.Bits.Proto.lean ====
import proofs.«901029_g7700000000001030_dist_rs_v7x_xyz2x2x2_z_m2048_n512_bf16_1_alg».proof.Proof.Bits.Geom
import proofs.«901029_g7700000000001030_dist_rs_v7x_xyz2x2x2_z_m2048_n512_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev 𝒱₀ : Variants := Variants.none

abbrev xM : Memref sig .tc .vmem S1x2048x1024 .f32 := Memref.whole cc0_stg0_0
abbrev oM : Memref sig .tc .vmem S2048x512 .bf16 := Memref.whole cc0_stg1_0
abbrev zsM : Memref sig .tc .vmem S512x512 .bf16 := Memref.whole cc0_scratch0
abbrev zrM : Memref sig .tc .vmem S512x512 .bf16 := Memref.whole cc0_scratch1

abbrev zrect (k : Fin 8) : Rect S512x512 := Rect.unit (s := S512x512) (zoff k) S64x512.size (zoff_inb k)

abbrev orect (d : Dev nD) (k : Fin 8) : Rect S2048x512 := Rect.unit (s := S2048x512) (ooff d k) S64x512.size (ooff_inb d k)

abbrev zsCh (k : Fin 8) : Memref sig .tc .vmem S64x512 .bf16 := zsM.slice (zrect k) (fun _ => rfl)
abbrev zrCh (k : Fin 8) : Memref sig .tc .vmem S64x512 .bf16 := zrM.slice (zrect k) (fun _ => rfl)
abbrev oCh (d : Dev nD) (k : Fin 8) : Memref sig .tc .vmem S64x512 .bf16 := oM.slice (orect d k) (fun _ => rfl)

abbrev N : ℕ := (zrCh 0).view.dmaCredit
theorem N_pos : 0 < N := View.dmaCredit_pos _ (by decide)

abbrev barS : Sem sig := (SemArray.scalar (sig.barrier 0 rfl) : Sems sig S_).sem

abbrev zss (k : Fin 8) : DmaSem sig := ⟨2 + k.val, by show 2 + k.val < 66; omega⟩
abbrev zrs (k : Fin 8) : DmaSem sig := ⟨10 + k.val, by show 10 + k.val < 66; omega⟩
abbrev xss (k : Fin 8) : DmaSem sig := ⟨18 + k.val, by show 18 + k.val < 66; omega⟩
abbrev xrs (k : Fin 8) : DmaSem sig := ⟨26 + k.val, by show 26 + k.val < 66; omega⟩
abbrev yss (k : Fin 8) : DmaSem sig := ⟨34 + k.val, by show 34 + k.val < 66; omega⟩
abbrev yrs (k : Fin 8) : DmaSem sig := ⟨42 + k.val, by show 42 + k.val < 66; omega⟩
abbrev fxs (r : Fin 4) : DmaSem sig := ⟨50 + r.val, by show 50 + r.val < 66; omega⟩
abbrev fxr (r : Fin 4) : DmaSem sig := ⟨54 + r.val, by show 54 + r.val < 66; omega⟩
abbrev fys (r : Fin 4) : DmaSem sig := ⟨58 + r.val, by show 58 + r.val < 66; omega⟩
abbrev fyr (r : Fin 4) : DmaSem sig := ⟨62 + r.val, by show 62 + r.val < 66; omega⟩

abbrev barCell (c : Dev nD) : GSem nD τ sig := ((c : Thread nD τ), .reg barS)
abbrev dcell (c : Dev nD) (q : DmaSem sig) : GSem nD τ sig := ((c : Thread nD τ), .dma q)

abbrev osem : Fin 64 → SemLoc sig := fun j => .dma ⟨2 + j.val, by show 2 + j.val < 66; omega⟩

abbrev csem : Fin 65 → SemLoc sig := fun j => if h : j.val = 0 then .reg barS else .dma ⟨1 + j.val, by show 1 + j.val < 66; omega⟩
abbrev kcell (ck : Dev nD × Fin 65) : GSem nD τ sig := ((ck.1 : Thread nD τ), csem ck.2)

def ord : List (Fin 8) := [4, 0, 5, 1, 6, 2, 7, 3]

def X (c : Dev nD) : (cc0_stg0_0 : Ref sig .tc).ty.Contents (Elt F) :=
  (win0_0.blk (0 : Fin 1)).view.read (Elt F) (m ((c : Thread nD τ).loc main_arg0))

def zpay (v : Vec F S1x64x512 .f32) : FVec F S64x512 .bf16 :=
  shapeCast S64x512 (truncf .bf16 (shapeCast S64x512 v shapeCasts_S1x64x512_S64x512) bitsLt_bf16_f32) shapeCasts_S64x512_S64x512

def rpay (v : Vec F S1x64x512 .f32) (w : Vec F S64x512 .bf16) : FVec F S64x512 .bf16 :=
  truncf .bf16 (addf (shapeCast S64x512 v shapeCasts_S1x64x512_S64x512) (extf .f32 w bitsLt_bf16_f32)) bitsLt_bf16_f32

abbrev sendRect (c : Dev nD) (k : Fin 8) : Rect S1x2048x1024 :=
  Rect.unit (s := S1x2048x1024) (k0_off1 c (BitVec.ofNat 32 (64 * k.val))) S1x64x512.size (k0_off1_inb c k)
abbrev keepRect (c : Dev nD) (k : Fin 8) : Rect S1x2048x1024 :=
  Rect.unit (s := S1x2048x1024) (k0_off2 c (BitVec.ofNat 32 (64 * k.val))) S1x64x512.size (k0_off2_inb c k)

def dflt (b : Ref sig .tc) : b.ty.Contents (Elt F) := fun _ => Classical.arbitrary _

def zchunkOf (i : S512x512.Idx) : Fin 8 := ⟨(i 0).val / 64, Nat.div_lt_of_lt_mul (i 0).isLt⟩

def ZSv (c : Dev nD) : (cc0_scratch0 : Ref sig .tc).ty.Contents (Elt F) := fun i =>
  (zsM.access (zrect (zchunkOf i))).write (Elt F) (dflt cc0_scratch0)
    (zpay (xM.view.readAt (Elt F) (sendRect c (zchunkOf i)).toLoadRect (X m c))) Finset.univ i

def ZRv (c : Dev nD) : (cc0_scratch1 : Ref sig .tc).ty.Contents (Elt F) := ZSv m (zp c)

def ownerOf (z : ℕ) (i : S2048x512.Idx) : Dev nD := ⟨(4 * ((i 0).val / 1024) + 2 * (((i 0).val / 512) % 2) + z % 2) % 8, Nat.mod_lt _ (by decide)⟩
def ochunkOf (i : S2048x512.Idx) : Fin 8 := ⟨((i 0).val % 512) / 64, by have := Nat.mod_lt (i 0).val (show 0 < 512 by decide); omega⟩

def Sv (d : Dev nD) (k : Fin 8) : (cc0_stg1_0 : Ref sig .tc).ty.Contents (Elt F) :=
  (oM.access (orect d k)).write (Elt F) (dflt cc0_stg1_0)
    (rpay (xM.view.readAt (Elt F) (keepRect d k).toLoadRect (X m d))
      (zrM.view.readAt (Elt F) (zrect k).toLoadRect (ZRv m d))) Finset.univ

def OUTv (c : Dev nD) : (cc0_stg1_0 : Ref sig .tc).ty.Contents (Elt F) := fun i =>
  Sv m (ownerOf c.val i) (ochunkOf i) i

def zsPts (c : Dev nD) (k : Fin 8) (f : (cc0_scratch0 : Ref sig .tc).ty.Contents (Elt F)) : sProp 𝕄 :=
  (zsCh k).view.loc (c : Thread nD τ) ↦[(zsCh k).view.set]{fullShare} f
def zrPts (c : Dev nD) (k : Fin 8) (f : (cc0_scratch1 : Ref sig .tc).ty.Contents (Elt F)) : sProp 𝕄 :=
  (zrCh k).view.loc (c : Thread nD τ) ↦[(zrCh k).view.set]{fullShare} f

def oPts (c d : Dev nD) (k : Fin 8) (q : PosShare TreeShare) (f : (cc0_stg1_0 : Ref sig .tc).ty.Contents (Elt F)) : sProp 𝕄 :=
  (oCh d k).view.loc (c : Thread nD τ) ↦[(oCh d k).view.set]{q} f

end Cert.Kernel.RS

end
-- ==== Proof.Bits.Sched.lean ====
import proofs.«901029_g7700000000001030_dist_rs_v7x_xyz2x2x2_z_m2048_n512_bf16_1_alg».proof.Proof.Bits.Proto

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def payDma (c : Dev nD) (q : DmaSem sig) : sProp 𝕄 :=
  if h2 : q.val < 2 then iprop(emp)
  else if h : q.val < 10 then zsPts c ⟨q.val - 2, by omega⟩ (ZSv m c)
  else if h : q.val < 18 then zrPts c ⟨q.val - 10, by omega⟩ (ZRv m c)
  else if h : q.val < 26 then oPts c c ⟨q.val - 18, by omega⟩ fullShare.left (OUTv m c)
  else if h : q.val < 34 then oPts c (xp c) ⟨q.val - 26, by omega⟩ fullShare (OUTv m c)
  else if h : q.val < 42 then oPts c c ⟨q.val - 34, by omega⟩ fullShare.right (OUTv m c)
  else if h : q.val < 50 then oPts c (yp c) ⟨q.val - 42, by omega⟩ fullShare (OUTv m c)
  else if h : q.val < 54 then oPts c (yp c) ⟨q.val - 50, by omega⟩ fullShare (OUTv m c)
  else if h : q.val < 58 then oPts c (xp (yp c)) ⟨q.val - 54, by omega⟩ fullShare (OUTv m c)
  else if h : q.val < 62 then oPts c (xp c) ⟨q.val - 58 + 4, by omega⟩ fullShare (OUTv m c)
  else oPts c (xp (yp c)) ⟨q.val - 62 + 4, by have := q.isLt; (have : sig.nDmaSem = 66 := rfl); omega⟩ fullShare (OUTv m c)

def barPay (c : Dev nD) (d : Fin 3) : sProp 𝕄 :=
  if d = 0 then iprop(∃ f, bigSep Finset.univ fun k : Fin 8 => zrPts (zp c) k f)
  else if d = 1 then
    iprop(∃ f, (bigSep Finset.univ fun k : Fin 8 => oPts (xp c) c k fullShare f)
      ∗ (bigSep Finset.univ fun r : Fin 4 => oPts (xp c) (yp c) ⟨r.val, by omega⟩ fullShare f))
  else
    iprop(∃ f, (bigSep Finset.univ fun k : Fin 8 => oPts (yp c) c k fullShare f)
      ∗ (bigSep Finset.univ fun r : Fin 4 => oPts (yp c) (xp c) ⟨r.val + 4, by omega⟩ fullShare f))

def Rd : Rounds.Schedule (GSem nD τ sig) (Fin 3) 𝕄 where
  duties g r :=
    if r = 0 ∧ g.1.2 = .tc then
      (match g.2 with
        | .reg s => if s = barS then Finset.univ else ∅
        | .dma q => if 2 ≤ q.val then {0} else ∅)
    else ∅
  unitless _ := False
  amount g _ _ := match g.2 with
    | .reg _ => 1
    | .dma _ => N
  payload g _ d := match g.2 with
    | .reg _ => barPay g.1.1 d
    | .dma q => payDma m g.1.1 q
  amount_pos g _ _ _ := by
    cases g.2 with
    | reg _ => exact Nat.one_pos
    | dma _ => exact N_pos

def obl (c : Dev nD) : List (GSem nD τ sig × ℕ) :=
  [(barCell (zp c), 1), (barCell (xp c), 1), (barCell (yp c), 1)]
  ++ ord.map (fun k => (dcell (zp c) (zrs k), N))
  ++ ord.flatMap (fun k => [(dcell (xp c) (xrs k), N), (dcell (yp c) (yrs k), N)])
  ++ [(dcell (yp c) (fyr 0), N), (dcell (xp c) (fxr 0), N), (dcell (yp c) (fyr 1), N), (dcell (xp c) (fxr 1), N),
      (dcell (yp c) (fyr 2), N), (dcell (xp c) (fxr 2), N), (dcell (yp c) (fyr 3), N), (dcell (xp c) (fxr 3), N)]

def Orem (c : Dev nD) (n : ℕ) : CellTallies nD τ sig Unit :=
  (((obl c).drop n).map fun p => tallyAt p.1 () p.2).sum

def L (g : GSem nD τ sig) : Finset Unit := if g.1.2 = .tc then {()} else ∅

def lv (g : GSem nD τ sig) (_ : Unit) : ℕ :=
  match g.2 with
  | .reg _ => 1
  | .dma q =>
    if 10 ≤ q.val ∧ q.val < 18 then 2
    else if (26 ≤ q.val ∧ q.val < 34) ∨ (42 ≤ q.val ∧ q.val < 50) then 3
    else if (54 ≤ q.val ∧ q.val < 58) ∨ 62 ≤ q.val then 4
    else 0

def records (K : Dev nD × Fin 65 → ℕ) : sProp 𝕄 :=
  iprop((bigSep Finset.univ fun ck : Dev nD × Fin 65 => cellInv ER (Rd m) (K ck) (kcell ck))
    ∗ bigSep Finset.univ fun ck : Dev nD × Fin 65 => reached ER (kcell ck) 0)

instance records_pers (K : Dev nD × Fin 65 → ℕ) : BI.Persistent (records m K) := by unfold records; infer_instance

def payToks (c : Dev nD) : sProp 𝕄 :=
  iprop(dutyTok ER (barCell (zp c)) 0 0 ∗ dutyTok ER (barCell (xp c)) 0 1 ∗ dutyTok ER (barCell (yp c)) 0 2
    ∗ (bigSep Finset.univ fun k : Fin 8 => iprop(dutyTok ER (dcell c (zss k)) 0 0 ∗ dutyTok ER (dcell (zp c) (zrs k)) 0 0))
    ∗ (bigSep Finset.univ fun k : Fin 8 => iprop(dutyTok ER (dcell c (xss k)) 0 0 ∗ dutyTok ER (dcell (xp c) (xrs k)) 0 0))
    ∗ (bigSep Finset.univ fun k : Fin 8 => iprop(dutyTok ER (dcell c (yss k)) 0 0 ∗ dutyTok ER (dcell (yp c) (yrs k)) 0 0))
    ∗ (bigSep Finset.univ fun r : Fin 4 => iprop(dutyTok ER (dcell c (fxs r)) 0 0 ∗ dutyTok ER (dcell (xp c) (fxr r)) 0 0))
    ∗ (bigSep Finset.univ fun r : Fin 4 => iprop(dutyTok ER (dcell c (fys r)) 0 0 ∗ dutyTok ER (dcell (yp c) (fyr r)) 0 0)))

def positions (c : Dev nD) : sProp 𝕄 := bigSep Finset.univ fun j : Fin 65 => atPos ER (kcell (c, j)) 0 ∅ 0

def ghost (K : Dev nD × Fin 65 → ℕ) (c : Dev nD) : sProp 𝕄 := iprop(records m K ∗ positions c ∗ payToks c)

def creds (c : Dev nD) : sProp 𝕄 :=
  iprop(cred (tallyAt (barCell c) () 3)
    ∗ (bigSep Finset.univ fun k : Fin 8 => cred (tallyAt (dcell c (zrs k)) () N))
    ∗ (bigSep Finset.univ fun k : Fin 8 => cred (tallyAt (dcell c (xrs k)) () N))
    ∗ (bigSep Finset.univ fun k : Fin 8 => cred (tallyAt (dcell c (yrs k)) () N))
    ∗ (bigSep Finset.univ fun r : Fin 4 => cred (tallyAt (dcell c (fxr r)) () N))
    ∗ (bigSep Finset.univ fun r : Fin 4 => cred (tallyAt (dcell c (fyr r)) () N)))

def start (c : Dev nD) : sProp 𝕄 := iprop((∃ K, ghost m K c) ∗ creds c ∗ levAts L lv)

def Φ₀ (c : Dev nD) : sProp 𝕄 :=
  iprop(start m c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₁ (c : Dev nD) : sProp 𝕄 :=
  iprop((((c : Thread nD τ).loc cc0_scratch0) ↦{fullShare} ZSv m c) ∗ (((c : Thread nD τ).loc cc0_scratch1) ↦{fullShare} ZRv m c)
    ∗ bigSep Finset.univ fun j : Fin 64 => semVal ((c : Thread nD τ), osem j) 0)

def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => OUTv m c
  Φ t := match t with
    | ⟨0, _⟩ => Φ₀ m c
    | ⟨_ + 1, _⟩ => Φ₁ m c
  q _ := fullShare
  owed t := match t with
    | ⟨0, _⟩ => Orem c 0
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.Kernel.RS

end
-- ==== Proof.Bits.Tables.lean ====
import proofs.«901029_g7700000000001030_dist_rs_v7x_xyz2x2x2_z_m2048_n512_bf16_1_alg».proof.Proof.Bits.Sched

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
private theorem bigSep_fin3 (Φ : Fin 3 → sProp 𝕄) : bigSep Finset.univ Φ = iprop(Φ 0 ∗ Φ 1 ∗ Φ 2) :=
  bigSep_univ_eq_bigSepL [0, 1, 2] (by decide) (by decide) Φ

theorem duties_bar (c : Dev nD) : (Rd (F := F) m).duties (barCell c) 0 = Finset.univ := by
  dsimp only [Rd]; rw [if_pos ⟨rfl, rfl⟩]; exact if_pos rfl
theorem duties_dma (c : Dev nD) (q : DmaSem sig) (hq : 2 ≤ q.val) : (Rd (F := F) m).duties (dcell c q) 0 = {0} := by
  dsimp only [Rd]; rw [if_pos ⟨rfl, rfl⟩]; exact if_pos hq
theorem duties_later (g : GSem nD τ sig) : ∀ r, 1 ≤ r → (Rd (F := F) m).duties g r = ∅ :=
  fun r hr => by dsimp only [Rd]; exact if_neg fun h => by omega

theorem amount_bar (c : Dev nD) (d : Fin 3) : (Rd (F := F) m).amount (barCell c) 0 d = 1 := rfl
theorem amount_dma (c : Dev nD) (q : DmaSem sig) (d : Fin 3) : (Rd (F := F) m).amount (dcell c q) 0 d = N := rfl

theorem expect_bar (c : Dev nD) : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_dma (c : Dev nD) (q : DmaSem sig) (hq : 2 ≤ q.val) : (Rd (F := F) m).expect (dcell c q) 0 = N := by
  unfold Schedule.expect Schedule.amountOf; rw [duties_dma m c q hq, Finset.sum_singleton, amount_dma]

theorem payload_bar (c : Dev nD) (d : Fin 3) : (Rd (F := F) m).payload (barCell c) 0 d = barPay c d := rfl
theorem payload_dma (c : Dev nD) (q : DmaSem sig) (d : Fin 3) : (Rd (F := F) m).payload (dcell c q) 0 d = payDma m c q := rfl

theorem rest_bar (c : Dev nD) : bigSep ((Rd (F := F) m).duties (barCell c) 0 \ ∅) (fun d => (Rd (F := F) m).payload (barCell c) 0 d) = iprop(barPay (F := F) c 0 ∗ barPay c 1 ∗ barPay c 2) := by
  rw [Finset.sdiff_empty, duties_bar, bigSep_fin3]
  rfl

theorem rest_dma (c : Dev nD) (q : DmaSem sig) (hq : 2 ≤ q.val) : bigSep ((Rd (F := F) m).duties (dcell c q) 0 \ ∅) (fun d => (Rd (F := F) m).payload (dcell c q) 0 d) = payDma m c q := by
  rw [Finset.sdiff_empty, duties_dma m c q hq, bigSep_singleton, payload_dma]

theorem payDma_zss (c : Dev nD) (k : Fin 8) : payDma m c (zss k) = zsPts c k (ZSv m c) := by
  unfold payDma
  rw [dif_neg (show ¬ 2 + k.val < 2 by omega), dif_pos (show 2 + k.val < 10 by omega)]
  exact congrArg (fun k' => zsPts c k' (ZSv m c)) (Fin.ext (show 2 + k.val - 2 = k.val by omega))
theorem payDma_zrs (c : Dev nD) (k : Fin 8) : payDma m c (zrs k) = zrPts c k (ZRv m c) := by
  unfold payDma
  rw [dif_neg (show ¬ 10 + k.val < 2 by omega), dif_neg (show ¬ 10 + k.val < 10 by omega), dif_pos (show 10 + k.val < 18 by omega)]
  exact congrArg (fun k' => zrPts c k' (ZRv m c)) (Fin.ext (show 10 + k.val - 10 = k.val by omega))
theorem payDma_xss (c : Dev nD) (k : Fin 8) : payDma m c (xss k) = oPts c c k fullShare.left (OUTv m c) := by
  unfold payDma
  rw [dif_neg (show ¬ 18 + k.val < 2 by omega), dif_neg (show ¬ 18 + k.val < 10 by omega), dif_neg (show ¬ 18 + k.val < 18 by omega),
    dif_pos (show 18 + k.val < 26 by omega)]
  exact congrArg (fun k' => oPts c c k' fullShare.left (OUTv m c)) (Fin.ext (show 18 + k.val - 18 = k.val by omega))
theorem payDma_xrs (c : Dev nD) (k : Fin 8) : payDma m c (xrs k) = oPts c (xp c) k fullShare (OUTv m c) := by
  unfold payDma
  rw [dif_neg (show ¬ 26 + k.val < 2 by omega), dif_neg (show ¬ 26 + k.val < 10 by omega), dif_neg (show ¬ 26 + k.val < 18 by omega),
    dif_neg (show ¬ 26 + k.val < 26 by omega), dif_pos (show 26 + k.val < 34 by omega)]
  exact congrArg (fun k' => oPts c (xp c) k' fullShare (OUTv m c)) (Fin.ext (show 26 + k.val - 26 = k.val by omega))
theorem payDma_yss (c : Dev nD) (k : Fin 8) : payDma m c (yss k) = oPts c c k fullShare.right (OUTv m c) := by
  unfold payDma
  rw [dif_neg (show ¬ 34 + k.val < 2 by omega), dif_neg (show ¬ 34 + k.val < 10 by omega), dif_neg (show ¬ 34 + k.val < 18 by omega),
    dif_neg (show ¬ 34 + k.val < 26 by omega), dif_neg (show ¬ 34 + k.val < 34 by omega), dif_pos (show 34 + k.val < 42 by omega)]
  exact congrArg (fun k' => oPts c c k' fullShare.right (OUTv m c)) (Fin.ext (show 34 + k.val - 34 = k.val by omega))
theorem payDma_yrs (c : Dev nD) (k : Fin 8) : payDma m c (yrs k) = oPts c (yp c) k fullShare (OUTv m c) := by
  unfold payDma
  rw [dif_neg (show ¬ 42 + k.val < 2 by omega), dif_neg (show ¬ 42 + k.val < 10 by omega), dif_neg (show ¬ 42 + k.val < 18 by omega),
    dif_neg (show ¬ 42 + k.val < 26 by omega), dif_neg (show ¬ 42 + k.val < 34 by omega), dif_neg (show ¬ 42 + k.val < 42 by omega),
    dif_pos (show 42 + k.val < 50 by omega)]
  exact congrArg (fun k' => oPts c (yp c) k' fullShare (OUTv m c)) (Fin.ext (show 42 + k.val - 42 = k.val by omega))
theorem payDma_fxs (c : Dev nD) (r : Fin 4) : payDma m c (fxs r) = oPts c (yp c) ⟨r.val, by omega⟩ fullShare (OUTv m c) := by
  unfold payDma
  rw [dif_neg (show ¬ 50 + r.val < 2 by omega), dif_neg (show ¬ 50 + r.val < 10 by omega), dif_neg (show ¬ 50 + r.val < 18 by omega),
    dif_neg (show ¬ 50 + r.val < 26 by omega), dif_neg (show ¬ 50 + r.val < 34 by omega), dif_neg (show ¬ 50 + r.val < 42 by omega),
    dif_neg (show ¬ 50 + r.val < 50 by omega), dif_pos (show 50 + r.val < 54 by omega)]
  exact congrArg (fun k' => oPts c (yp c) k' fullShare (OUTv m c)) (Fin.ext (show 50 + r.val - 50 = r.val by omega))
theorem payDma_fxr (c : Dev nD) (r : Fin 4) : payDma m c (fxr r) = oPts c (xp (yp c)) ⟨r.val, by omega⟩ fullShare (OUTv m c) := by
  unfold payDma
  rw [dif_neg (show ¬ 54 + r.val < 2 by omega), dif_neg (show ¬ 54 + r.val < 10 by omega), dif_neg (show ¬ 54 + r.val < 18 by omega),
    dif_neg (show ¬ 54 + r.val < 26 by omega), dif_neg (show ¬ 54 + r.val < 34 by omega), dif_neg (show ¬ 54 + r.val < 42 by omega),
    dif_neg (show ¬ 54 + r.val < 50 by omega), dif_neg (show ¬ 54 + r.val < 54 by omega), dif_pos (show 54 + r.val < 58 by omega)]
  exact congrArg (fun k' => oPts c (xp (yp c)) k' fullShare (OUTv m c)) (Fin.ext (show 54 + r.val - 54 = r.val by omega))
theorem payDma_fys (c : Dev nD) (r : Fin 4) : payDma m c (fys r) = oPts c (xp c) ⟨r.val + 4, by omega⟩ fullShare (OUTv m c) := by
  unfold payDma
  rw [dif_neg (show ¬ 58 + r.val < 2 by omega), dif_neg (show ¬ 58 + r.val < 10 by omega), dif_neg (show ¬ 58 + r.val < 18 by omega),
    dif_neg (show ¬ 58 + r.val < 26 by omega), dif_neg (show ¬ 58 + r.val < 34 by omega), dif_neg (show ¬ 58 + r.val < 42 by omega),
    dif_neg (show ¬ 58 + r.val < 50 by omega), dif_neg (show ¬ 58 + r.val < 54 by omega), dif_neg (show ¬ 58 + r.val < 58 by omega),
    dif_pos (show 58 + r.val < 62 by omega)]
  exact congrArg (fun k' => oPts c (xp c) k' fullShare (OUTv m c)) (Fin.ext (show 58 + r.val - 58 + 4 = r.val + 4 by omega))
theorem payDma_fyr (c : Dev nD) (r : Fin 4) : payDma m c (fyr r) = oPts c (xp (yp c)) ⟨r.val + 4, by omega⟩ fullShare (OUTv m c) := by
  unfold payDma
  rw [dif_neg (show ¬ 62 + r.val < 2 by omega), dif_neg (show ¬ 62 + r.val < 10 by omega), dif_neg (show ¬ 62 + r.val < 18 by omega),
    dif_neg (show ¬ 62 + r.val < 26 by omega), dif_neg (show ¬ 62 + r.val < 34 by omega), dif_neg (show ¬ 62 + r.val < 42 by omega),
    dif_neg (show ¬ 62 + r.val < 50 by omega), dif_neg (show ¬ 62 + r.val < 54 by omega), dif_neg (show ¬ 62 + r.val < 58 by omega),
    dif_neg (show ¬ 62 + r.val < 62 by omega)]
  exact congrArg (fun k' => oPts c (xp (yp c)) k' fullShare (OUTv m c)) (Fin.ext (show 62 + r.val - 62 + 4 = r.val + 4 by omega))

instance Rd_payload_storable (g : GSem nD τ sig) (r : ℕ) (d : Fin 3) : BI.Storable (upEmb : UEmb _ 𝕄) ((Rd (F := F) m).payload g r d) := by
  obtain ⟨t, s⟩ := g
  cases s with
  | reg s =>
    show BI.Storable upEmb (barPay t.1 d)
    unfold barPay zrPts oPts
    (repeat' split) <;> infer_instance
  | dma q =>
    show BI.Storable upEmb (payDma m t.1 q)
    unfold payDma zsPts zrPts oPts
    (repeat' split) <;> infer_instance

end Cert.Kernel.RS

end
-- ==== Proof.Bits.Alloc.lean ====
import proofs.«901029_g7700000000001030_dist_rs_v7x_xyz2x2x2_z_m2048_n512_bf16_1_alg».proof.Proof.Bits.Sched
import proofs.«901029_g7700000000001030_dist_rs_v7x_xyz2x2x2_z_m2048_n512_bf16_1_alg».proof.Proof.Bits.Tables
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem csem_succ (j : Fin 64) : csem j.succ = osem j := by
  dsimp only [csem]
  rw [dif_neg (by rw [Fin.val_succ]; exact Nat.succ_ne_zero _)]
  exact congrArg SemLoc.dma (Fin.ext (by show 1 + j.succ.val = 2 + j.val; rw [Fin.val_succ]; omega))

theorem csem_injective : Function.Injective (csem : Fin 65 → SemLoc sig) := by
  intro j j' h
  by_cases h0 : j.val = 0 <;> by_cases h0' : j'.val = 0
  · exact Fin.ext (h0.trans h0'.symm)
  · exfalso; dsimp only [csem] at h; rw [dif_pos h0, dif_neg h0'] at h; cases h
  · exfalso; dsimp only [csem] at h; rw [dif_neg h0, dif_pos h0'] at h; cases h
  · dsimp only [csem] at h; rw [dif_neg h0, dif_neg h0'] at h
    have h3 : 1 + j.val = 1 + j'.val := congrArg Fin.val (SemLoc.dma.inj h)
    exact Fin.ext (by omega)

theorem kcell_injective : Function.Injective (kcell : Dev nD × Fin 65 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

abbrev tokOf (cj : Dev nD × (Fin 3 ⊕ Fin 64)) : GSem nD τ sig × ℕ × Fin 3 := match cj.2 with
  | .inl d => (barCell cj.1, 0, d)
  | .inr j => (((cj.1 : Thread nD τ), osem j), 0, 0)

theorem tokOf_injective : Function.Injective (tokOf : Dev nD × (Fin 3 ⊕ Fin 64) → GSem nD τ sig × ℕ × Fin 3) := by
  rintro ⟨c, j⟩ ⟨c', j'⟩ h
  have h1 : c = c' := by
    have := congrArg (fun x : GSem nD τ sig × ℕ × Fin 3 => x.1.1.1) h
    rcases j with d | j <;> rcases j' with d' | j' <;> exact this
  subst h1
  rcases j with d | j <;> rcases j' with d' | j'
  · have : d = d' := congrArg (fun x : GSem nD τ sig × ℕ × Fin 3 => x.2.2) h
    rw [this]
  · exact absurd (congrArg (fun x : GSem nD τ sig × ℕ × Fin 3 => x.1.2) h) (fun h' => by cases h')
  · exact absurd (congrArg (fun x : GSem nD τ sig × ℕ × Fin 3 => x.1.2) h) (fun h' => by cases h')
  · have h2 : osem j = osem j' := congrArg (fun x : GSem nD τ sig × ℕ × Fin 3 => x.1.2) h
    have h3 : 2 + j.val = 2 + j'.val := congrArg Fin.val (SemLoc.dma.inj h2)
    have : j = j' := Fin.ext (by omega)
    rw [this]

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun d : Fin 3 => dutyTok ER (barCell c) 0 d)
    ∗ bigSep Finset.univ fun j : Fin 64 => dutyTok ER ((c : Thread nD τ), osem j) 0 0)

def G (c : Dev nD) : sProp 𝕄 :=
  iprop((bigSep Finset.univ fun j : Fin 65 => roundState ER (Rd m) (kcell (c, j)) 0)
    ∗ (bigSep Finset.univ fun j : Fin 65 => iprop(atPos ER (kcell (c, j)) 0 ∅ 0 ∗ reached ER (kcell (c, j)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 65 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU (u₀ : UU) : sProp 𝕄) ⊢ |={Set.univ}=> iprop(BI.own (EP (initOf (Pipeline.cells cfgs cellOf_inj) (Pipeline.launchToks cfgs cellOf_inj))) ∗ bigSep Finset.univ (G (F := F) m)) := by
  unfold u₀
  iintro Hu
  ihave H := (ownU_pair _ _) $$ Hu
  icases H with ⟨HP, HX⟩
  imod (fund_ring m) $$ HX with HG
  imodintro
  isplitl [HP] <;> iassumption

theorem ownSemFacts : Pipeline.OwnSemFacts cfg0.spec osem := by
  decide

theorem ownSems0_eq (c : Dev nD) : (Pipeline.ownSems0 (Ix := Unit) (Name := ℕ) (U := UU) (Lvl := ℕ) (Val := Elt F) (τ := τ) osem c : sProp 𝕄)
    = bigSep Finset.univ fun j : Fin 64 => semVal ((c : Thread nD τ), osem j) 0 := rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_fin65 (Φ : Fin 65 → sProp 𝕄) : bigSep Finset.univ Φ = iprop(Φ 0 ∗ bigSep Finset.univ fun j : Fin 64 => Φ j.succ) := by
  rw [Fin.univ_succ, Finset.cons_eq_insert, bigSep_insert (by simp [Fin.succ_ne_zero]), bigSep_map]
  rfl

theorem kcell_succ (c : Dev nD) (j : Fin 64) : kcell (c, j.succ) = ((c : Thread nD τ), osem j) :=
  congrArg (Prod.mk (c : Thread nD τ)) (csem_succ j)

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  have e : (bigSep Finset.univ fun j : Fin 64 => (semVal (kcell (c, j.succ)) 0 : sProp 𝕄))
      = bigSep Finset.univ fun j : Fin 64 => semVal ((c : Thread nD τ), osem j) 0 :=
    bigSep_congr fun j _ => by rw [kcell_succ]
  rw [ownSems0_eq, unscopedSems0_eq, bigSep_fin65, e]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 65 => iprop(∃ κ : ℕ, cellInv ER (Rd m) κ (kcell (c, k))))
          ∗ (bigSep Finset.univ fun k : Fin 65 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 65 => semVal (kcell (c, k)) 0) ∗ bigSep Finset.univ fun k : Fin 65 => roundState ER (Rd m) (kcell (c, k)) 0)
      ⊢ (|={Set.univ}=> bigSep Finset.univ fun k : Fin 65 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 65 → ℕ) (c : Dev nD) : iprop(records m K ∗ positions c ∗ payToks c) ⊢ G' m c := by
  unfold G' ghost
  iintro H
  iexists K
  iexact H

theorem bigSep_three (Φ : Fin 3 → sProp 𝕄) : bigSep Finset.univ Φ = iprop(Φ 0 ∗ Φ 1 ∗ Φ 2) :=
  bigSep_univ_eq_bigSepL [0, 1, 2] (by decide) (by decide) Φ

theorem bigSep_fin_add (a b : ℕ) (Φ : Fin (a + b) → sProp 𝕄) :
    bigSep Finset.univ Φ = iprop((bigSep Finset.univ fun i : Fin a => Φ (Fin.castAdd b i)) ∗ bigSep Finset.univ fun j : Fin b => Φ (Fin.natAdd a j)) := by
  rw [bigSep_univ_equiv finSumFinEquiv Φ, bigSep_univ_sum]
  rfl

theorem sep_congr {P P' Q Q' : sProp 𝕄} (h : P = P') (h' : Q = Q') : iprop(P ∗ Q) = iprop(P' ∗ Q') := by rw [h, h']

theorem dma_groups (Ψ : DmaSem sig → sProp 𝕄) :
    (bigSep Finset.univ fun j : Fin 64 => Ψ ⟨2 + j.val, by show 2 + j.val < 66; omega⟩)
      = iprop(((bigSep Finset.univ fun k : Fin 8 => Ψ (zss k)) ∗ (bigSep Finset.univ fun k : Fin 8 => Ψ (zrs k))
          ∗ (bigSep Finset.univ fun k : Fin 8 => Ψ (xss k)) ∗ (bigSep Finset.univ fun k : Fin 8 => Ψ (xrs k))
          ∗ (bigSep Finset.univ fun k : Fin 8 => Ψ (yss k)) ∗ (bigSep Finset.univ fun k : Fin 8 => Ψ (yrs k)))
        ∗ ((bigSep Finset.univ fun r : Fin 4 => Ψ (fxs r)) ∗ (bigSep Finset.univ fun r : Fin 4 => Ψ (fxr r))
          ∗ (bigSep Finset.univ fun r : Fin 4 => Ψ (fys r)) ∗ (bigSep Finset.univ fun r : Fin 4 => Ψ (fyr r)))) := by
  rw [bigSep_fin_add 48 16, bigSep_fin_add 4 12, bigSep_fin_add 4 8, bigSep_fin_add 4 4,
    bigSep_fin_add 8 40, bigSep_fin_add 8 32, bigSep_fin_add 8 24, bigSep_fin_add 8 16, bigSep_fin_add 8 8]
  refine sep_congr (sep_congr ?_ (sep_congr ?_ (sep_congr ?_ (sep_congr ?_ (sep_congr ?_ ?_))))) (sep_congr ?_ (sep_congr ?_ (sep_congr ?_ ?_))) <;>
    exact bigSep_congr fun k _ => congrArg Ψ (Fin.ext (by simp only [Fin.coe_castAdd, Fin.coe_natAdd] <;> omega))

def toksS (c : Dev nD) : sProp 𝕄 :=
  iprop((dutyTok ER (barCell c) 0 0 ∗ dutyTok ER (barCell c) 0 1 ∗ dutyTok ER (barCell c) 0 2)
    ∗ ((bigSep Finset.univ fun k : Fin 8 => dutyTok ER (dcell c (zss k)) 0 0) ∗ (bigSep Finset.univ fun k : Fin 8 => dutyTok ER (dcell c (zrs k)) 0 0)
      ∗ (bigSep Finset.univ fun k : Fin 8 => dutyTok ER (dcell c (xss k)) 0 0) ∗ (bigSep Finset.univ fun k : Fin 8 => dutyTok ER (dcell c (xrs k)) 0 0)
      ∗ (bigSep Finset.univ fun k : Fin 8 => dutyTok ER (dcell c (yss k)) 0 0) ∗ (bigSep Finset.univ fun k : Fin 8 => dutyTok ER (dcell c (yrs k)) 0 0))
    ∗ ((bigSep Finset.univ fun r : Fin 4 => dutyTok ER (dcell c (fxs r)) 0 0) ∗ (bigSep Finset.univ fun r : Fin 4 => dutyTok ER (dcell c (fxr r)) 0 0)
      ∗ (bigSep Finset.univ fun r : Fin 4 => dutyTok ER (dcell c (fys r)) 0 0) ∗ (bigSep Finset.univ fun r : Fin 4 => dutyTok ER (dcell c (fyr r)) 0 0)))

theorem toks_eq (c : Dev nD) : (toks c : sProp 𝕄) = toksS c := by
  unfold toks toksS
  rw [bigSep_three]
  exact congrArg (fun X : sProp 𝕄 => iprop((dutyTok ER (barCell c) 0 0 ∗ dutyTok ER (barCell c) 0 1 ∗ dutyTok ER (barCell c) 0 2) ∗ X))
    (dma_groups (fun q => (dutyTok ER (dcell c q) 0 0 : sProp 𝕄)))

theorem around (e : Dev nD ≃ Dev nD) (Φ : Dev nD → sProp 𝕄) : bigSep Finset.univ Φ ⊢ bigSep Finset.univ fun c => Φ (e c) :=
  Entails.of_eq (bigSep_univ_equiv e Φ)

theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold toksS payToks
  simp only [bigSep_sep']
  iintro ⟨⟨B0, B1, B2⟩, ⟨ZS, ZR, XS, XR, YS, YR⟩, FXS, FXR, FYS, FYR⟩
  ihave B0' := (around zpE fun c : Dev nD => (dutyTok ER (barCell c) 0 0 : sProp 𝕄)) $$ B0
  ihave B1' := (around xpE fun c : Dev nD => (dutyTok ER (barCell c) 0 1 : sProp 𝕄)) $$ B1
  ihave B2' := (around ypE fun c : Dev nD => (dutyTok ER (barCell c) 0 2 : sProp 𝕄)) $$ B2
  ihave ZR' := (around zpE fun c : Dev nD => (bigSep Finset.univ fun k : Fin 8 => dutyTok ER (dcell c (zrs k)) 0 0 : sProp 𝕄)) $$ ZR
  ihave XR' := (around xpE fun c : Dev nD => (bigSep Finset.univ fun k : Fin 8 => dutyTok ER (dcell c (xrs k)) 0 0 : sProp 𝕄)) $$ XR
  ihave YR' := (around ypE fun c : Dev nD => (bigSep Finset.univ fun k : Fin 8 => dutyTok ER (dcell c (yrs k)) 0 0 : sProp 𝕄)) $$ YR
  ihave FXR' := (around xpE fun c : Dev nD => (bigSep Finset.univ fun r : Fin 4 => dutyTok ER (dcell c (fxr r)) 0 0 : sProp 𝕄)) $$ FXR
  ihave FYR' := (around ypE fun c : Dev nD => (bigSep Finset.univ fun r : Fin 4 => dutyTok ER (dcell c (fyr r)) 0 0 : sProp 𝕄)) $$ FYR
  isplitl [B0']; · iexact B0'
  isplitl [B1']; · iexact B1'
  isplitl [B2']; · iexact B2'
  isplitl [ZS ZR']
  · isplitl [ZS]; · iexact ZS
    iexact ZR'
  isplitl [XS XR']
  · isplitl [XS]; · iexact XS
    iexact XR'
  isplitl [YS YR']
  · isplitl [YS]; · iexact YS
    iexact YR'
  isplitl [FXS FXR']
  · isplitl [FXS]; · iexact FXS
    iexact FXR'
  isplitl [FYS]; · iexact FYS
  iexact FYR'

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 65 => iprop(∃ κ : ℕ, cellInv ER (Rd m) κ (kcell (c, k))))
          ∗ (bigSep Finset.univ fun k : Fin 65 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 65 => iprop(∃ κ : ℕ, cellInv ER (Rd m) κ (kcell ck))),
    bigSep_congr (s := Finset.univ) (fun (c : Dev nD) _ => bigSep_sep' Finset.univ (fun k : Fin 65 => (atPos ER (kcell (c, k)) 0 ∅ 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.RS

end
-- ==== Proof.Bits.Levels.lean ====
import proofs.«901029_g7700000000001030_dist_rs_v7x_xyz2x2x2_z_m2048_n512_bf16_1_alg».proof.Proof.Bits.Sched

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

theorem obl_get (c : Dev nD) : obl c =
    [(barCell (zp c), 1), (barCell (xp c), 1), (barCell (yp c), 1),
     (dcell (zp c) (zrs 4), N), (dcell (zp c) (zrs 0), N), (dcell (zp c) (zrs 5), N), (dcell (zp c) (zrs 1), N),
     (dcell (zp c) (zrs 6), N), (dcell (zp c) (zrs 2), N), (dcell (zp c) (zrs 7), N), (dcell (zp c) (zrs 3), N),
     (dcell (xp c) (xrs 4), N), (dcell (yp c) (yrs 4), N), (dcell (xp c) (xrs 0), N), (dcell (yp c) (yrs 0), N),
     (dcell (xp c) (xrs 5), N), (dcell (yp c) (yrs 5), N), (dcell (xp c) (xrs 1), N), (dcell (yp c) (yrs 1), N),
     (dcell (xp c) (xrs 6), N), (dcell (yp c) (yrs 6), N), (dcell (xp c) (xrs 2), N), (dcell (yp c) (yrs 2), N),
     (dcell (xp c) (xrs 7), N), (dcell (yp c) (yrs 7), N), (dcell (xp c) (xrs 3), N), (dcell (yp c) (yrs 3), N),
     (dcell (yp c) (fyr 0), N), (dcell (xp c) (fxr 0), N), (dcell (yp c) (fyr 1), N), (dcell (xp c) (fxr 1), N),
     (dcell (yp c) (fyr 2), N), (dcell (xp c) (fxr 2), N), (dcell (yp c) (fyr 3), N), (dcell (xp c) (fxr 3), N)] := rfl

theorem obl_length (c : Dev nD) : (obl c).length = 35 := rfl

theorem Orem_step (c : Dev nD) (n : ℕ) (p : GSem nD τ sig × ℕ) (h : (obl c)[n]? = some p) :
    Orem c n = Orem c (n + 1) + tallyAt p.1 () p.2 := by
  obtain ⟨hn, rfl⟩ := List.getElem?_eq_some_iff.mp h
  unfold Orem
  rw [List.drop_eq_getElem_cons hn, List.map_cons, List.sum_cons, add_comm]

theorem Orem_at (c : Dev nD) (n : ℕ) (g : GSem nD τ sig) (k : ℕ) (h : (obl c)[n]? = some (g, k)) :
    Orem c n = Orem c (n + 1) + tallyAt g () k := Orem_step c n _ h

theorem Orem_end (c : Dev nD) : Orem c 35 = 0 := by
  unfold Orem
  rw [List.drop_eq_nil_of_le (by rw [obl_length])]
  rfl

def lvTbl : List ℕ :=
  [1, 1, 1, 2, 2, 2, 2, 2, 2, 2, 2, 3, 3, 3, 3, 3, 3, 3, 3, 3, 3, 3, 3, 3, 3, 3, 3, 4, 4, 4, 4, 4, 4, 4, 4]

theorem obl_lv (c : Dev nD) : (obl c).map (fun p => lv p.1 ()) = lvTbl := by
  rw [obl_get]; rfl

theorem obl_tc (c : Dev nD) (p : GSem nD τ sig × ℕ) (hp : p ∈ obl c) : L p.1 = {()} := by
  unfold obl at hp
  simp only [List.mem_append, List.mem_map, List.mem_flatMap, List.mem_cons, List.not_mem_nil, or_false] at hp
  rcases hp with (((rfl | rfl | rfl) | ⟨k, _, rfl⟩) | ⟨k, _, rfl | rfl⟩) | (rfl | rfl | rfl | rfl | rfl | rfl | rfl | rfl) <;>
    exact L_tc _ _

theorem sum_tally_pos (l : List (GSem nD τ sig × ℕ)) (g : GSem nD τ sig) (i : Unit)
    (h : 0 < ((l.map fun p => (tallyAt p.1 () p.2 : CellTallies nD τ sig Unit)).sum) g i) : ∃ p ∈ l, p.1 = g := by
  induction l with
  | nil => exact absurd h (Nat.lt_irrefl 0)
  | cons a l ih =>
    rw [List.map_cons, List.sum_cons] at h
    rcases Pipeline.add_pos_cases h with h | h
    · rw [tallyAt_apply] at h
      by_cases hg : g = a.1 ∧ i = ()
      · exact ⟨a, List.mem_cons_self, hg.1.symm⟩
      · rw [if_neg hg] at h; exact absurd h (Nat.lt_irrefl 0)
    · obtain ⟨p, hp, e⟩ := ih h
      exact ⟨p, List.mem_cons_of_mem _ hp, e⟩

theorem Orem_pos (c : Dev nD) (n : ℕ) (g : GSem nD τ sig) (i : Unit) (h : 0 < Orem c n g i) :
    ∃ j p, n ≤ j ∧ (obl c)[j]? = some p ∧ p.1 = g := by
  obtain ⟨p, hp, e⟩ := sum_tally_pos _ g i h
  obtain ⟨j, hj⟩ := List.mem_iff_getElem?.mp hp
  rw [List.getElem?_drop] at hj
  exact ⟨n + j, p, Nat.le_add_right _ _, hj, e⟩

theorem lv_ge (c : Dev nD) (n i : ℕ) (p : GSem nD τ sig × ℕ) (hi : n ≤ i) (hp : (obl c)[i]? = some p) (b : ℕ)
    (hb : ∀ v ∈ lvTbl.drop n, b < v) : b < lv p.1 () := by
  refine hb _ (List.mem_iff_getElem?.mpr ⟨i - n, ?_⟩)
  rw [List.getElem?_drop, Nat.add_sub_cancel' hi, ← obl_lv c, List.getElem?_map, hp]
  rfl

-- A wait is allowed when every cell still owed lies at a higher level than the cell waited on.
omit [FloatOps F] in
theorem mayWait_rem (c : Dev nD) (sm : SemLoc sig) (n : ℕ)
    (h : ∀ i p, n ≤ i → (obl c)[i]? = some p → lv ((c : Thread nD τ), sm) () < lv p.1 ()) :
    (levAts L lv : sProp 𝕄) ⊢ MayWait (c : Thread nD τ) sm () (Orem c n) :=
  Pipeline.mayWait_of_levAts (by rw [L_tc]; exact Finset.mem_singleton_self _) fun g i hg => by
    obtain ⟨j, p, hj, hp, rfl⟩ := Orem_pos c n g i hg
    refine ⟨?_, h j p hj hp⟩
    rw [obl_tc c p (List.mem_of_getElem? hp)]
    exact Finset.mem_singleton_self _

omit [FloatOps F] in
theorem mayWait_bar (c : Dev nD) : (levAts L lv : sProp 𝕄) ⊢ MayWait (c : Thread nD τ) (.reg barS) () (Orem c 3) :=
  mayWait_rem c _ 3 fun i p hi hp => lv_ge c 3 i p hi hp 1 (by decide)

theorem lv_zrs (c : Dev nD) (k : Fin 8) : lv (dcell c (zrs k)) () = 2 := by
  have := k.isLt
  dsimp only [lv]
  rw [if_pos ⟨by omega, by omega⟩]

theorem lv_xrs (c : Dev nD) (k : Fin 8) : lv (dcell c (xrs k)) () = 3 := by
  have := k.isLt
  dsimp only [lv]
  rw [if_neg (by omega), if_pos (Or.inl ⟨by omega, by omega⟩)]

theorem lv_yrs (c : Dev nD) (k : Fin 8) : lv (dcell c (yrs k)) () = 3 := by
  have := k.isLt
  dsimp only [lv]
  rw [if_neg (by omega), if_pos (Or.inr ⟨by omega, by omega⟩)]

theorem lv_stage (c : Dev nD) (q : DmaSem sig) (hq : q.val < 2) : lv (dcell c q) () = 0 := by
  dsimp only [lv]
  rw [if_neg (by omega), if_neg (by omega), if_neg (by omega)]

omit [FloatOps F] in
theorem mayWait_zrs (c : Dev nD) (k : Fin 8) (n : ℕ) (hn : 11 ≤ n) :
    (levAts L lv : sProp 𝕄) ⊢ MayWait (c : Thread nD τ) (.dma (zrs k)) () (Orem c n) :=
  mayWait_rem c _ n fun i p hi hp => by
    rw [show lv ((c : Thread nD τ), SemLoc.dma (zrs k)) () = 2 from lv_zrs c k]
    exact lv_ge c 11 i p (le_trans hn hi) hp 2 (by decide)

omit [FloatOps F] in
theorem mayWait_xrs (c : Dev nD) (k : Fin 8) (n : ℕ) (hn : 27 ≤ n) :
    (levAts L lv : sProp 𝕄) ⊢ MayWait (c : Thread nD τ) (.dma (xrs k)) () (Orem c n) :=
  mayWait_rem c _ n fun i p hi hp => by
    rw [show lv ((c : Thread nD τ), SemLoc.dma (xrs k)) () = 3 from lv_xrs c k]
    exact lv_ge c 27 i p (le_trans hn hi) hp 3 (by decide)

omit [FloatOps F] in
theorem mayWait_yrs (c : Dev nD) (k : Fin 8) (n : ℕ) (hn : 27 ≤ n) :
    (levAts L lv : sProp 𝕄) ⊢ MayWait (c : Thread nD τ) (.dma (yrs k)) () (Orem c n) :=
  mayWait_rem c _ n fun i p hi hp => by
    rw [show lv ((c : Thread nD τ), SemLoc.dma (yrs k)) () = 3 from lv_yrs c k]
    exact lv_ge c 27 i p (le_trans hn hi) hp 3 (by decide)

omit [FloatOps F] in
theorem mayWait_done (c : Dev nD) (sm : SemLoc sig) : (levAts L lv : sProp 𝕄) ⊢ MayWait (c : Thread nD τ) sm () (Orem c 35) := by
  rw [Orem_end, MayWait_zero]; iintro -; iempintro

omit [FloatOps F] in
theorem mayWait_stage (c : Dev nD) (q : DmaSem sig) (hq : q.val < 2) (O : CellTallies nD τ sig Unit) (hO : O = Orem c 0 ∨ O = 0) :
    (levAts L lv : sProp 𝕄) ⊢ MayWait (c : Thread nD τ) (.dma q) () O := by
  rcases hO with rfl | rfl
  · refine mayWait_rem c _ 0 fun i p hi hp => ?_
    rw [show lv ((c : Thread nD τ), SemLoc.dma q) () = 0 from lv_stage c q hq]
    exact lv_ge c 0 i p hi hp 0 (by decide)
  · rw [MayWait_zero]; iintro -; iempintro

end Cert.Kernel.RS

end
-- ==== Proof.Bits.Credit.lean ====
import proofs.«901029_g7700000000001030_dist_rs_v7x_xyz2x2x2_z_m2048_n512_bf16_1_alg».proof.Proof.Bits.Sched
import Idealize.ShloMosaic.Lib.Pipeline.Launch

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem credit_Orem_zero (d : Dev nD) : Orem d 0 =
    tallyAt (barCell (zp d)) () 1 + tallyAt (barCell (xp d)) () 1 + tallyAt (barCell (yp d)) () 1
      + (∑ k : Fin 8, tallyAt (dcell (zp d) (zrs k)) () N)
      + (∑ k : Fin 8, tallyAt (dcell (xp d) (xrs k)) () N)
      + (∑ k : Fin 8, tallyAt (dcell (yp d) (yrs k)) () N)
      + (∑ r : Fin 4, tallyAt (dcell (xp d) (fxr r)) () N)
      + (∑ r : Fin 4, tallyAt (dcell (yp d) (fyr r)) () N) := by
  unfold Orem obl ord
  simp only [List.drop_zero, List.map_cons, List.map_nil, List.flatMap_cons, List.flatMap_nil, List.cons_append, List.nil_append,
    List.append_nil, List.map_append, List.sum_cons, List.sum_nil, Fin.sum_univ_eight, Fin.sum_univ_four, add_zero]
  ac_rfl

theorem credit_tallyAt_three (g : GSem nD τ sig) :
    (tallyAt g () 3 : CellTallies nD τ sig Unit) = tallyAt g () 1 + tallyAt g () 1 + tallyAt g () 1 := by
  rw [tallyAt_add, tallyAt_add]

theorem creds_of_launch (c : Dev nD) : (Pipeline.launchCred (fun d : Dev nD => Orem d 0) c : sProp 𝕄) ⊢ creds c := by
  rw [show (fun d : Dev nD => Orem d 0) = _ from funext credit_Orem_zero]
  rw [Pipeline.launchCred_add, Pipeline.launchCred_add, Pipeline.launchCred_add, Pipeline.launchCred_add, Pipeline.launchCred_add,
    Pipeline.launchCred_add, Pipeline.launchCred_add, Pipeline.launchCred_sum, Pipeline.launchCred_sum, Pipeline.launchCred_sum,
    Pipeline.launchCred_sum, Pipeline.launchCred_sum]
  unfold creds
  rw [credit_tallyAt_three]
  refine (BIClass.sep_mono (BIClass.sep_mono (BIClass.sep_mono (BIClass.sep_mono (BIClass.sep_mono (BIClass.sep_mono (BIClass.sep_mono
    (Pipeline.launchCred_tallyAt (.reg barS) zp zp zp_zp zp_zp () 1 c)
    (Pipeline.launchCred_tallyAt (.reg barS) xp xp xp_xp xp_xp () 1 c))
    (Pipeline.launchCred_tallyAt (.reg barS) yp yp yp_yp yp_yp () 1 c))
    (bigSep_mono fun k _ => Pipeline.launchCred_tallyAt (.dma (zrs k)) zp zp zp_zp zp_zp () N c))
    (bigSep_mono fun k _ => Pipeline.launchCred_tallyAt (.dma (xrs k)) xp xp xp_xp xp_xp () N c))
    (bigSep_mono fun k _ => Pipeline.launchCred_tallyAt (.dma (yrs k)) yp yp yp_yp yp_yp () N c))
    (bigSep_mono fun r _ => Pipeline.launchCred_tallyAt (.dma (fxr r)) xp xp xp_xp xp_xp () N c))
    (bigSep_mono fun r _ => Pipeline.launchCred_tallyAt (.dma (fyr r)) yp yp yp_yp yp_yp () N c)).trans ?_
  have hbar (t : CellTallies nD τ sig Unit) : (iprop((cred t ∗ cred t) ∗ cred t) : sProp 𝕄) ⊢ cred (t + t + t) :=
    (sep_mono_left (cred_add t t).2).trans (cred_add (t + t) t).2
  iintro ⟨⟨⟨⟨⟨H, S1⟩, S2⟩, S3⟩, S4⟩, S5⟩
  isplitl [H]; · iapply hbar; iexact H
  iframe # ∗

end Cert.Kernel.RS

end
-- ==== Proof.Bits.Stages.lean ====
import proofs.«901029_g7700000000001030_dist_rs_v7x_xyz2x2x2_z_m2048_n512_bf16_1_alg».proof.Proof.Bits.Tables

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev tok (g : GSem nD τ sig) : sProp 𝕄 := dutyTok ER g 0 0
abbrev pos0 (g : GSem nD τ sig) : sProp 𝕄 := atPos ER g 0 ∅ 0
abbrev crN (g : GSem nD τ sig) : sProp 𝕄 := cred (tallyAt g () N)

def xPts (c : Dev nD) : sProp 𝕄 := ((c : Thread nD τ).loc cc0_stg0_0) ↦{fullShare} X m c

def Zinit (c : Dev nD) (k : Fin 8) (f0 : (cc0_scratch0 : Ref sig .tc).ty.Contents (Elt F)) (fz : (cc0_scratch1 : Ref sig .tc).ty.Contents (Elt F)) : sProp 𝕄 :=
  iprop(zsPts c k f0 ∗ zrPts (zp c) k fz ∗ tok (dcell c (zss k)) ∗ tok (dcell (zp c) (zrs k)))

def Zsent (c : Dev nD) (k : Fin 8) : sProp 𝕄 := crN (dcell c (zss k))

def Zback (c : Dev nD) (k : Fin 8) : sProp 𝕄 := iprop(zsPts c k (ZSv m c) ∗ semVal (dcell c (zss k)) 0)

def Rinit (c : Dev nD) (k : Fin 8) (fo fx fy : (cc0_stg1_0 : Ref sig .tc).ty.Contents (Elt F)) : sProp 𝕄 :=
  iprop(crN (dcell c (zrs k)) ∗ pos0 (dcell c (zrs k))
    ∗ oPts c c k fullShare fo ∗ oPts (xp c) c k fullShare fx ∗ oPts (yp c) c k fullShare fy
    ∗ tok (dcell c (xss k)) ∗ tok (dcell (xp c) (xrs k)) ∗ tok (dcell c (yss k)) ∗ tok (dcell (yp c) (yrs k)))

def Rsent (c : Dev nD) (k : Fin 8) : sProp 𝕄 :=
  iprop(zrPts c k (ZRv m c) ∗ semVal (dcell c (zrs k)) 0 ∗ crN (dcell c (xss k)) ∗ crN (dcell c (yss k)))

def Rback (c : Dev nD) (k : Fin 8) : sProp 𝕄 :=
  iprop(oPts c c k fullShare (OUTv m c) ∗ semVal (dcell c (xss k)) 0 ∗ semVal (dcell c (yss k)) 0)

def XYinitHi (c : Dev nD) (r : Fin 4) (fy : (cc0_stg1_0 : Ref sig .tc).ty.Contents (Elt F)) : sProp 𝕄 :=
  iprop(crN (dcell c (xrs ⟨r.val + 4, by omega⟩)) ∗ pos0 (dcell c (xrs ⟨r.val + 4, by omega⟩))
    ∗ crN (dcell c (yrs ⟨r.val + 4, by omega⟩)) ∗ pos0 (dcell c (yrs ⟨r.val + 4, by omega⟩))
    ∗ oPts (yp c) (xp c) ⟨r.val + 4, by omega⟩ fullShare fy ∗ tok (dcell c (fys r)) ∗ tok (dcell (yp c) (fyr r)))
def XYdoneHi (c : Dev nD) (r : Fin 4) : sProp 𝕄 :=
  iprop(semVal (dcell c (xrs ⟨r.val + 4, by omega⟩)) 0 ∗ semVal (dcell c (yrs ⟨r.val + 4, by omega⟩)) 0
    ∗ crN (dcell c (fys r)) ∗ oPts c (yp c) ⟨r.val + 4, by omega⟩ fullShare (OUTv m c))

def XYinitLo (c : Dev nD) (r : Fin 4) (fx : (cc0_stg1_0 : Ref sig .tc).ty.Contents (Elt F)) : sProp 𝕄 :=
  iprop(crN (dcell c (xrs ⟨r.val, by omega⟩)) ∗ pos0 (dcell c (xrs ⟨r.val, by omega⟩))
    ∗ crN (dcell c (yrs ⟨r.val, by omega⟩)) ∗ pos0 (dcell c (yrs ⟨r.val, by omega⟩))
    ∗ oPts (xp c) (yp c) ⟨r.val, by omega⟩ fullShare fx ∗ tok (dcell c (fxs r)) ∗ tok (dcell (xp c) (fxr r)))
def XYdoneLo (c : Dev nD) (r : Fin 4) : sProp 𝕄 :=
  iprop(semVal (dcell c (xrs ⟨r.val, by omega⟩)) 0 ∗ semVal (dcell c (yrs ⟨r.val, by omega⟩)) 0
    ∗ oPts c (xp c) ⟨r.val, by omega⟩ fullShare (OUTv m c) ∗ crN (dcell c (fxs r)))

def FbackHi (c : Dev nD) (r : Fin 4) : sProp 𝕄 := iprop(oPts c (xp c) ⟨r.val + 4, by omega⟩ fullShare (OUTv m c) ∗ semVal (dcell c (fys r)) 0)
def FbackLo (c : Dev nD) (r : Fin 4) : sProp 𝕄 := iprop(oPts c (yp c) ⟨r.val, by omega⟩ fullShare (OUTv m c) ∗ semVal (dcell c (fxs r)) 0)

def Dinit (c : Dev nD) (r : Fin 4) : sProp 𝕄 :=
  iprop(crN (dcell c (fxr r)) ∗ pos0 (dcell c (fxr r)) ∗ crN (dcell c (fyr r)) ∗ pos0 (dcell c (fyr r)))
def Ddone (c : Dev nD) (r : Fin 4) : sProp 𝕄 :=
  iprop(oPts c (xp (yp c)) ⟨r.val, by omega⟩ fullShare (OUTv m c) ∗ oPts c (xp (yp c)) ⟨r.val + 4, by omega⟩ fullShare (OUTv m c)
    ∗ semVal (dcell c (fxr r)) 0 ∗ semVal (dcell c (fyr r)) 0)

end Cert.Kernel.RS

end
-- ==== Proof.Bits.Cover.lean ====
import proofs.«901029_g7700000000001030_dist_rs_v7x_xyz2x2x2_z_m2048_n512_bf16_1_alg».proof.Proof.Bits.Tables
import Idealize.ShloMosaic.Lib.Pipeline.Value

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem mem_zsCh (k : Fin 8) (i : S512x512.Idx) : i ∈ (zsCh k).view.set ↔ (i 0).val / 64 = k.val := by
  show i ∈ ((View.whole cc0_scratch0).slice (zrect k)).set ↔ _
  rw [View.set_slice_whole, Rect.mem_set_unit]
  have h0 : (i 0).val < 512 := (i 0).isLt
  have h1 : (i 1).val < 512 := (i 1).isLt
  show (∀ a : Fin 2, zoff k a ≤ (i a).val ∧ (i a).val < zoff k a + S64x512.size a) ↔ _
  rw [Fin.forall_fin_two]
  show (64 * k.val ≤ (i 0).val ∧ (i 0).val < 64 * k.val + 64) ∧ (0 ≤ (i 1).val ∧ (i 1).val < 0 + 512) ↔ _
  omega

theorem mem_zrCh (k : Fin 8) (i : S512x512.Idx) : i ∈ (zrCh k).view.set ↔ (i 0).val / 64 = k.val := by
  show i ∈ ((View.whole cc0_scratch1).slice (zrect k)).set ↔ _
  rw [View.set_slice_whole, Rect.mem_set_unit]
  have h0 : (i 0).val < 512 := (i 0).isLt
  have h1 : (i 1).val < 512 := (i 1).isLt
  show (∀ a : Fin 2, zoff k a ≤ (i a).val ∧ (i a).val < zoff k a + S64x512.size a) ↔ _
  rw [Fin.forall_fin_two]
  show (64 * k.val ≤ (i 0).val ∧ (i 0).val < 64 * k.val + 64) ∧ (0 ≤ (i 1).val ∧ (i 1).val < 0 + 512) ↔ _
  omega

theorem rme_dvd (d : Dev nD) : rme d = 64 * (rme d / 64) := by revert d; decide

theorem mem_oCh (d : Dev nD) (k : Fin 8) (i : S2048x512.Idx) : i ∈ (oCh d k).view.set ↔ (i 0).val / 64 = rme d / 64 + k.val := by
  show i ∈ ((View.whole cc0_stg1_0).slice (orect d k)).set ↔ _
  rw [View.set_slice_whole, Rect.mem_set_unit]
  have h0 : (i 0).val < 2048 := (i 0).isLt
  have h1 : (i 1).val < 512 := (i 1).isLt
  have hd := rme_dvd d
  show (∀ a : Fin 2, ooff d k a ≤ (i a).val ∧ (i a).val < ooff d k a + S64x512.size a) ↔ _
  rw [Fin.forall_fin_two]
  show (rme d + 64 * k.val ≤ (i 0).val ∧ (i 0).val < rme d + 64 * k.val + 64) ∧ (0 ≤ (i 1).val ∧ (i 1).val < 0 + 512) ↔ _
  omega

theorem pointsTo_cover {ℓ : Loc nD τ sig} {T : Type} [Fintype T] (K : T → Finset (Idx ℓ))
    (hcov : ∀ i, ∃ t, i ∈ K t) (hdis : ∀ t t', t ≠ t' → Disjoint (K t) (K t'))
    (q : PosShare TreeShare) (f : Buf (Elt F) ℓ) :
    ((ℓ ↦{q} f) : sProp 𝕄) = bigSep Finset.univ fun t => ℓ ↦[K t]{q} f := by
  have hu : (Finset.univ : Finset (Idx ℓ)) = Finset.univ.biUnion K := by
    ext i
    simp only [Finset.mem_univ, Finset.mem_biUnion, true_and, true_iff]
    exact hcov i
  rw [hu]
  exact pointsTo_biUnion Finset.univ K fun t _ t' _ hne => hdis t t' hne

theorem zs_split (c : Dev nD) (f : (cc0_scratch0 : Ref sig .tc).ty.Contents (Elt F)) :
    ((((c : Thread nD τ).loc cc0_scratch0) ↦{fullShare} f) : sProp 𝕄) ⊣⊢ bigSep Finset.univ fun k : Fin 8 => zsPts c k f := by
  refine BiEntails.of_eq ?_
  exact pointsTo_cover (ℓ := (c : Thread nD τ).loc cc0_scratch0) (fun k : Fin 8 => (zsCh k).view.set)
    (fun i => ⟨⟨(i 0).val / 64, Nat.div_lt_of_lt_mul (i 0).isLt⟩, (mem_zsCh _ i).mpr rfl⟩)
    (fun k k' hne => Finset.disjoint_left.mpr fun i hi hi' =>
      hne (Fin.ext (((mem_zsCh k i).mp hi).symm.trans ((mem_zsCh k' i).mp hi'))))
    fullShare f

theorem zr_split (c : Dev nD) (f : (cc0_scratch1 : Ref sig .tc).ty.Contents (Elt F)) :
    ((((c : Thread nD τ).loc cc0_scratch1) ↦{fullShare} f) : sProp 𝕄) ⊣⊢ bigSep Finset.univ fun k : Fin 8 => zrPts c k f := by
  refine BiEntails.of_eq ?_
  exact pointsTo_cover (ℓ := (c : Thread nD τ).loc cc0_scratch1) (fun k : Fin 8 => (zrCh k).view.set)
    (fun i => ⟨⟨(i 0).val / 64, Nat.div_lt_of_lt_mul (i 0).isLt⟩, (mem_zrCh _ i).mpr rfl⟩)
    (fun k k' hne => Finset.disjoint_left.mpr fun i hi hi' =>
      hne (Fin.ext (((mem_zrCh k i).mp hi).symm.trans ((mem_zrCh k' i).mp hi'))))
    fullShare f

def quart (c : Dev nD) : Fin 4 → Dev nD := ![c, xp c, yp c, xp (yp c)]

theorem quart_cover : ∀ (c : Dev nD) (r : Fin 4), ∃ j : Fin 4, rme (quart c j) = 512 * r.val := by decide
theorem quart_inj : ∀ (c : Dev nD) (j j' : Fin 4), rme (quart c j) = rme (quart c j') → j = j' := by decide
theorem rme_512 : ∀ d : Dev nD, rme d = 512 * (rme d / 512) := by decide

def oSet (c : Dev nD) (t : Fin 4 × Fin 8) : Finset S2048x512.Idx := (oCh (quart c t.1) t.2).view.set

theorem mem_oSet (c : Dev nD) (j : Fin 4) (k : Fin 8) (i : S2048x512.Idx) :
    i ∈ oSet c (j, k) ↔ (i 0).val / 64 = rme (quart c j) / 64 + k.val := mem_oCh (quart c j) k i

theorem oSet_cover (c : Dev nD) (i : S2048x512.Idx) : ∃ t, i ∈ oSet c t := by
  have h0 : (i 0).val < 2048 := (i 0).isLt
  obtain ⟨j, hj⟩ := quart_cover c ⟨(i 0).val / 512, by omega⟩
  have hj' : rme (quart c j) = 512 * ((i 0).val / 512) := hj
  refine ⟨(j, ⟨(i 0).val / 64 % 8, Nat.mod_lt _ (by decide)⟩), (mem_oSet c j _ i).mpr ?_⟩
  rw [hj']
  show (i 0).val / 64 = 512 * ((i 0).val / 512) / 64 + (i 0).val / 64 % 8
  omega

theorem oSet_disj (c : Dev nD) (t t' : Fin 4 × Fin 8) (hne : t ≠ t') : Disjoint (oSet c t) (oSet c t') := by
  obtain ⟨j, k⟩ := t
  obtain ⟨j', k'⟩ := t'
  refine Finset.disjoint_left.mpr fun i hi hi' => hne ?_
  have e := ((mem_oSet c j k i).mp hi).symm.trans ((mem_oSet c j' k' i).mp hi')
  have h1 := rme_512 (quart c j)
  have h2 := rme_512 (quart c j')
  have hk := k.isLt
  have hk' := k'.isLt
  have hr : rme (quart c j) = rme (quart c j') := by omega
  have hj := quart_inj c _ _ hr
  exact Prod.ext hj (Fin.ext (by show k.val = k'.val; omega))

theorem out_split (c : Dev nD) (f : (cc0_stg1_0 : Ref sig .tc).ty.Contents (Elt F)) :
    ((((c : Thread nD τ).loc cc0_stg1_0) ↦{fullShare} f) : sProp 𝕄) ⊣⊢
      iprop((bigSep Finset.univ fun k : Fin 8 => oPts c c k fullShare f) ∗ (bigSep Finset.univ fun k : Fin 8 => oPts c (xp c) k fullShare f)
        ∗ (bigSep Finset.univ fun k : Fin 8 => oPts c (yp c) k fullShare f) ∗ (bigSep Finset.univ fun k : Fin 8 => oPts c (xp (yp c)) k fullShare f)) := by
  refine BiEntails.of_eq ?_
  have h := pointsTo_cover (F := F) (ℓ := (c : Thread nD τ).loc cc0_stg1_0) (oSet c) (oSet_cover c) (oSet_disj c) fullShare f
  rw [h, bigSep_univ_prod, bigSep_fin4]
  rfl

theorem oPts_halves (c d : Dev nD) (k : Fin 8) (f : (cc0_stg1_0 : Ref sig .tc).ty.Contents (Elt F)) :
    oPts c d k fullShare f ⊣⊢ iprop(oPts (F := F) c d k fullShare.left f ∗ oPts c d k fullShare.right f) :=
  pointsTo_share (PosShare.mem_left_op_right fullShare)

end Cert.Kernel.RS

end
-- ==== Proof.Bits.Regroup.lean ====
import proofs.«901029_g7700000000001030_dist_rs_v7x_xyz2x2x2_z_m2048_n512_bf16_1_alg».proof.Proof.Bits.Alloc
import proofs.«901029_g7700000000001030_dist_rs_v7x_xyz2x2x2_z_m2048_n512_bf16_1_alg».proof.Proof.Bits.Stages
import proofs.«901029_g7700000000001030_dist_rs_v7x_xyz2x2x2_z_m2048_n512_bf16_1_alg».proof.Proof.Bits.Cover

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def dmaPositions (c : Dev nD) : sProp 𝕄 := bigSep Finset.univ fun j : Fin 64 => atPos ER ((c : Thread nD τ), osem j) 0 ∅ 0

theorem positions_split (c : Dev nD) : positions (F := F) c ⊣⊢ iprop(atPos ER (barCell c) 0 ∅ 0 ∗ dmaPositions c) := by
  refine BiEntails.of_eq ?_
  unfold positions dmaPositions
  rw [bigSep_fin65]
  exact sep_congr rfl (bigSep_congr fun j _ => congrArg (fun g => (atPos ER g 0 ∅ 0 : sProp 𝕄)) (kcell_succ c j))

def dmaToks (c : Dev nD) : sProp 𝕄 :=
  iprop((bigSep Finset.univ fun k : Fin 8 => iprop(dutyTok ER (dcell c (zss k)) 0 0 ∗ dutyTok ER (dcell (zp c) (zrs k)) 0 0))
    ∗ (bigSep Finset.univ fun k : Fin 8 => iprop(dutyTok ER (dcell c (xss k)) 0 0 ∗ dutyTok ER (dcell (xp c) (xrs k)) 0 0))
    ∗ (bigSep Finset.univ fun k : Fin 8 => iprop(dutyTok ER (dcell c (yss k)) 0 0 ∗ dutyTok ER (dcell (yp c) (yrs k)) 0 0))
    ∗ (bigSep Finset.univ fun r : Fin 4 => iprop(dutyTok ER (dcell c (fxs r)) 0 0 ∗ dutyTok ER (dcell (xp c) (fxr r)) 0 0))
    ∗ (bigSep Finset.univ fun r : Fin 4 => iprop(dutyTok ER (dcell c (fys r)) 0 0 ∗ dutyTok ER (dcell (yp c) (fyr r)) 0 0)))

def dmaCreds (c : Dev nD) : sProp 𝕄 :=
  iprop((bigSep Finset.univ fun k : Fin 8 => cred (tallyAt (dcell c (zrs k)) () N))
    ∗ (bigSep Finset.univ fun k : Fin 8 => cred (tallyAt (dcell c (xrs k)) () N))
    ∗ (bigSep Finset.univ fun k : Fin 8 => cred (tallyAt (dcell c (yrs k)) () N))
    ∗ (bigSep Finset.univ fun r : Fin 4 => cred (tallyAt (dcell c (fxr r)) () N))
    ∗ (bigSep Finset.univ fun r : Fin 4 => cred (tallyAt (dcell c (fyr r)) () N)))

theorem payToks_eq (c : Dev nD) : payToks (F := F) c
    = iprop(dutyTok ER (barCell (zp c)) 0 0 ∗ dutyTok ER (barCell (xp c)) 0 1 ∗ dutyTok ER (barCell (yp c)) 0 2 ∗ dmaToks c) := rfl

theorem creds_eq (c : Dev nD) : creds (F := F) c = iprop(cred (tallyAt (barCell c) () 3) ∗ dmaCreds c) := rfl

def S1 (c : Dev nD) (f0 : (cc0_scratch0 : Ref sig .tc).ty.Contents (Elt F)) (fz : (cc0_scratch1 : Ref sig .tc).ty.Contents (Elt F))
    (fo fx fy : (cc0_stg1_0 : Ref sig .tc).ty.Contents (Elt F)) : sProp 𝕄 :=
  iprop((bigSep Finset.univ fun k : Fin 8 => Zinit c k f0 fz) ∗ (bigSep Finset.univ fun k : Fin 8 => Rinit c k fo fx fy)
    ∗ (bigSep Finset.univ fun r : Fin 4 => XYinitHi c r fy) ∗ (bigSep Finset.univ fun r : Fin 4 => XYinitLo c r fx) ∗ (bigSep Finset.univ fun r : Fin 4 => Dinit c r)
    ∗ (bigSep Finset.univ fun k : Fin 8 => pos0 (dcell c (zss k))) ∗ (bigSep Finset.univ fun k : Fin 8 => pos0 (dcell c (xss k))) ∗ (bigSep Finset.univ fun k : Fin 8 => pos0 (dcell c (yss k)))
    ∗ (bigSep Finset.univ fun r : Fin 4 => pos0 (dcell c (fys r))) ∗ (bigSep Finset.univ fun r : Fin 4 => pos0 (dcell c (fxs r))))

theorem bigSep_halves (Φ : Fin 8 → sProp 𝕄) :
    bigSep Finset.univ Φ = iprop((bigSep Finset.univ fun r : Fin 4 => Φ ⟨r.val, by omega⟩) ∗ bigSep Finset.univ fun r : Fin 4 => Φ ⟨r.val + 4, by omega⟩) := by
  rw [bigSep_fin_add 4 4 Φ]
  exact sep_congr (bigSep_congr fun r _ => congrArg Φ (Fin.ext rfl))
    (bigSep_congr fun r _ => congrArg Φ (Fin.ext (by show 4 + r.val = r.val + 4; omega)))

theorem barPay_zero (c : Dev nD) : barPay (F := F) c 0 = iprop(∃ f, bigSep Finset.univ fun k : Fin 8 => zrPts (zp c) k f) := by
  unfold barPay; rw [if_pos rfl]
theorem barPay_one (c : Dev nD) : barPay (F := F) c 1
    = iprop(∃ f, (bigSep Finset.univ fun k : Fin 8 => oPts (xp c) c k fullShare f)
      ∗ (bigSep Finset.univ fun r : Fin 4 => oPts (xp c) (yp c) ⟨r.val, by omega⟩ fullShare f)) := by
  unfold barPay; rw [if_neg (by decide), if_pos rfl]
theorem barPay_two (c : Dev nD) : barPay (F := F) c 2
    = iprop(∃ f, (bigSep Finset.univ fun k : Fin 8 => oPts (yp c) c k fullShare f)
      ∗ (bigSep Finset.univ fun r : Fin 4 => oPts (yp c) (xp c) ⟨r.val + 4, by omega⟩ fullShare f)) := by
  unfold barPay; rw [if_neg (by decide), if_neg (by decide)]

theorem dmaPositions_eq (c : Dev nD) : dmaPositions (F := F) c
    = iprop(((bigSep Finset.univ fun k : Fin 8 => pos0 (dcell c (zss k))) ∗ (bigSep Finset.univ fun k : Fin 8 => pos0 (dcell c (zrs k)))
          ∗ (bigSep Finset.univ fun k : Fin 8 => pos0 (dcell c (xss k))) ∗ (bigSep Finset.univ fun k : Fin 8 => pos0 (dcell c (xrs k)))
          ∗ (bigSep Finset.univ fun k : Fin 8 => pos0 (dcell c (yss k))) ∗ (bigSep Finset.univ fun k : Fin 8 => pos0 (dcell c (yrs k))))
        ∗ ((bigSep Finset.univ fun r : Fin 4 => pos0 (dcell c (fxs r))) ∗ (bigSep Finset.univ fun r : Fin 4 => pos0 (dcell c (fxr r)))
          ∗ (bigSep Finset.univ fun r : Fin 4 => pos0 (dcell c (fys r))) ∗ (bigSep Finset.univ fun r : Fin 4 => pos0 (dcell c (fyr r))))) :=
  dma_groups (fun q => (pos0 (dcell c q) : sProp 𝕄))

theorem sems_eq (c : Dev nD) : (bigSep Finset.univ fun j : Fin 64 => (semVal ((c : Thread nD τ), osem j) 0 : sProp 𝕄))
    = iprop(((bigSep Finset.univ fun k : Fin 8 => semVal (dcell c (zss k)) 0) ∗ (bigSep Finset.univ fun k : Fin 8 => semVal (dcell c (zrs k)) 0)
          ∗ (bigSep Finset.univ fun k : Fin 8 => semVal (dcell c (xss k)) 0) ∗ (bigSep Finset.univ fun k : Fin 8 => semVal (dcell c (xrs k)) 0)
          ∗ (bigSep Finset.univ fun k : Fin 8 => semVal (dcell c (yss k)) 0) ∗ (bigSep Finset.univ fun k : Fin 8 => semVal (dcell c (yrs k)) 0))
        ∗ ((bigSep Finset.univ fun r : Fin 4 => semVal (dcell c (fxs r)) 0) ∗ (bigSep Finset.univ fun r : Fin 4 => semVal (dcell c (fxr r)) 0)
          ∗ (bigSep Finset.univ fun r : Fin 4 => semVal (dcell c (fys r)) 0) ∗ (bigSep Finset.univ fun r : Fin 4 => semVal (dcell c (fyr r)) 0))) :=
  dma_groups (fun q => (semVal (dcell c q) 0 : sProp 𝕄))

theorem eq_of_biEntails {P Q : sProp 𝕄} (h : P ⊣⊢ Q) : P = Q := equiv_iff.mp ⟨h.mp, h.mpr⟩

theorem S1_intro (c : Dev nD) (f0 : (cc0_scratch0 : Ref sig .tc).ty.Contents (Elt F)) (fo : (cc0_stg1_0 : Ref sig .tc).ty.Contents (Elt F)) :
    iprop(dmaPositions c ∗ dmaToks c ∗ dmaCreds c ∗ (bigSep Finset.univ fun k : Fin 8 => zsPts c k f0) ∗ (bigSep Finset.univ fun k : Fin 8 => oPts c c k fullShare fo)
        ∗ barPay (F := F) c 0 ∗ barPay c 1 ∗ barPay c 2)
      ⊢ iprop(∃ fz fx fy, S1 c f0 fz fo fx fy) := by
  rw [dmaPositions_eq, barPay_zero, barPay_one, barPay_two]
  unfold dmaToks dmaCreds S1 Zinit Rinit XYinitHi XYinitLo Dinit
  simp only [bigSep_sep']
  iintro ⟨⟨⟨PZS, PZR, PXS, PXR, PYS, PYR⟩, PFXS, PFXR, PFYS, PFYR⟩, ⟨⟨TZS, TZR⟩, ⟨TXS, TXR⟩, ⟨TYS, TYR⟩, ⟨TFXS, TFXR⟩, TFYS, TFYR⟩, ⟨CZR, CXR, CYR, CFXR, CFYR⟩, HZS, HO, ⟨%fz, HBZ⟩, ⟨%fx, HBX1, HBX2⟩, %fy, HBY1, HBY2⟩
  iexists fz, fx, fy
  ihave PXR' := (Entails.of_eq (bigSep_halves fun k : Fin 8 => (pos0 (dcell c (xrs k)) : sProp 𝕄))) $$ PXR
  icases PXR' with ⟨PXRlo, PXRhi⟩
  ihave PYR' := (Entails.of_eq (bigSep_halves fun k : Fin 8 => (pos0 (dcell c (yrs k)) : sProp 𝕄))) $$ PYR
  icases PYR' with ⟨PYRlo, PYRhi⟩
  ihave CXR' := (Entails.of_eq (bigSep_halves fun k : Fin 8 => (crN (dcell c (xrs k)) : sProp 𝕄))) $$ CXR
  icases CXR' with ⟨CXRlo, CXRhi⟩
  ihave CYR' := (Entails.of_eq (bigSep_halves fun k : Fin 8 => (crN (dcell c (yrs k)) : sProp 𝕄))) $$ CYR
  icases CYR' with ⟨CYRlo, CYRhi⟩
  iframe

theorem post_intro (c : Dev nD) :
    iprop((bigSep Finset.univ fun k : Fin 8 => Zback m c k)
        ∗ (bigSep Finset.univ fun k : Fin 8 => iprop(zrPts c k (ZRv m c) ∗ semVal (dcell c (zrs k)) 0))
        ∗ (bigSep Finset.univ fun k : Fin 8 => Rback m c k)
        ∗ (bigSep Finset.univ fun r : Fin 4 => iprop(semVal (dcell c (xrs ⟨r.val + 4, by omega⟩)) 0 ∗ semVal (dcell c (yrs ⟨r.val + 4, by omega⟩)) 0 ∗ oPts c (yp c) ⟨r.val + 4, by omega⟩ fullShare (OUTv m c)))
        ∗ (bigSep Finset.univ fun r : Fin 4 => iprop(semVal (dcell c (xrs ⟨r.val, by omega⟩)) 0 ∗ semVal (dcell c (yrs ⟨r.val, by omega⟩)) 0 ∗ oPts c (xp c) ⟨r.val, by omega⟩ fullShare (OUTv m c)))
        ∗ (bigSep Finset.univ fun r : Fin 4 => FbackHi m c r) ∗ (bigSep Finset.univ fun r : Fin 4 => FbackLo m c r) ∗ (bigSep Finset.univ fun r : Fin 4 => Ddone m c r))
      ⊢ iprop(Φ₁ m c ∗ ((((c : Thread nD τ).loc cc0_stg1_0) ↦{fullShare} OUTv m c) : sProp 𝕄)) := by
  unfold Φ₁ Zback Rback FbackHi FbackLo Ddone
  rw [eq_of_biEntails (zs_split c (ZSv m c)), eq_of_biEntails (zr_split c (ZRv m c)), eq_of_biEntails (out_split c (OUTv m c)), sems_eq,
    bigSep_halves (fun k : Fin 8 => (semVal (dcell c (xrs k)) 0 : sProp 𝕄)),
    bigSep_halves (fun k : Fin 8 => (semVal (dcell c (yrs k)) 0 : sProp 𝕄)),
    bigSep_halves (fun k : Fin 8 => (oPts c (xp c) k fullShare (OUTv m c) : sProp 𝕄)),
    bigSep_halves (fun k : Fin 8 => (oPts c (yp c) k fullShare (OUTv m c) : sProp 𝕄)),
    bigSep_halves (fun k : Fin 8 => (oPts c (xp (yp c)) k fullShare (OUTv m c) : sProp 𝕄))]
  simp only [bigSep_sep']
  iintro ⟨⟨A1, A2⟩, ⟨B1, B2⟩, ⟨C1, C2, C3⟩, ⟨D1, D2, D3⟩, ⟨E1, E2, E3⟩, ⟨F1, F2⟩, ⟨G1, G2⟩, H1, H2, H3, H4⟩
  iframe

end Cert.Kernel.RS

end
-- ==== Proof.Bits.Regroup2.lean ====
import proofs.«901029_g7700000000001030_dist_rs_v7x_xyz2x2x2_z_m2048_n512_bf16_1_alg».proof.Proof.Bits.Regroup

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem waits_intro (c : Dev nD) :
    iprop((bigSep Finset.univ fun k : Fin 8 => Zsent (F := F) c k) ∗ (bigSep Finset.univ fun k : Fin 8 => pos0 (dcell c (zss k)))
        ∗ (bigSep Finset.univ fun k : Fin 8 => Rsent m c k) ∗ (bigSep Finset.univ fun k : Fin 8 => pos0 (dcell c (xss k))) ∗ (bigSep Finset.univ fun k : Fin 8 => pos0 (dcell c (yss k)))
        ∗ (bigSep Finset.univ fun r : Fin 4 => XYdoneHi m c r) ∗ (bigSep Finset.univ fun r : Fin 4 => XYdoneLo m c r)
        ∗ (bigSep Finset.univ fun r : Fin 4 => pos0 (dcell c (fys r))) ∗ (bigSep Finset.univ fun r : Fin 4 => pos0 (dcell c (fxs r))))
      ⊢ iprop(((bigSep Finset.univ fun k : Fin 8 => iprop(Zsent c k ∗ pos0 (dcell c (zss k))))
            ∗ (bigSep Finset.univ fun k : Fin 8 => iprop(crN (dcell c (xss k)) ∗ pos0 (dcell c (xss k))))
            ∗ (bigSep Finset.univ fun k : Fin 8 => iprop(crN (dcell c (yss k)) ∗ pos0 (dcell c (yss k))))
            ∗ (bigSep Finset.univ fun r : Fin 4 => iprop(crN (dcell c (fys r)) ∗ pos0 (dcell c (fys r))))
            ∗ (bigSep Finset.univ fun r : Fin 4 => iprop(crN (dcell c (fxs r)) ∗ pos0 (dcell c (fxs r)))))
          ∗ ((bigSep Finset.univ fun k : Fin 8 => iprop(zrPts c k (ZRv m c) ∗ semVal (dcell c (zrs k)) 0))
            ∗ (bigSep Finset.univ fun r : Fin 4 => iprop(semVal (dcell c (xrs ⟨r.val + 4, by omega⟩)) 0 ∗ semVal (dcell c (yrs ⟨r.val + 4, by omega⟩)) 0 ∗ oPts c (yp c) ⟨r.val + 4, by omega⟩ fullShare (OUTv m c)))
            ∗ (bigSep Finset.univ fun r : Fin 4 => iprop(semVal (dcell c (xrs ⟨r.val, by omega⟩)) 0 ∗ semVal (dcell c (yrs ⟨r.val, by omega⟩)) 0 ∗ oPts c (xp c) ⟨r.val, by omega⟩ fullShare (OUTv m c))))) := by
  unfold Rsent XYdoneHi XYdoneLo
  simp only [bigSep_sep']
  iintro ⟨ZS, PZ, ⟨R1, R2, R3, R4⟩, PX, PY, ⟨H1, H2, H3, H4⟩, ⟨L1, L2, L3, L4⟩, PFY, PFX⟩
  iframe

theorem rback_one (c : Dev nD) (k : Fin 8) :
    iprop((oPts c c k fullShare.left (OUTv m c) ∗ semVal (dcell c (xss k)) 0) ∗ (oPts c c k fullShare.right (OUTv m c) ∗ semVal (dcell c (yss k)) 0))
      ⊢ Rback m c k := by
  unfold Rback
  iintro ⟨⟨HL, SX⟩, HR, SY⟩
  isplitl [HL HR]
  · iapply (oPts_halves c c k (OUTv m c)).mpr
    iframe # ∗
  iframe # ∗

theorem rback_intro (c : Dev nD) :
    iprop((bigSep Finset.univ fun k : Fin 8 => iprop(oPts c c k fullShare.left (OUTv m c) ∗ semVal (dcell c (xss k)) 0))
        ∗ (bigSep Finset.univ fun k : Fin 8 => iprop(oPts c c k fullShare.right (OUTv m c) ∗ semVal (dcell c (yss k)) 0)))
      ⊢ bigSep Finset.univ fun k : Fin 8 => Rback m c k := by
  rw [← bigSep_sep']
  exact bigSep_mono fun k _ => rback_one m c k

end Cert.Kernel.RS

end
-- ==== Proof.Bits.Records.lean ====
import proofs.«901029_g7700000000001030_dist_rs_v7x_xyz2x2x2_z_m2048_n512_bf16_1_alg».proof.Proof.Bits.Stages

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def jOf (q : DmaSem sig) (hq : 2 ≤ q.val) : Fin 65 := ⟨q.val - 1, by have := q.isLt; (have : sig.nDmaSem = 66 := rfl); omega⟩

theorem kcell_jOf (c : Dev nD) (q : DmaSem sig) (hq : 2 ≤ q.val) : kcell (c, jOf q hq) = dcell c q := by
  unfold kcell csem jOf
  have h0 : ¬ (q.val - 1 = 0) := by omega
  simp only [dif_neg h0]
  congr 2
  exact Fin.ext (by show 1 + (q.val - 1) = q.val; omega)

theorem inv_at (K : Dev nD × Fin 65 → ℕ) (ck : Dev nD × Fin 65) :
    (bigSep Finset.univ fun ck : Dev nD × Fin 65 => (cellInv ER (Rd m) (K ck) (kcell ck) : sProp 𝕄)) ⊢ cellInv ER (Rd m) (K ck) (kcell ck) :=
  bigSep_elim (Finset.mem_univ ck)
theorem reached_at (ck : Dev nD × Fin 65) :
    (bigSep Finset.univ fun ck : Dev nD × Fin 65 => (reached ER (kcell ck) 0 : sProp 𝕄)) ⊢ reached ER (kcell ck) 0 :=
  bigSep_elim (Finset.mem_univ ck)

theorem records_inv (K : Dev nD × Fin 65 → ℕ) (c : Dev nD) (q : DmaSem sig) (hq : 2 ≤ q.val) :
    records m K ⊢ cellInv ER (Rd m) (K (c, jOf q hq)) (dcell c q) := by
  unfold records
  iintro ⟨HI, -⟩
  rw [← kcell_jOf c q hq]
  iapply (inv_at m K (c, jOf q hq)); iexact HI

theorem records_reached (K : Dev nD × Fin 65 → ℕ) (c : Dev nD) (q : DmaSem sig) (hq : 2 ≤ q.val) :
    records m K ⊢ reached ER (dcell c q) 0 := by
  unfold records
  iintro ⟨-, HR⟩
  rw [← kcell_jOf c q hq]
  iapply (reached_at (F := F) (c, jOf q hq)); iexact HR

theorem records_inv_bar (K : Dev nD × Fin 65 → ℕ) (c : Dev nD) :
    records m K ⊢ cellInv ER (Rd m) (K (c, 0)) (barCell c) := by
  unfold records
  iintro ⟨HI, -⟩
  iapply (inv_at m K (c, 0)); iexact HI

theorem records_reached_bar (K : Dev nD × Fin 65 → ℕ) (c : Dev nD) :
    records m K ⊢ reached ER (barCell c) 0 := by
  unfold records
  iintro ⟨-, HR⟩
  iapply (reached_at (F := F) (c, 0)); iexact HR

end Cert.Kernel.RS

end
-- ==== Proof.Bits.Bar.lean ====
import proofs.«901029_g7700000000001030_dist_rs_v7x_xyz2x2x2_z_m2048_n512_bf16_1_alg».proof.Proof.Bits.Records
import proofs.«901029_g7700000000001030_dist_rs_v7x_xyz2x2x2_z_m2048_n512_bf16_1_alg».proof.Proof.Bits.Cover

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bar_owed0 (c : Dev nD) : Orem c 0 = Orem c 1 + tallyAt (barCell (zp c)) () 1 :=
  (show Orem c 0 = tallyAt (barCell (zp c)) () 1 + Orem c 1 from rfl).trans (add_comm _ _)
theorem bar_owed1 (c : Dev nD) : Orem c 1 = Orem c 2 + tallyAt (barCell (xp c)) () 1 :=
  (show Orem c 1 = tallyAt (barCell (xp c)) () 1 + Orem c 2 from rfl).trans (add_comm _ _)
theorem bar_owed2 (c : Dev nD) : Orem c 2 = Orem c 3 + tallyAt (barCell (yp c)) () 1 :=
  (show Orem c 2 = tallyAt (barCell (yp c)) () 1 + Orem c 3 from rfl).trans (add_comm _ _)

theorem bar_pay0 (c : Dev nD) (fz : (cc0_scratch1 : Ref sig .tc).ty.Contents (Elt F)) :
    (bigSep Finset.univ fun k : Fin 8 => zrPts c k fz : sProp 𝕄) ⊢ (Rd (F := F) m).payload (barCell (zp c)) 0 0 := by
  rw [payload_bar]; unfold barPay; rw [if_pos rfl, zp_zp]
  iintro H; iexists fz; iexact H

theorem bar_pay1 (c : Dev nD) (fo : (cc0_stg1_0 : Ref sig .tc).ty.Contents (Elt F)) :
    (iprop((bigSep Finset.univ fun k : Fin 8 => oPts c (xp c) k fullShare fo)
      ∗ (bigSep Finset.univ fun r : Fin 4 => oPts c (xp (yp c)) ⟨r.val, by omega⟩ fullShare fo)) : sProp 𝕄)
      ⊢ (Rd (F := F) m).payload (barCell (xp c)) 0 1 := by
  rw [payload_bar]; unfold barPay; rw [if_neg (by decide), if_pos rfl, xp_xp, ← xp_yp]
  iintro H; iexists fo; iexact H

theorem bar_pay2 (c : Dev nD) (fo : (cc0_stg1_0 : Ref sig .tc).ty.Contents (Elt F)) :
    (iprop((bigSep Finset.univ fun k : Fin 8 => oPts c (yp c) k fullShare fo)
      ∗ (bigSep Finset.univ fun r : Fin 4 => oPts c (xp (yp c)) ⟨r.val + 4, by omega⟩ fullShare fo)) : sProp 𝕄)
      ⊢ (Rd (F := F) m).payload (barCell (yp c)) 0 2 := by
  rw [payload_bar]; unfold barPay; rw [if_neg (by decide), if_neg (by decide), yp_yp]
  iintro H; iexists fo; iexact H

theorem bar_rest (c : Dev nD) :
    (bigSep ((Rd (F := F) m).duties (barCell c) 0 \ ∅) (fun d => (Rd (F := F) m).payload (barCell c) 0 d) : sProp 𝕄)
      ⊢ iprop(barPay (F := F) c 0 ∗ barPay c 1 ∗ barPay c 2) := Entails.of_eq (rest_bar m c)

end Cert.Kernel.RS

end
-- ==== Proof.Bits.Steps.lean ====
import proofs.«901029_g7700000000001030_dist_rs_v7x_xyz2x2x2_z_m2048_n512_bf16_1_alg».proof.Proof.Bits.Stages
import Idealize.ShloMosaic.Lib.Pipeline.Launch

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem chunk_credit (M : Memref sig .tc .vmem S64x512 .bf16) : M.view.dmaCredit = N := rfl

-- Sending one chunk: the source and the neighbour's rows go to the two cells of the transfer, and the sender owes one chunk less.
theorem wp_send_chunk (c c' n : Dev nD) (hn : n = c')
    {src dst : Memref sig .tc .vmem S64x512 .bf16} (sS sR : DmaSem sig) (hS : 2 ≤ sS.val) (hR : 2 ≤ sR.val) (κS κR : ℕ)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (c' : Thread nD τ)))
    (O : CellTallies nD τ sig Unit) (W : Waits sig Unit) (hN : dst.view.dmaCredit = N)
    (hpayS : (src.view.loc (c : Thread nD τ) ↦[src.view.set]{q} fs : sProp 𝕄) ⊢ payDma m c sS)
    (hpayR : (dst.view.loc (c' : Thread nD τ) ↦[dst.view.set]{fullShare} (dst.view.write (Elt F) fd (src.view.read (Elt F) fs) Finset.univ) : sProp 𝕄) ⊢ payDma m c' sR) :
    iprop(cellInv ER (Rd m) κS (dcell c sS) ∗ cellInv ER (Rd m) κR (dcell c' sR)
        ∗ (src.view.loc (c : Thread nD τ) ↦[src.view.set]{q} fs) ∗ (dst.view.loc (c' : Thread nD τ) ↦[dst.view.set]{fullShare} fd)
        ∗ owes (c : Thread nD τ) (O + tallyAt (dcell c' sR) () N) W
        ∗ dutyTok ER (dcell c sS) 0 0 ∗ reached ER (dcell c sS) 0 ∗ dutyTok ER (dcell c' sR) 0 0 ∗ reached ER (dcell c' sR) 0)
      ⊢ iprop(((cred (tallyAt (dcell c sS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  exact wp_send_pointsTo 𝒱₀ ER (Rd m) (c : Thread nD τ) none
    (show (0 : Fin 3) ∈ (Rd (F := F) m).duties (dcell c sS) 0 by rw [duties_dma m c sS hS]; exact Finset.mem_singleton_self 0)
    (show (0 : Fin 3) ∈ (Rd (F := F) m).duties (dcell n sR) 0 by rw [duties_dma m n sR hR]; exact Finset.mem_singleton_self 0)
    () () N hN (amount_dma m c sS 0) (amount_dma m n sR 0) O rfl hpayS hpayR

-- The only arrival on an own cell is one chunk, so the wait for a chunk's worth hands over what that chunk carries.
theorem wp_wait_dma (c : Dev nD) (q : DmaSem sig) (hq : 2 ≤ q.val) (κ : ℕ)
    {a b : Memref sig .tc .vmem S64x512 .bf16} {ha : a.view.WordExact} {hb : b.view.WordExact}
    {α : Type} {Q : α → sProp 𝕄} {k : PUnit → Prog (TpuEff nD τ sig (Elt F) Λ₀ .tc) α}
    (O : CellTallies nD τ sig Unit) (W : Waits sig Unit) (hN : b.view.dmaCredit = N) :
    iprop(cellInv ER (Rd m) κ (dcell c q) ∗ cred (tallyAt (dcell c q) () N) ∗ owes (c : Thread nD τ) O W
        ∗ MayWait (c : Thread nD τ) (.dma q) () O ∗ atPos ER (dcell c q) 0 ∅ 0)
      ⊢ iprop(((owes (c : Thread nD τ) O (insert (SemLoc.dma q, ()) W) ∗ semVal (dcell c q) 0 ∗ payDma m c q)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q a b ha hb) k) Q) := by
  have hw : ∀ K : PUnit → sProp 𝕄, wpE' (defs₀ (F := F)) 𝒱₀ (c : Thread nD τ) none PendingWaitsCtx.empty Set.univ (.waitDma2 q a b ha hb) K
      = waitSpec (c : Thread nD τ) Set.univ (.dma q) N K := fun K => by
    rw [← hN]; exact wpE_waitDma2_eq 𝒱₀ (c : Thread nD τ) none Set.univ K
  iintro ⟨#Hg, Hcr, HL, HM, Hat⟩ Hk
  iapply (wp_wait_rest_token 𝒱₀ ER (Rd m) (c : Thread nD τ) none hw (Set.mem_univ κ) () (O := O) (W := W) (R := 0) (T := ∅) (m := 0)
    (by rw [expect_dma m c q hq, Nat.zero_add])) $$ [$]
  rw [rest_dma m c q hq]
  iintro ⟨HL, Hat, Hr, Hpay⟩
  imod (cell_close ER (Rd m) (Set.mem_univ κ) (fun h => h) (R := 0 + 1) (duties_later m (dcell c q))) $$ [Hat] with Hz
  · isplitr; · iexact Hg
    iexact Hat
  iapply Hk
  iframe

end Cert.Kernel.RS

end
-- ==== Proof.Bits.Landing.lean ====
import proofs.«901029_g7700000000001030_dist_rs_v7x_xyz2x2x2_z_m2048_n512_bf16_1_alg».proof.Proof.Bits.Sched
import Idealize.ShloMosaic.Lib.Pipeline.Value

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem zs_emb_row (k : Fin 8) (y : S64x512.Idx) : (((zsCh k).view.emb y) 0 : ℕ) = 64 * k.val + (y 0).val := by
  show zoff k 0 + 1 * (y 0).val = _
  simp [zoff]

theorem zchunkOf_zs_emb (k : Fin 8) (y : S64x512.Idx) : zchunkOf ((zsCh k).view.emb y) = k := by
  apply Fin.ext
  show (((zsCh k).view.emb y) 0 : ℕ) / 64 = k.val
  rw [zs_emb_row]
  have := (y 0).isLt
  have h64 : (y 0).val < 64 := this
  omega

theorem ZSv_of_chunk (c : Dev nD) (k : Fin 8) (i : S512x512.Idx) (h : zchunkOf i = k) :
    ZSv m c i = (zsM.access (zrect k)).write (Elt F) (dflt cc0_scratch0)
      (zpay (xM.view.readAt (Elt F) (sendRect c k).toLoadRect (X m c))) Finset.univ i := by
  subst h; rfl

theorem zs_store_val (c : Dev nD) (k : Fin 8) (f : (cc0_scratch0 : Ref sig .tc).ty.Contents (Elt F)) :
    zsPts c k ((zsM.access (zrect k)).write (Elt F) f (zpay (xM.view.readAt (Elt F) (sendRect c k).toLoadRect (X m c))) Finset.univ) = zsPts c k (ZSv m c) := by
  unfold zsPts
  refine pointsTo_congr fun i hi => ?_
  obtain ⟨y, rfl⟩ := View.exists_emb_of_mem_set _ hi
  rw [ZSv_of_chunk m c k _ (zchunkOf_zs_emb k y)]
  exact (View.write_emb_of_mem (v := (zsCh k).view) (Val := Elt F) f _ (Finset.mem_univ y)).trans
    (View.write_emb_of_mem (v := (zsCh k).view) (Val := Elt F) (dflt cc0_scratch0) _ (Finset.mem_univ y)).symm

theorem z_land_val (c : Dev nD) (k : Fin 8) (fd : (cc0_scratch1 : Ref sig .tc).ty.Contents (Elt F)) :
    ((zrCh k).view.loc ((zp c : Dev nD) : Thread nD τ) ↦[(zrCh k).view.set]{fullShare} ((zrCh k).view.write (Elt F) fd ((zsCh k).view.read (Elt F) (ZSv m c)) Finset.univ) : sProp 𝕄) = zrPts (zp c) k (ZRv m (zp c)) := by
  unfold zrPts
  refine pointsTo_congr fun i hi => ?_
  obtain ⟨y, rfl⟩ := View.exists_emb_of_mem_set _ hi
  rw [View.write_emb_of_mem (v := (zrCh k).view) (Val := Elt F) fd _ (Finset.mem_univ y), View.read_apply]
  show _ = ZSv m (zp (zp c)) ((zsCh k).view.emb y)
  rw [zp_zp, cast_cast, cast_eq]

theorem o_emb_row (d : Dev nD) (k : Fin 8) (y : S64x512.Idx) :
    (((oCh d k).view.emb y) 0 : ℕ) = rme d + 64 * k.val + (y 0).val := by
  show ooff d k 0 + 1 * (y 0).val = _
  simp [ooff]

theorem ownerOf_o_emb (d : Dev nD) (k : Fin 8) (y : S64x512.Idx) (z : ℕ) (hz : z % 2 = d.val % 2) :
    ownerOf z ((oCh d k).view.emb y) = d := by
  apply Fin.ext
  show (4 * ((((oCh d k).view.emb y) 0 : ℕ) / 1024) + 2 * (((((oCh d k).view.emb y) 0 : ℕ) / 512) % 2) + z % 2) % 8 = d.val
  rw [o_emb_row, hz]
  have h64 : (y 0).val < 64 := (y 0).isLt
  have hk := k.isLt
  have hd : d.val < 8 := d.isLt
  unfold rme
  omega

theorem ochunkOf_o_emb (d : Dev nD) (k : Fin 8) (y : S64x512.Idx) : ochunkOf ((oCh d k).view.emb y) = k := by
  apply Fin.ext
  show ((((oCh d k).view.emb y) 0 : ℕ) % 512) / 64 = k.val
  rw [o_emb_row]
  have h64 : (y 0).val < 64 := (y 0).isLt
  have hk := k.isLt
  have hd : d.val < 8 := d.isLt
  unfold rme
  omega

theorem OUTv_of_chunk (c d : Dev nD) (k : Fin 8) (i : S2048x512.Idx) (hd : ownerOf c.val i = d) (hk : ochunkOf i = k) :
    OUTv m c i = Sv m d k i := by
  subst hd; subst hk; rfl

theorem OUTv_congr (c c' : Dev nD) (hz : c'.val % 2 = c.val % 2) : OUTv m c' = OUTv m c := by
  funext i
  have h : ownerOf c'.val i = ownerOf c.val i := by
    apply Fin.ext
    show (_ + c'.val % 2) % 8 = (_ + c.val % 2) % 8
    rw [hz]
  show Sv m (ownerOf c'.val i) (ochunkOf i) i = Sv m (ownerOf c.val i) (ochunkOf i) i
  rw [h]

theorem out_store_val (c : Dev nD) (k : Fin 8) (f : (cc0_stg1_0 : Ref sig .tc).ty.Contents (Elt F)) :
    oPts c c k fullShare ((oM.access (orect c k)).write (Elt F) f (rpay (xM.view.readAt (Elt F) (keepRect c k).toLoadRect (X m c)) (zrM.view.readAt (Elt F) (zrect k).toLoadRect (ZRv m c))) Finset.univ) = oPts c c k fullShare (OUTv m c) := by
  unfold oPts
  refine pointsTo_congr fun i hi => ?_
  obtain ⟨y, rfl⟩ := View.exists_emb_of_mem_set _ hi
  rw [OUTv_of_chunk m c c k _ (ownerOf_o_emb c k y c.val rfl) (ochunkOf_o_emb c k y)]
  exact (View.write_emb_of_mem (v := (oCh c k).view) (Val := Elt F) f _ (Finset.mem_univ y)).trans
    (View.write_emb_of_mem (v := (oCh c k).view) (Val := Elt F) (dflt cc0_stg1_0) _ (Finset.mem_univ y)).symm

theorem o_land_val (c c' d : Dev nD) (k : Fin 8) (hz : c'.val % 2 = c.val % 2) (fd : (cc0_stg1_0 : Ref sig .tc).ty.Contents (Elt F)) :
    ((oCh d k).view.loc (c' : Thread nD τ) ↦[(oCh d k).view.set]{fullShare} ((oCh d k).view.write (Elt F) fd ((oCh d k).view.read (Elt F) (OUTv m c)) Finset.univ) : sProp 𝕄) = oPts c' d k fullShare (OUTv m c') := by
  unfold oPts
  refine pointsTo_congr fun i hi => ?_
  obtain ⟨y, rfl⟩ := View.exists_emb_of_mem_set _ hi
  rw [View.write_emb_of_mem (v := (oCh d k).view) (Val := Elt F) fd _ (Finset.mem_univ y), View.read_apply,
    OUTv_congr m c c' hz, cast_cast, cast_eq]

end Cert.Kernel.RS

end
-- ==== Proof.Bits.ZIter.lean ====
import proofs.«901029_g7700000000001030_dist_rs_v7x_xyz2x2x2_z_m2048_n512_bf16_1_alg».proof.Proof.Bits.Steps
import proofs.«901029_g7700000000001030_dist_rs_v7x_xyz2x2x2_z_m2048_n512_bf16_1_alg».proof.Proof.Bits.Records
import proofs.«901029_g7700000000001030_dist_rs_v7x_xyz2x2x2_z_m2048_n512_bf16_1_alg».proof.Proof.Bits.Landing
import proofs.«901029_g7700000000001030_dist_rs_v7x_xyz2x2x2_z_m2048_n512_bf16_1_alg».proof.Proof.Bits.Cover
import proofs.«901029_g7700000000001030_dist_rs_v7x_xyz2x2x2_z_m2048_n512_bf16_1_alg».proof.Proof.Bits.Levels

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- Chunk k along z: the columns the device does not keep are stored in the send buffer and sent to the z neighbour.
theorem zIter_spec (K : Dev nD × Fin 65 → ℕ) (c : Dev nD) (k : Fin 8) (i : ℕ)
    (hO : Orem c i = Orem c (i + 1) + tallyAt (dcell (zp c) (zrs k)) () N)
    (o1 : Fin 3 → ℕ) (ho1 : o1 = k0_off1 c (BitVec.ofNat 32 (64 * k.val)))
    (oz : Fin 2 → ℕ) (hoz : oz = zoff k)
    (pay : Vec F S1x64x512 .f32 → FVec F S64x512 .bf16) (hpay : pay = zpay)
    (n : Dev nD) (hn : n = zp c)
    (sS sR : DmaSem sig) (hsS : sS = zss k) (hsR : sR = zrs k)
    {h1 : ∀ a, o1 a + S1x64x512.size a ≤ S1x2048x1024.size a}
    {hz : ∀ a, oz a + S64x512.size a ≤ S512x512.size a}
    {hl1 : (xM : Memref sig .tc .vmem S1x2048x1024 .f32).view.LoadsAt (Rect.unit (s := S1x2048x1024) o1 S1x64x512.size h1).toLoadRect}
    {hl2 : (zsM : Memref sig .tc .vmem S512x512 .bf16).view.LoadsAt (Rect.unit (s := S512x512) oz S64x512.size hz).toLoadRect}
    {hx : ((zsM : Memref sig .tc .vmem S512x512 .bf16).access (Rect.unit (s := S512x512) oz S64x512.size hz)).Stores Finset.univ}
    {hm : (Finset.univ : Finset (Rect.unit (s := S512x512) oz S64x512.size hz).shape.Idx) = Finset.univ ∨ ∀ a, (Rect.unit (s := S512x512) oz S64x512.size hz).stride a = 1}
    {hs1 hs2 : ∀ a, (Rect.unit (s := S512x512) oz S64x512.size hz).stride a = 1}
    {hsc : ((zrM : Memref sig .tc .vmem S512x512 .bf16).slice (Rect.unit (s := S512x512) oz S64x512.size hz) hs2).view.ref.isScScratch = false}
    {hsrc : ((zsM : Memref sig .tc .vmem S512x512 .bf16).slice (Rect.unit (s := S512x512) oz S64x512.size hz) hs1).view.WordExact}
    {hdst : ((zrM : Memref sig .tc .vmem S512x512 .bf16).slice (Rect.unit (s := S512x512) oz S64x512.size hz) hs2).view.WordExact}
    {hsem : DmaTarget.Typed .vmem (.dma sR) (.remote (Dev.tc n : Thread nD τ) ((zrM : Memref sig .tc .vmem S512x512 .bf16).slice (Rect.unit (s := S512x512) oz S64x512.size hz) hs2) (.dma sS) hsc)}
    (f0 : (cc0_scratch0 : Ref sig .tc).ty.Contents (Elt F)) (fz : (cc0_scratch1 : Ref sig .tc).ty.Contents (Elt F)) (W : Waits sig Unit)
    {α : Type} {Q : α → sProp 𝕄} {kk : PUnit → Prog (TpuEff nD τ sig (Elt F) Λ₀ .tc) α} :
    iprop(records m K ∗ Zinit c k f0 fz ∗ xPts m c ∗ owes (c : Thread nD τ) (Orem c i) W)
      ⊢ iprop(((Zsent c k ∗ xPts m c ∗ owes (c : Thread nD τ) (Orem c (i + 1)) W)
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load (xM : Memref sig .tc .vmem S1x2048x1024 .f32) (Rect.unit (s := S1x2048x1024) o1 S1x64x512.size h1).toLoadRect hl1) fun x =>
             .op (.load (zsM : Memref sig .tc .vmem S512x512 .bf16) (Rect.unit (s := S512x512) oz S64x512.size hz).toLoadRect hl2) fun _ =>
             .op (.store (zsM : Memref sig .tc .vmem S512x512 .bf16) (Rect.unit (s := S512x512) oz S64x512.size hz) (pay x) Finset.univ hx hm) fun _ =>
             .op (.enqueueDma ((zsM : Memref sig .tc .vmem S512x512 .bf16).slice (Rect.unit (s := S512x512) oz S64x512.size hz) hs1)
                (.remote (Dev.tc n : Thread nD τ) ((zrM : Memref sig .tc .vmem S512x512 .bf16).slice (Rect.unit (s := S512x512) oz S64x512.size hz) hs2) (.dma sS) hsc)
                (.dma sR) hsrc hdst hsem) kk) Q) := by
  subst ho1 hoz hpay hn hsS hsR
  have hS : 2 ≤ (zss k).val := by show 2 ≤ 2 + k.val; omega
  have hR : 2 ≤ (zrs k).val := by show 2 ≤ 10 + k.val; omega
  have hsub : (zsM : Memref sig .tc .vmem S512x512 .bf16).view.setOn (Rect.unit (s := S512x512) (zoff k) S64x512.size hz).toLoadRect.set ⊆ (zsCh k).view.set :=
    (View.set_slice _ _).ge
  have hpayS : ((zsCh k).view.loc (c : Thread nD τ) ↦[(zsCh k).view.set]{fullShare} ZSv m c : sProp 𝕄) ⊢ payDma m c (zss k) :=
    Entails.of_eq (payDma_zss m c k).symm
  have hpayR : ((zrCh k).view.loc ((zp c : Dev nD) : Thread nD τ) ↦[(zrCh k).view.set]{fullShare} ((zrCh k).view.write (Elt F) fz ((zsCh k).view.read (Elt F) (ZSv m c)) Finset.univ) : sProp 𝕄)
      ⊢ payDma m (zp c) (zrs k) :=
    Entails.of_eq ((z_land_val m c k fz).trans (payDma_zrs m (zp c) k).symm)
  rw [hO]
  unfold Zinit Zsent xPts zsPts zrPts
  iintro ⟨#Hrec, ⟨Hzs, Hzr, HtS, HtR⟩, HX, HL⟩ Hk
  iapply (wp_load 𝒱₀ (c : Thread nD τ) none Set.univ (m := (xM : Memref sig .tc .vmem S1x2048x1024 .f32)) (Finset.subset_univ _)) $$ [HX]
  · iexact HX
  iintro HX
  iapply (wp_load 𝒱₀ (c : Thread nD τ) none Set.univ (m := (zsM : Memref sig .tc .vmem S512x512 .bf16)) hsub) $$ [Hzs]
  · iexact Hzs
  iintro Hzs
  iapply (wp_store 𝒱₀ (c : Thread nD τ) none Set.univ (m := (zsM : Memref sig .tc .vmem S512x512 .bf16)) (r := Rect.unit (s := S512x512) (zoff k) S64x512.size hz) (S := (zsCh k).view.set) (Finset.Subset.refl _)) $$ [Hzs]
  · iexact Hzs
  iintro Hzs
  have e := zs_store_val m c k f0
  unfold zsPts at e
  ihave Hzs' := (Entails.of_eq e) $$ Hzs
  ihave HiS := (records_inv m K c (zss k) hS) $$ Hrec
  ihave HiR := (records_inv m K (zp c) (zrs k) hR) $$ Hrec
  ihave HrS := (records_reached m K c (zss k) hS) $$ Hrec
  ihave HrR := (records_reached m K (zp c) (zrs k) hR) $$ Hrec
  iapply (wp_send_chunk m c (zp c) (zp c) rfl (src := zsCh k) (dst := zrCh k) (zss k) (zrs k) hS hR (K (c, jOf (zss k) hS)) (K (zp c, jOf (zrs k) hR)) fullShare (ZSv m c) fz
    (Orem c (i + 1)) W (chunk_credit _) hpayS hpayR) $$ [$]
  iintro ⟨Hcr, HL⟩
  iapply Hk
  iframe # ∗

end Cert.Kernel.RS

end
-- ==== Proof.Bits.RIter.lean ====
import proofs.«901029_g7700000000001030_dist_rs_v7x_xyz2x2x2_z_m2048_n512_bf16_1_alg».proof.Proof.Bits.Records
import proofs.«901029_g7700000000001030_dist_rs_v7x_xyz2x2x2_z_m2048_n512_bf16_1_alg».proof.Proof.Bits.Landing
import proofs.«901029_g7700000000001030_dist_rs_v7x_xyz2x2x2_z_m2048_n512_bf16_1_alg».proof.Proof.Bits.Cover
import proofs.«901029_g7700000000001030_dist_rs_v7x_xyz2x2x2_z_m2048_n512_bf16_1_alg».proof.Proof.Bits.Levels
import proofs.«901029_g7700000000001030_dist_rs_v7x_xyz2x2x2_z_m2048_n512_bf16_1_alg».proof.Proof.Bits.Steps

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- Chunk k reduced: the neighbour's chunk has landed, the sum is stored as the chunk's final contents, and a half share goes to each of x and y.
theorem rIter_spec (K : Dev nD × Fin 65 → ℕ) (c : Dev nD) (k : Fin 8) (i : ℕ)
    (hO1 : Orem c i = Orem c (i+1) + tallyAt (dcell (xp c) (xrs k)) () N)
    (hO2 : Orem c (i+1) = Orem c (i+2) + tallyAt (dcell (yp c) (yrs k)) () N)
    (hmw : (levAts L lv : sProp 𝕄) ⊢ MayWait (c : Thread nD τ) (.dma (zrs k)) () (Orem c i))
    {o2 : Fin 3 → ℕ} (ho2 : o2 = k0_off2 c (BitVec.ofNat 32 (64 * k.val)))
    {oz o3 o4 o5 : Fin 2 → ℕ} (hoz : oz = zoff k) (ho3 : o3 = ooff c k) (ho4 : o4 = ooff c k) (ho5 : o5 = ooff c k)
    {pay : Vec F S1x64x512 .f32 → Vec F S64x512 .bf16 → FVec F S64x512 .bf16} (hpay : pay = rpay)
    {nx ny : Dev nD} (hnx : nx = xp c) (hny : ny = yp c)
    {szr sxs sxr sys syr : DmaSem sig} (hszr : szr = zrs k) (hsxs : sxs = xss k) (hsxr : sxr = xrs k)
    (hsys : sys = yss k) (hsyr : syr = yrs k)
    {a b : Memref sig .tc .vmem S64x512 .bf16} {ha : a.view.WordExact} {hb : b.view.WordExact}
    {inb2 : ∀ a, o2 a + S1x64x512.size a ≤ S1x2048x1024.size a}
    {hl2 : xM.view.LoadsAt (Rect.unit (s := S1x2048x1024) o2 S1x64x512.size inb2).toLoadRect}
    {inbz : ∀ a, oz a + S64x512.size a ≤ S512x512.size a}
    {hlz : zrM.view.LoadsAt (Rect.unit (s := S512x512) oz S64x512.size inbz).toLoadRect}
    {inb3 : ∀ a, o3 a + S64x512.size a ≤ S2048x512.size a}
    {hl3 : oM.view.LoadsAt (Rect.unit (s := S2048x512) o3 S64x512.size inb3).toLoadRect}
    {hx3 : (oM.access (Rect.unit (s := S2048x512) o3 S64x512.size inb3)).Stores Finset.univ}
    {hm3 : (Finset.univ : Finset (Rect.unit (s := S2048x512) o3 S64x512.size inb3).shape.Idx) = Finset.univ ∨ ∀ a, (Rect.unit (s := S2048x512) o3 S64x512.size inb3).stride a = 1}
    {inb4 : ∀ a, o4 a + S64x512.size a ≤ S2048x512.size a}
    {hs4 : ∀ a, (Rect.unit (s := S2048x512) o4 S64x512.size inb4).stride a = 1}
    {hscx : (oM.slice (Rect.unit (s := S2048x512) o4 S64x512.size inb4) hs4).view.ref.isScScratch = false}
    {hsrcx hdstx : (oM.slice (Rect.unit (s := S2048x512) o4 S64x512.size inb4) hs4).view.WordExact}
    {hsemx : DmaTarget.Typed .vmem (.dma sxr) (.remote (Dev.tc nx : Thread nD τ) (oM.slice (Rect.unit (s := S2048x512) o4 S64x512.size inb4) hs4) (.dma sxs) hscx)}
    {inb5 : ∀ a, o5 a + S64x512.size a ≤ S2048x512.size a}
    {hs5 : ∀ a, (Rect.unit (s := S2048x512) o5 S64x512.size inb5).stride a = 1}
    {hscy : (oM.slice (Rect.unit (s := S2048x512) o5 S64x512.size inb5) hs5).view.ref.isScScratch = false}
    {hsrcy hdsty : (oM.slice (Rect.unit (s := S2048x512) o5 S64x512.size inb5) hs5).view.WordExact}
    {hsemy : DmaTarget.Typed .vmem (.dma syr) (.remote (Dev.tc ny : Thread nD τ) (oM.slice (Rect.unit (s := S2048x512) o5 S64x512.size inb5) hs5) (.dma sys) hscy)}
    (fo fx fy : (cc0_stg1_0 : Ref sig .tc).ty.Contents (Elt F)) (W : Waits sig Unit)
    {α : Type} {Q : α → sProp 𝕄} {kk : PUnit → Prog (TpuEff nD τ sig (Elt F) Λ₀ .tc) α} :
    iprop(records m K ∗ levAts L lv ∗ Rinit c k fo fx fy ∗ xPts m c ∗ owes (c : Thread nD τ) (Orem c i) W)
      ⊢ iprop(((Rsent m c k ∗ xPts m c ∗ ∃ W', owes (c : Thread nD τ) (Orem c (i+2)) W')
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 szr a b ha hb) fun _ =>
             .op (.load xM (Rect.unit (s := S1x2048x1024) o2 S1x64x512.size inb2).toLoadRect hl2) fun x1 =>
             .op (.load zrM (Rect.unit (s := S512x512) oz S64x512.size inbz).toLoadRect hlz) fun x2 =>
             .op (.load oM (Rect.unit (s := S2048x512) o3 S64x512.size inb3).toLoadRect hl3) fun _ =>
             .op (.store oM (Rect.unit (s := S2048x512) o3 S64x512.size inb3) (pay x1 x2) Finset.univ hx3 hm3) fun _ =>
             .op (.enqueueDma (oM.slice (Rect.unit (s := S2048x512) o4 S64x512.size inb4) hs4)
                   (.remote (Dev.tc nx : Thread nD τ) (oM.slice (Rect.unit (s := S2048x512) o4 S64x512.size inb4) hs4) (.dma sxs) hscx)
                   (.dma sxr) hsrcx hdstx hsemx) fun _ =>
             .op (.enqueueDma (oM.slice (Rect.unit (s := S2048x512) o5 S64x512.size inb5) hs5)
                   (.remote (Dev.tc ny : Thread nD τ) (oM.slice (Rect.unit (s := S2048x512) o5 S64x512.size inb5) hs5) (.dma sys) hscy)
                   (.dma syr) hsrcy hdsty hsemy) kk) Q) := by
  subst ho2 hoz ho3 ho4 ho5 hpay hnx hny hszr hsxs hsxr hsys hsyr
  have hzr : 2 ≤ (zrs k).val := by show 2 ≤ 10 + k.val; omega
  have hxs : 2 ≤ (xss k).val := by show 2 ≤ 18 + k.val; omega
  have hxr : 2 ≤ (xrs k).val := by show 2 ≤ 26 + k.val; omega
  have hys : 2 ≤ (yss k).val := by show 2 ≤ 34 + k.val; omega
  have hyr : 2 ≤ (yrs k).val := by show 2 ≤ 42 + k.val; omega
  rw [hO1, hO2] at hmw
  rw [hO1, hO2]
  unfold Rinit Rsent xPts oPts zrPts
  iintro ⟨#Hrec, #Hlev, ⟨Hcr, Hpos, Ho, Hox, Hoy, T1, T2, T3, T4⟩, HX, Hown⟩ Hk
  ihave Hinv := (records_inv m K c (zrs k) hzr) $$ Hrec
  ihave Hmw := hmw $$ Hlev
  iapply (wp_wait_dma m c (zrs k) hzr (K (c, jOf (zrs k) hzr)) _ W (chunk_credit _)) $$ [$]
  iintro ⟨Hown, Hsv, Hzr⟩
  ihave Hzr := (show payDma m c (zrs k) ⊢ ((zrCh k).view.loc (c : Thread nD τ) ↦[(zrCh k).view.set]{fullShare} ZRv m c : sProp 𝕄)
    from Entails.of_eq (payDma_zrs m c k)) $$ Hzr
  iapply (wp_load 𝒱₀ (c : Thread nD τ) none Set.univ (m := xM) (Finset.subset_univ _)) $$ HX
  iintro HX
  iapply (wp_load_rect 𝒱₀ (c : Thread nD τ) none Set.univ (m := zrM) (Finset.Subset.refl _)) $$ Hzr
  iintro Hzr
  iapply (wp_load_rect 𝒱₀ (c : Thread nD τ) none Set.univ (m := oM) (Finset.Subset.refl _)) $$ Ho
  iintro Ho
  have hSo : (oM.access (Rect.unit (s := S2048x512) (ooff c k) S64x512.size inb3)).setOn Finset.univ ⊆ (oCh c k).view.set :=
    Finset.Subset.refl _
  iapply (wp_store 𝒱₀ (c : Thread nD τ) none Set.univ (m := oM) hSo) $$ Ho
  iintro Ho
  ihave Ho : ((oCh c k).view.loc (c : Thread nD τ) ↦[(oCh c k).view.set]{fullShare} OUTv m c) $$ [Ho]
  · iapply (show ((oCh c k).view.loc (c : Thread nD τ) ↦[(oCh c k).view.set]{fullShare}
          ((oM.access (orect c k)).write (Elt F) fo (rpay (xM.view.readAt (Elt F) (keepRect c k).toLoadRect (X m c))
            (zrM.view.readAt (Elt F) (zrect k).toLoadRect (ZRv m c))) Finset.univ) : sProp 𝕄)
        ⊢ ((oCh c k).view.loc (c : Thread nD τ) ↦[(oCh c k).view.set]{fullShare} OUTv m c : sProp 𝕄)
      from Entails.of_eq (out_store_val m c k fo))
    iexact Ho
  ihave Ho := (show ((oCh c k).view.loc (c : Thread nD τ) ↦[(oCh c k).view.set]{fullShare} OUTv m c : sProp 𝕄) ⊢
      iprop(((oCh c k).view.loc (c : Thread nD τ) ↦[(oCh c k).view.set]{fullShare.left} OUTv m c)
        ∗ ((oCh c k).view.loc (c : Thread nD τ) ↦[(oCh c k).view.set]{fullShare.right} OUTv m c))
    from (oPts_halves c c k (OUTv m c)).1) $$ Ho
  icases Ho with ⟨Hol, Hor⟩
  have hpaySx : ((oCh c k).view.loc (c : Thread nD τ) ↦[(oCh c k).view.set]{fullShare.left} OUTv m c : sProp 𝕄) ⊢ payDma m c (xss k) :=
    Entails.of_eq (payDma_xss m c k).symm
  have hpayRx : ((oCh c k).view.loc ((xp c : Dev nD) : Thread nD τ) ↦[(oCh c k).view.set]{fullShare}
      ((oCh c k).view.write (Elt F) fx ((oCh c k).view.read (Elt F) (OUTv m c)) Finset.univ) : sProp 𝕄) ⊢ payDma m (xp c) (xrs k) := by
    rw [payDma_xrs, xp_xp]; exact Entails.of_eq (o_land_val m c (xp c) c k (z_xp c) fx)
  ihave HinvS := (records_inv m K c (xss k) hxs) $$ Hrec
  ihave HinvR := (records_inv m K (xp c) (xrs k) hxr) $$ Hrec
  ihave HrS := (records_reached m K c (xss k) hxs) $$ Hrec
  ihave HrR := (records_reached m K (xp c) (xrs k) hxr) $$ Hrec
  iapply (wp_send_chunk m c (xp c) (xp c) rfl (src := oCh c k) (dst := oCh c k) (xss k) (xrs k) hxs hxr _ _ fullShare.left (OUTv m c) fx
    (Orem c (i + 2) + tallyAt (dcell (yp c) (yrs k)) () N) _ (chunk_credit _) hpaySx hpayRx) $$ [$]
  iintro ⟨Hcx, Hown⟩
  have hpaySy : ((oCh c k).view.loc (c : Thread nD τ) ↦[(oCh c k).view.set]{fullShare.right} OUTv m c : sProp 𝕄) ⊢ payDma m c (yss k) :=
    Entails.of_eq (payDma_yss m c k).symm
  have hpayRy : ((oCh c k).view.loc ((yp c : Dev nD) : Thread nD τ) ↦[(oCh c k).view.set]{fullShare}
      ((oCh c k).view.write (Elt F) fy ((oCh c k).view.read (Elt F) (OUTv m c)) Finset.univ) : sProp 𝕄) ⊢ payDma m (yp c) (yrs k) := by
    rw [payDma_yrs, yp_yp]; exact Entails.of_eq (o_land_val m c (yp c) c k (z_yp c) fy)
  ihave HinvS' := (records_inv m K c (yss k) hys) $$ Hrec
  ihave HinvR' := (records_inv m K (yp c) (yrs k) hyr) $$ Hrec
  ihave HrS' := (records_reached m K c (yss k) hys) $$ Hrec
  ihave HrR' := (records_reached m K (yp c) (yrs k) hyr) $$ Hrec
  iapply (wp_send_chunk m c (yp c) (yp c) rfl (src := oCh c k) (dst := oCh c k) (yss k) (yrs k) hys hyr _ _ fullShare.right (OUTv m c) fy
    (Orem c (i + 2)) _ (chunk_credit _) hpaySy hpayRy) $$ [$]
  iintro ⟨Hcy, Hown⟩
  iapply Hk
  isplitl [Hzr Hsv Hcx Hcy]
  · iframe # ∗
  isplitl [HX]; · iexact HX
  iexists _
  iexact Hown

end Cert.Kernel.RS

end
-- ==== Proof.Bits.XYIter.lean ====
import proofs.«901029_g7700000000001030_dist_rs_v7x_xyz2x2x2_z_m2048_n512_bf16_1_alg».proof.Proof.Bits.Records
import proofs.«901029_g7700000000001030_dist_rs_v7x_xyz2x2x2_z_m2048_n512_bf16_1_alg».proof.Proof.Bits.Landing
import proofs.«901029_g7700000000001030_dist_rs_v7x_xyz2x2x2_z_m2048_n512_bf16_1_alg».proof.Proof.Bits.Cover
import proofs.«901029_g7700000000001030_dist_rs_v7x_xyz2x2x2_z_m2048_n512_bf16_1_alg».proof.Proof.Bits.Steps
import proofs.«901029_g7700000000001030_dist_rs_v7x_xyz2x2x2_z_m2048_n512_bf16_1_alg».proof.Proof.Bits.Levels

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- The wait on an own cell, the cell's payload given as what its table entry says it is.
theorem wait_own (K : Dev nD × Fin 65 → ℕ) (c : Dev nD) (q : DmaSem sig) (hq : 2 ≤ q.val) {P : sProp 𝕄} (hP : payDma m c q = P)
    {a b : Memref sig .tc .vmem S64x512 .bf16} {ha : a.view.WordExact} {hb : b.view.WordExact}
    {α : Type} {Q : α → sProp 𝕄} {kk : PUnit → Prog (TpuEff nD τ sig (Elt F) Λ₀ .tc) α}
    (O : CellTallies nD τ sig Unit) (W : Waits sig Unit) (hN : b.view.dmaCredit = N)
    (hmw : (levAts L lv : sProp 𝕄) ⊢ MayWait (c : Thread nD τ) (.dma q) () O) :
    iprop(records m K ∗ levAts L lv ∗ crN (dcell c q) ∗ pos0 (dcell c q) ∗ owes (c : Thread nD τ) O W)
      ⊢ iprop(((P ∗ semVal (dcell c q) 0 ∗ ∃ W', owes (c : Thread nD τ) O W')
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q a b ha hb) kk) Q) := by
  subst hP
  iintro ⟨#HR, #HL, Hc, Hp, Ho⟩ Hk
  ihave #HI := (records_inv m K c q hq) $$ HR
  ihave #HM := hmw $$ HL
  iapply (wp_wait_dma m c q hq (K (c, jOf q hq)) O W hN) $$ [Hc Hp Ho] [Hk]
  · iframe # ∗
  · iintro ⟨Ho, Hs, Hpay⟩
    iapply Hk
    isplitl [Hpay]; · iexact Hpay
    isplitl [Hs]; · iexact Hs
    iexists _; iexact Ho

theorem wait_done (K : Dev nD × Fin 65 → ℕ) (c : Dev nD) (q : DmaSem sig) (hq : 2 ≤ q.val) {P : sProp 𝕄} (hP : payDma m c q = P)
    {a b : Memref sig .tc .vmem S64x512 .bf16} {ha : a.view.WordExact} {hb : b.view.WordExact}
    {α : Type} {Q : α → sProp 𝕄} {kk : PUnit → Prog (TpuEff nD τ sig (Elt F) Λ₀ .tc) α} (W : Waits sig Unit) :
    iprop(records m K ∗ levAts L lv ∗ crN (dcell c q) ∗ pos0 (dcell c q) ∗ owes (c : Thread nD τ) (Orem c 35) W)
      ⊢ iprop(((P ∗ semVal (dcell c q) 0 ∗ ∃ W', owes (c : Thread nD τ) (Orem c 35) W')
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q a b ha hb) kk) Q) :=
  wait_own m K c q hq hP (Orem c 35) W (chunk_credit _) (mayWait_done c _)

-- A chunk of the diagonal quarter has arrived once both forwards of it have: one wait on each.
theorem d_spec (K : Dev nD × Fin 65 → ℕ) (c : Dev nD) (r : Fin 4) (qx qy : DmaSem sig) (hqx : qx = fxr r) (hqy : qy = fyr r)
    {a1 b1 a2 b2 : Memref sig .tc .vmem S64x512 .bf16}
    {ha1 : a1.view.WordExact} {hb1 : b1.view.WordExact} {ha2 : a2.view.WordExact} {hb2 : b2.view.WordExact}
    {α : Type} {Q : α → sProp 𝕄} {kk : PUnit → Prog (TpuEff nD τ sig (Elt F) Λ₀ .tc) α} (W : Waits sig Unit) :
    iprop(records m K ∗ levAts L lv ∗ Dinit c r ∗ owes (c : Thread nD τ) (Orem c 35) W)
      ⊢ iprop(((Ddone m c r ∗ ∃ W', owes (c : Thread nD τ) (Orem c 35) W') -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 qx a1 b1 ha1 hb1) fun _ => .op (.waitDma2 qy a2 b2 ha2 hb2) kk) Q) := by
  subst hqx; subst hqy
  unfold Dinit
  iintro ⟨#HR, #HL, ⟨Hc1, Hp1, Hc2, Hp2⟩, Ho⟩ Hk
  iapply (wait_done m K c (fxr r) (by show 2 ≤ 54 + r.val; omega) (payDma_fxr m c r) W) $$ [Hc1 Hp1 Ho] [Hk Hc2 Hp2]
  · iframe # ∗
  iintro ⟨Hpay1, Hs1, ⟨%W1, Ho⟩⟩
  iapply (wait_done m K c (fyr r) (by show 2 ≤ 62 + r.val; omega) (payDma_fyr m c r) W1) $$ [Hc2 Hp2 Ho] [Hk Hpay1 Hs1]
  · iframe # ∗
  iintro ⟨Hpay2, Hs2, Ho⟩
  iapply Hk
  isplitr [Ho]
  · unfold Ddone
    iframe # ∗
  · iexact Ho

end Cert.Kernel.RS

end
-- ==== Proof.Bits.XYHi.lean ====
import proofs.«901029_g7700000000001030_dist_rs_v7x_xyz2x2x2_z_m2048_n512_bf16_1_alg».proof.Proof.Bits.XYIter

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem payS_hi (c : Dev nD) (r : Fin 4) (k : Fin 8) (hk : k.val = r.val + 4) :
    (((oCh (xp c) k).view.loc (c : Thread nD τ)) ↦[(oCh (xp c) k).view.set]{fullShare} (OUTv m c) : sProp 𝕄)
      ⊢ payDma m c (fys r) := by
  have h8 : r.val + 4 < 8 := by have := r.isLt; omega
  obtain rfl : k = ⟨r.val + 4, h8⟩ := Fin.ext hk
  rw [payDma_fys]; unfold oPts; exact .rfl

private theorem payR_hi (c : Dev nD) (r : Fin 4) (k : Fin 8) (hk : k.val = r.val + 4) (fy : (cc0_stg1_0 : Ref sig .tc).ty.Contents (Elt F)) :
    (((oCh (xp c) k).view.loc ((yp c : Dev nD) : Thread nD τ)) ↦[(oCh (xp c) k).view.set]{fullShare}
        ((oCh (xp c) k).view.write (Elt F) fy ((oCh (xp c) k).view.read (Elt F) (OUTv m c)) Finset.univ) : sProp 𝕄)
      ⊢ payDma m (yp c) (fyr r) := by
  have h8 : r.val + 4 < 8 := by have := r.isLt; omega
  obtain rfl : k = ⟨r.val + 4, h8⟩ := Fin.ext hk
  rw [payDma_fyr, yp_yp, o_land_val m c (yp c) (xp c) _ (z_yp c) fy]

private theorem payS_lo (c : Dev nD) (r : Fin 4) (k : Fin 8) (hk : k.val = r.val) :
    (((oCh (yp c) k).view.loc (c : Thread nD τ)) ↦[(oCh (yp c) k).view.set]{fullShare} (OUTv m c) : sProp 𝕄)
      ⊢ payDma m c (fxs r) := by
  have h8 : r.val < 8 := by have := r.isLt; omega
  obtain rfl : k = ⟨r.val, h8⟩ := Fin.ext hk
  rw [payDma_fxs]; unfold oPts; exact .rfl

private theorem payR_lo (c : Dev nD) (r : Fin 4) (k : Fin 8) (hk : k.val = r.val) (fx : (cc0_stg1_0 : Ref sig .tc).ty.Contents (Elt F)) :
    (((oCh (yp c) k).view.loc ((xp c : Dev nD) : Thread nD τ)) ↦[(oCh (yp c) k).view.set]{fullShare}
        ((oCh (yp c) k).view.write (Elt F) fx ((oCh (yp c) k).view.read (Elt F) (OUTv m c)) Finset.univ) : sProp 𝕄)
      ⊢ payDma m (xp c) (fxr r) := by
  have h8 : r.val < 8 := by have := r.isLt; omega
  obtain rfl : k = ⟨r.val, h8⟩ := Fin.ext hk
  rw [payDma_fxr, xp_yp, xp_xp, o_land_val m c (xp c) (yp c) _ (z_xp c) fx]

-- Chunks 4 to 7: what arrives along x is forwarded along y.
theorem xyHi_spec (K : Dev nD × Fin 65 → ℕ) (c : Dev nD) (r : Fin 4) (k : Fin 8) (hk : k.val = r.val + 4) (i j : ℕ)
    (qx qy sfs sfr : DmaSem sig) (hqx : qx = xrs k) (hqy : qy = yrs k) (hsfs : sfs = fys r) (hsfr : sfr = fyr r)
    (ny : Dev nD) (hny : ny = yp c) (o : Fin 2 → ℕ) (ho : o = ooff (xp c) k)
    {inb : ∀ a, o a + S64x512.size a ≤ S2048x512.size a}
    {hst : ∀ a, (Rect.unit (s := S2048x512) o S64x512.size inb).stride a = 1}
    {hsc : (oM.slice (Rect.unit (s := S2048x512) o S64x512.size inb) hst).view.ref.isScScratch = false}
    {hsrc : (oM.slice (Rect.unit (s := S2048x512) o S64x512.size inb) hst).view.WordExact}
    {hdst : (oM.slice (Rect.unit (s := S2048x512) o S64x512.size inb) hst).view.WordExact}
    {hsem : DmaTarget.Typed .vmem (.dma sfr) (.remote (Dev.tc ny : Thread nD τ) (oM.slice (Rect.unit (s := S2048x512) o S64x512.size inb) hst) (.dma sfs) hsc)}
    {a1 b1 a2 b2 : Memref sig .tc .vmem S64x512 .bf16}
    {ha1 : a1.view.WordExact} {hb1 : b1.view.WordExact} {ha2 : a2.view.WordExact} {hb2 : b2.view.WordExact}
    {α : Type} {Q : α → sProp 𝕄} {kk : PUnit → Prog (TpuEff nD τ sig (Elt F) Λ₀ .tc) α}
    (fy : (cc0_stg1_0 : Ref sig .tc).ty.Contents (Elt F)) (W : Waits sig Unit)
    (hO : Orem c i = Orem c j + tallyAt (dcell (yp c) (fyr r)) () N)
    (hmw1 : (levAts L lv : sProp 𝕄) ⊢ MayWait (c : Thread nD τ) (.dma qx) () (Orem c i))
    (hmw2 : (levAts L lv : sProp 𝕄) ⊢ MayWait (c : Thread nD τ) (.dma qy) () (Orem c j)) :
    iprop(records m K ∗ levAts L lv ∗ XYinitHi c r fy ∗ owes (c : Thread nD τ) (Orem c i) W)
      ⊢ iprop(((XYdoneHi m c r ∗ ∃ W', owes (c : Thread nD τ) (Orem c j) W') -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 qx a1 b1 ha1 hb1) fun _ =>
               .op (.enqueueDma (oM.slice (Rect.unit (s := S2048x512) o S64x512.size inb) hst)
                      (.remote (Dev.tc ny : Thread nD τ) (oM.slice (Rect.unit (s := S2048x512) o S64x512.size inb) hst) (.dma sfs) hsc)
                      (.dma sfr) hsrc hdst hsem) fun _ =>
               .op (.waitDma2 qy a2 b2 ha2 hb2) kk) Q) := by
  have h8 : r.val + 4 < 8 := by have := r.isLt; omega
  obtain rfl : k = ⟨r.val + 4, h8⟩ := Fin.ext hk
  subst hqx; subst hqy; subst hsfs; subst hsfr; subst ho
  unfold XYinitHi
  iintro ⟨#HR, #HL, ⟨Hcx, Hpx, Hcy, Hpy, Hdst, Hts, Htr⟩, Ho⟩ Hk
  iapply (wait_own m K c _ (by show 2 ≤ 26 + (r.val + 4); omega) (payDma_xrs m c _) (Orem c i) W (chunk_credit _) hmw1) $$ [Hcx Hpx Ho] [Hk Hcy Hpy Hdst Hts Htr]
  · iframe # ∗
  iintro ⟨Hsrc, Hsx, ⟨%W1, Ho⟩⟩
  rw [hO]
  have hS : 2 ≤ (fys r).val := by show 2 ≤ 58 + r.val; omega
  have hR : 2 ≤ (fyr r).val := by show 2 ≤ 62 + r.val; omega
  ihave #HIs := (records_inv m K c (fys r) hS) $$ HR
  ihave #HIr := (records_inv m K (yp c) (fyr r) hR) $$ HR
  ihave #HRs := (records_reached m K c (fys r) hS) $$ HR
  ihave #HRr := (records_reached m K (yp c) (fyr r) hR) $$ HR
  unfold oPts
  iapply (wp_send_chunk m c (yp c) ny hny (src := oCh (xp c) ⟨r.val + 4, h8⟩) (dst := oCh (xp c) ⟨r.val + 4, h8⟩) (fys r) (fyr r) hS hR
      (K (c, jOf (fys r) hS)) (K (yp c, jOf (fyr r) hR)) fullShare (OUTv m c) fy (Orem c j) W1 (chunk_credit _)
      (payS_hi m c r _ rfl) (payR_hi m c r _ rfl fy)) $$ [Hsrc Hdst Ho Hts Htr] [Hk Hcy Hpy Hsx]
  · iframe # ∗
  iintro ⟨Hcs, Ho⟩
  iapply (wait_own m K c _ (by show 2 ≤ 42 + (r.val + 4); omega) (payDma_yrs m c _) (Orem c j) W1 (chunk_credit _) hmw2) $$ [Hcy Hpy Ho] [Hk Hsx Hcs]
  · iframe # ∗
  iintro ⟨Hy, Hsy, Ho⟩
  iapply Hk
  isplitr [Ho]
  · unfold XYdoneHi
    iframe # ∗
  · iexact Ho

-- Chunks 0 to 3: what arrives along y is forwarded along x.
theorem xyLo_spec (K : Dev nD × Fin 65 → ℕ) (c : Dev nD) (r : Fin 4) (k : Fin 8) (hk : k.val = r.val) (i j : ℕ)
    (qx qy sfs sfr : DmaSem sig) (hqx : qx = xrs k) (hqy : qy = yrs k) (hsfs : sfs = fxs r) (hsfr : sfr = fxr r)
    (nx : Dev nD) (hnx : nx = xp c) (o : Fin 2 → ℕ) (ho : o = ooff (yp c) k)
    {inb : ∀ a, o a + S64x512.size a ≤ S2048x512.size a}
    {hst : ∀ a, (Rect.unit (s := S2048x512) o S64x512.size inb).stride a = 1}
    {hsc : (oM.slice (Rect.unit (s := S2048x512) o S64x512.size inb) hst).view.ref.isScScratch = false}
    {hsrc : (oM.slice (Rect.unit (s := S2048x512) o S64x512.size inb) hst).view.WordExact}
    {hdst : (oM.slice (Rect.unit (s := S2048x512) o S64x512.size inb) hst).view.WordExact}
    {hsem : DmaTarget.Typed .vmem (.dma sfr) (.remote (Dev.tc nx : Thread nD τ) (oM.slice (Rect.unit (s := S2048x512) o S64x512.size inb) hst) (.dma sfs) hsc)}
    {a1 b1 a2 b2 : Memref sig .tc .vmem S64x512 .bf16}
    {ha1 : a1.view.WordExact} {hb1 : b1.view.WordExact} {ha2 : a2.view.WordExact} {hb2 : b2.view.WordExact}
    {α : Type} {Q : α → sProp 𝕄} {kk : PUnit → Prog (TpuEff nD τ sig (Elt F) Λ₀ .tc) α}
    (fx : (cc0_stg1_0 : Ref sig .tc).ty.Contents (Elt F)) (W : Waits sig Unit)
    (hO : Orem c i = Orem c j + tallyAt (dcell (xp c) (fxr r)) () N)
    (hmw1 : (levAts L lv : sProp 𝕄) ⊢ MayWait (c : Thread nD τ) (.dma qx) () (Orem c i))
    (hmw2 : (levAts L lv : sProp 𝕄) ⊢ MayWait (c : Thread nD τ) (.dma qy) () (Orem c i)) :
    iprop(records m K ∗ levAts L lv ∗ XYinitLo c r fx ∗ owes (c : Thread nD τ) (Orem c i) W)
      ⊢ iprop(((XYdoneLo m c r ∗ ∃ W', owes (c : Thread nD τ) (Orem c j) W') -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 qx a1 b1 ha1 hb1) fun _ =>
               .op (.waitDma2 qy a2 b2 ha2 hb2) fun _ =>
               .op (.enqueueDma (oM.slice (Rect.unit (s := S2048x512) o S64x512.size inb) hst)
                      (.remote (Dev.tc nx : Thread nD τ) (oM.slice (Rect.unit (s := S2048x512) o S64x512.size inb) hst) (.dma sfs) hsc)
                      (.dma sfr) hsrc hdst hsem) kk) Q) := by
  have h8 : r.val < 8 := by have := r.isLt; omega
  obtain rfl : k = ⟨r.val, h8⟩ := Fin.ext hk
  subst hqx; subst hqy; subst hsfs; subst hsfr; subst ho
  unfold XYinitLo
  iintro ⟨#HR, #HL, ⟨Hcx, Hpx, Hcy, Hpy, Hdst, Hts, Htr⟩, Ho⟩ Hk
  iapply (wait_own m K c _ (by show 2 ≤ 26 + r.val; omega) (payDma_xrs m c _) (Orem c i) W (chunk_credit _) hmw1) $$ [Hcx Hpx Ho] [Hk Hcy Hpy Hdst Hts Htr]
  · iframe # ∗
  iintro ⟨Hx, Hsx, ⟨%W1, Ho⟩⟩
  iapply (wait_own m K c _ (by show 2 ≤ 42 + r.val; omega) (payDma_yrs m c _) (Orem c i) W1 (chunk_credit _) hmw2) $$ [Hcy Hpy Ho] [Hk Hsx Hx Hdst Hts Htr]
  · iframe # ∗
  iintro ⟨Hsrc, Hsy, ⟨%W2, Ho⟩⟩
  rw [hO]
  have hS : 2 ≤ (fxs r).val := by show 2 ≤ 50 + r.val; omega
  have hR : 2 ≤ (fxr r).val := by show 2 ≤ 54 + r.val; omega
  ihave #HIs := (records_inv m K c (fxs r) hS) $$ HR
  ihave #HIr := (records_inv m K (xp c) (fxr r) hR) $$ HR
  ihave #HRs := (records_reached m K c (fxs r) hS) $$ HR
  ihave #HRr := (records_reached m K (xp c) (fxr r) hR) $$ HR
  unfold oPts
  iapply (wp_send_chunk m c (xp c) nx hnx (src := oCh (yp c) ⟨r.val, h8⟩) (dst := oCh (yp c) ⟨r.val, h8⟩) (fxs r) (fxr r) hS hR
      (K (c, jOf (fxs r) hS)) (K (xp c, jOf (fxr r) hR)) fullShare (OUTv m c) fx (Orem c j) W2 (chunk_credit _)
      (payS_lo m c r _ rfl) (payR_lo m c r _ rfl fx)) $$ [Hsrc Hdst Ho Hts Htr] [Hk Hsx Hsy Hx]
  · iframe # ∗
  iintro ⟨Hcs, Ho⟩
  iapply Hk
  isplitr [Ho]
  · unfold XYdoneLo oPts
    iframe # ∗
  · iexists _; iexact Ho

end Cert.Kernel.RS

end
-- ==== Proof.Bits.BodyOb.lean ====
import proofs.«901029_g7700000000001030_dist_rs_v7x_xyz2x2x2_z_m2048_n512_bf16_1_alg».proof.Proof.Bits.Regroup2
import proofs.«901029_g7700000000001030_dist_rs_v7x_xyz2x2x2_z_m2048_n512_bf16_1_alg».proof.Proof.Bits.Bar
import proofs.«901029_g7700000000001030_dist_rs_v7x_xyz2x2x2_z_m2048_n512_bf16_1_alg».proof.Proof.Bits.ZIter
import proofs.«901029_g7700000000001030_dist_rs_v7x_xyz2x2x2_z_m2048_n512_bf16_1_alg».proof.Proof.Bits.RIter
import proofs.«901029_g7700000000001030_dist_rs_v7x_xyz2x2x2_z_m2048_n512_bf16_1_alg».proof.Proof.Bits.XYHi
import proofs.«901029_g7700000000001030_dist_rs_v7x_xyz2x2x2_z_m2048_n512_bf16_1_alg».proof.Proof.Bits.XYIter
import proofs.«901029_g7700000000001030_dist_rs_v7x_xyz2x2x2_z_m2048_n512_bf16_1_alg».proof.Proof.Bits.Levels
import proofs.«901029_g7700000000001030_dist_rs_v7x_xyz2x2x2_z_m2048_n512_bf16_1_alg».proof.Proof.Gen.Kernel.Skeleton
import proofs.«901029_g7700000000001030_dist_rs_v7x_xyz2x2x2_z_m2048_n512_bf16_1_alg».proof.Proof.Gen.Kernel.Points

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem xPts_eq (c : Dev nD) : xPts m c = ((((c : Thread nD τ).loc cc0_stg0_0) ↦{fullShare} X m c) : sProp 𝕄) := rfl

theorem fetch_0 (t : Fin cfg0.N) : (cfg0.win (0 : Fin 2)).fetch t = true := fetch0_0 t

def bodyPre (K : Dev nD × Fin 65 → ℕ) (c : Dev nD) : sProp 𝕄 :=
  iprop((ghost m K c ∗ creds c ∗ levAts L lv
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ m c ∗ (dats m 0 c).owesAt () t0_0.succ ∗ stg c cc0_stg0_0 (X m c) ∗ stg c cc0_stg1_0 (OUTv m c))

-- The body chunk by chunk in program order: every chunk of every buffer is written once and read only after the wait for it.
set_option maxRecDepth 65536 in
set_option maxHeartbeats 8000000 in
theorem sound_body (K : Dev nD × Fin 65 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7 cc0_scratch8 cc0_scratch9 cc0_scratch10 cc0_scratch11) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, semSignalWord, semWaitWord, Prog.lift, Prog.bind_op, Prog.bind_ret, Prog.pure_eq_ret, wp_deviceId]
  unfold bodyPre ghost
  iintro ⟨⟨⟨⟨#HR, Hpos, Htok⟩, Hcr, #Hlev, ⟨%f0, Hzs⟩, ⟨%fz0, Hzr⟩⟩, Ho, ⟨%d0, %g0, %hg0, Hx⟩, ⟨%d1, %g1, %hg1, Hout⟩⟩, Hk⟩
  have hx : g0 = X m c := by rw [hg0]; unfold Dat.before; rw [if_pos (fetch_0 t0_0)]; rfl
  subst hx
  unfold Dat.owesAt Pipeline.owesWithin
  icases Ho with ⟨%W, %hW, HO⟩
  rw [show (dats m 0 c).owed t0_0.castSucc = Orem c 0 from rfl]
  ihave Hpos' := ((positions_split c).mp) $$ Hpos
  icases Hpos' with ⟨HposB, HposD⟩
  ihave Htok' := (Entails.of_eq (payToks_eq c)) $$ Htok
  icases Htok' with ⟨Ht1, Ht2, Ht3, HtokD⟩
  ihave Hcr' := (Entails.of_eq (creds_eq c)) $$ Hcr
  icases Hcr' with ⟨HcrB, HcrD⟩
  ihave Hzs' := ((zs_split c f0).mp) $$ Hzs
  ihave Hzr' := ((zr_split c fz0).mp) $$ Hzr
  ihave Hout' := ((out_split c g1).mp) $$ Hout
  icases Hout' with ⟨HoMe, HoX, HoY, HoD⟩
  ihave HoD' := (Entails.of_eq (bigSep_halves _)) $$ HoD
  icases HoD' with ⟨HoDlo, HoDhi⟩
  simp only [dev1_eq c, dev2_eq c, dev3_eq c]
  iapply (Rounds.wp_signal 𝒱₀ ER (Rd m) (c : Thread nD τ) none (dst := ((zp c : Dev nD) : Thread nD τ)) (sem := barS) (r := 0) (d := 0)
      (κ := K (zp c, 0)) (by rw [duties_bar]; exact Finset.mem_univ _) ((amount_bar m (zp c) 0).trans (by decide)) () (Orem c 1) (bar_owed0 c)) $$ [HO Ht1 Hzr']
  · isplitr; · iapply (records_inv_bar m K (zp c)); iexact HR
    isplitl [HO]; · iexact HO
    isplitl [Ht1]; · iexact Ht1
    isplitl [Hzr']; · iapply (bar_pay0 m c fz0); iexact Hzr'
    iapply (records_reached_bar m K (zp c)); iexact HR
  iintro HO
  iapply (Rounds.wp_signal 𝒱₀ ER (Rd m) (c : Thread nD τ) none (dst := ((xp c : Dev nD) : Thread nD τ)) (sem := barS) (r := 0) (d := 1)
      (κ := K (xp c, 0)) (by rw [duties_bar]; exact Finset.mem_univ _) ((amount_bar m (xp c) 1).trans (by decide)) () (Orem c 2) (bar_owed1 c)) $$ [HO Ht2 HoX HoDlo]
  · isplitr; · iapply (records_inv_bar m K (xp c)); iexact HR
    isplitl [HO]; · iexact HO
    isplitl [Ht2]; · iexact Ht2
    isplitl [HoX HoDlo]
    · iapply (bar_pay1 m c g1)
      iframe # ∗
    iapply (records_reached_bar m K (xp c)); iexact HR
  iintro HO
  iapply (Rounds.wp_signal 𝒱₀ ER (Rd m) (c : Thread nD τ) none (dst := ((yp c : Dev nD) : Thread nD τ)) (sem := barS) (r := 0) (d := 2)
      (κ := K (yp c, 0)) (by rw [duties_bar]; exact Finset.mem_univ _) ((amount_bar m (yp c) 2).trans (by decide)) () (Orem c 3) (bar_owed2 c)) $$ [HO Ht3 HoY HoDhi]
  · isplitr; · iapply (records_inv_bar m K (yp c)); iexact HR
    isplitl [HO]; · iexact HO
    isplitl [Ht3]; · iexact Ht3
    isplitl [HoY HoDhi]
    · iapply (bar_pay2 m c g1)
      iframe # ∗
    iapply (records_reached_bar m K (yp c)); iexact HR
  iintro HO
  iapply (Rounds.wp_wait_rest_token 𝒱₀ ER (Rd m) (c : Thread nD τ) none (sm := .reg barS) (κ := K (c, 0))
      (wpE_semWait_eq 𝒱₀ (c : Thread nD τ) none Set.univ) (Set.mem_univ _) () (O := Orem c 3) (W := W) (R := 0) (m := 0) (T := ∅)
      (by rw [expect_bar]; decide)) $$ [HcrB HO HposB]
  · isplitr; · iapply (records_inv_bar m K c); iexact HR
    isplitl [HcrB]; · iexact HcrB
    isplitl [HO]; · iexact HO
    isplitr; · iapply (mayWait_bar c); iexact Hlev
    iexact HposB
  iintro ⟨HO, -, -, Hpay⟩
  ihave HB := (bar_rest m c) $$ Hpay
  ihave HS := (S1_intro c f0 g1) $$ [HposD HtokD HcrD Hzs' HoMe HB]
  · iframe # ∗
  icases HS with ⟨%fz, %fx, %fy, HS⟩
  unfold S1
  icases HS with ⟨HZ, HRi, HXh, HXl, HD, Hpz, Hpx, Hpy, Hpfy, Hpfx⟩
  ihave Hx1 := (Entails.of_eq (xPts_eq m c).symm) $$ Hx
  ihave HZ' := (Entails.of_eq (bigSep_fin8 _)) $$ HZ
  icases HZ' with ⟨Z0, Z1, Z2, Z3, Z4, Z5, Z6, Z7⟩
  iapply (zIter_spec m K c 4 3 (Orem_at c 3 _ _ rfl) _ rfl _ rfl _ rfl _ (dev4_eq c) _ _ rfl rfl f0 fz _) $$ [Z4 Hx1 HO]
  · iframe # ∗
  iintro ⟨Sz4, Hx1, HO⟩
  iapply (zIter_spec m K c 0 4 (Orem_at c 4 _ _ rfl) _ rfl _ rfl _ rfl _ (dev5_eq c) _ _ rfl rfl f0 fz _) $$ [Z0 Hx1 HO]
  · iframe # ∗
  iintro ⟨Sz0, Hx1, HO⟩
  iapply (zIter_spec m K c 5 5 (Orem_at c 5 _ _ rfl) _ rfl _ rfl _ rfl _ (dev6_eq c) _ _ rfl rfl f0 fz _) $$ [Z5 Hx1 HO]
  · iframe # ∗
  iintro ⟨Sz5, Hx1, HO⟩
  iapply (zIter_spec m K c 1 6 (Orem_at c 6 _ _ rfl) _ rfl _ rfl _ rfl _ (dev7_eq c) _ _ rfl rfl f0 fz _) $$ [Z1 Hx1 HO]
  · iframe # ∗
  iintro ⟨Sz1, Hx1, HO⟩
  iapply (zIter_spec m K c 6 7 (Orem_at c 7 _ _ rfl) _ rfl _ rfl _ rfl _ (dev8_eq c) _ _ rfl rfl f0 fz _) $$ [Z6 Hx1 HO]
  · iframe # ∗
  iintro ⟨Sz6, Hx1, HO⟩
  iapply (zIter_spec m K c 2 8 (Orem_at c 8 _ _ rfl) _ rfl _ rfl _ rfl _ (dev9_eq c) _ _ rfl rfl f0 fz _) $$ [Z2 Hx1 HO]
  · iframe # ∗
  iintro ⟨Sz2, Hx1, HO⟩
  iapply (zIter_spec m K c 7 9 (Orem_at c 9 _ _ rfl) _ rfl _ rfl _ rfl _ (dev10_eq c) _ _ rfl rfl f0 fz _) $$ [Z7 Hx1 HO]
  · iframe # ∗
  iintro ⟨Sz7, Hx1, HO⟩
  iapply (zIter_spec m K c 3 10 (Orem_at c 10 _ _ rfl) _ rfl _ rfl _ rfl _ (dev11_eq c) _ _ rfl rfl f0 fz _) $$ [Z3 Hx1 HO]
  · iframe # ∗
  iintro ⟨Sz3, Hx1, HO⟩
  ihave HZs : (bigSep Finset.univ fun k : Fin 8 => Zsent (F := F) c k) $$ [Sz0 Sz1 Sz2 Sz3 Sz4 Sz5 Sz6 Sz7]
  · rw [bigSep_fin8]; iframe
  ihave HRi' := (Entails.of_eq (bigSep_fin8 _)) $$ HRi
  icases HRi' with ⟨R0, R1, R2, R3, R4, R5, R6, R7⟩
  iapply (rIter_spec m K c 4 11 (Orem_at c 11 _ _ rfl) (Orem_at c 12 _ _ rfl) (mayWait_zrs c 4 11 (by decide))
    rfl rfl (off3_eq c 4) (off4_eq c 4) (off4_eq c 4) rfl (dev12_eq c) (dev13_eq c) rfl rfl rfl rfl rfl g1 fx fy _) $$ [R4 Hx1 HO]
  · iframe # ∗
  iintro ⟨T4, Hx1, ⟨%Wr0, HO⟩⟩
  iapply (rIter_spec m K c 0 13 (Orem_at c 13 _ _ rfl) (Orem_at c 14 _ _ rfl) (mayWait_zrs c 0 13 (by decide))
    rfl rfl (off3_eq c 0) (off4_eq c 0) (off4_eq c 0) rfl (dev14_eq c) (dev15_eq c) rfl rfl rfl rfl rfl g1 fx fy _) $$ [R0 Hx1 HO]
  · iframe # ∗
  iintro ⟨T0, Hx1, ⟨%Wr1, HO⟩⟩
  iapply (rIter_spec m K c 5 15 (Orem_at c 15 _ _ rfl) (Orem_at c 16 _ _ rfl) (mayWait_zrs c 5 15 (by decide))
    rfl rfl (off3_eq c 5) (off4_eq c 5) (off4_eq c 5) rfl (dev16_eq c) (dev17_eq c) rfl rfl rfl rfl rfl g1 fx fy _) $$ [R5 Hx1 HO]
  · iframe # ∗
  iintro ⟨T5, Hx1, ⟨%Wr2, HO⟩⟩
  iapply (rIter_spec m K c 1 17 (Orem_at c 17 _ _ rfl) (Orem_at c 18 _ _ rfl) (mayWait_zrs c 1 17 (by decide))
    rfl rfl (off3_eq c 1) (off4_eq c 1) (off4_eq c 1) rfl (dev18_eq c) (dev19_eq c) rfl rfl rfl rfl rfl g1 fx fy _) $$ [R1 Hx1 HO]
  · iframe # ∗
  iintro ⟨T1, Hx1, ⟨%Wr3, HO⟩⟩
  iapply (rIter_spec m K c 6 19 (Orem_at c 19 _ _ rfl) (Orem_at c 20 _ _ rfl) (mayWait_zrs c 6 19 (by decide))
    rfl rfl (off3_eq c 6) (off4_eq c 6) (off4_eq c 6) rfl (dev20_eq c) (dev21_eq c) rfl rfl rfl rfl rfl g1 fx fy _) $$ [R6 Hx1 HO]
  · iframe # ∗
  iintro ⟨T6, Hx1, ⟨%Wr4, HO⟩⟩
  iapply (rIter_spec m K c 2 21 (Orem_at c 21 _ _ rfl) (Orem_at c 22 _ _ rfl) (mayWait_zrs c 2 21 (by decide))
    rfl rfl (off3_eq c 2) (off4_eq c 2) (off4_eq c 2) rfl (dev22_eq c) (dev23_eq c) rfl rfl rfl rfl rfl g1 fx fy _) $$ [R2 Hx1 HO]
  · iframe # ∗
  iintro ⟨T2, Hx1, ⟨%Wr5, HO⟩⟩
  iapply (rIter_spec m K c 7 23 (Orem_at c 23 _ _ rfl) (Orem_at c 24 _ _ rfl) (mayWait_zrs c 7 23 (by decide))
    rfl rfl (off3_eq c 7) (off4_eq c 7) (off4_eq c 7) rfl (dev24_eq c) (dev25_eq c) rfl rfl rfl rfl rfl g1 fx fy _) $$ [R7 Hx1 HO]
  · iframe # ∗
  iintro ⟨T7, Hx1, ⟨%Wr6, HO⟩⟩
  iapply (rIter_spec m K c 3 25 (Orem_at c 25 _ _ rfl) (Orem_at c 26 _ _ rfl) (mayWait_zrs c 3 25 (by decide))
    rfl rfl (off3_eq c 3) (off4_eq c 3) (off4_eq c 3) rfl (dev26_eq c) (dev27_eq c) rfl rfl rfl rfl rfl g1 fx fy _) $$ [R3 Hx1 HO]
  · iframe # ∗
  iintro ⟨T3, Hx1, ⟨%Wr7, HO⟩⟩
  ihave HRs : (bigSep Finset.univ fun k : Fin 8 => Rsent m c k) $$ [T0 T1 T2 T3 T4 T5 T6 T7]
  · rw [bigSep_fin8]; iframe
  ihave HXh' := (Entails.of_eq (bigSep_fin4 _)) $$ HXh
  icases HXh' with ⟨Hh0, Hh1, Hh2, Hh3⟩
  ihave HXl' := (Entails.of_eq (bigSep_fin4 _)) $$ HXl
  icases HXl' with ⟨Hl0, Hl1, Hl2, Hl3⟩
  iapply (xyHi_spec m K c 0 4 rfl 27 28 (xrs 4) (yrs 4) (fys 0) (fyr 0) rfl rfl rfl rfl _ (dev28_eq c) _ (off5_eq c 0) fy _
      (Orem_at c 27 _ _ rfl) (mayWait_xrs c 4 27 (by decide)) (mayWait_yrs c 4 28 (by decide))) $$ [Hh0 HO]
  · iframe # ∗
  iintro ⟨Dh0, ⟨%Wh0, HO⟩⟩
  iapply (xyLo_spec m K c 0 0 rfl 28 29 (xrs 0) (yrs 0) (fxs 0) (fxr 0) rfl rfl rfl rfl _ (dev29_eq c) _ (off6_eq c 0) fx _
      (Orem_at c 28 _ _ rfl) (mayWait_xrs c 0 28 (by decide)) (mayWait_yrs c 0 28 (by decide))) $$ [Hl0 HO]
  · iframe # ∗
  iintro ⟨Dl0, ⟨%Wl0, HO⟩⟩
  iapply (xyHi_spec m K c 1 5 rfl 29 30 (xrs 5) (yrs 5) (fys 1) (fyr 1) rfl rfl rfl rfl _ (dev30_eq c) _ (off5_eq c 1) fy _
      (Orem_at c 29 _ _ rfl) (mayWait_xrs c 5 29 (by decide)) (mayWait_yrs c 5 30 (by decide))) $$ [Hh1 HO]
  · iframe # ∗
  iintro ⟨Dh1, ⟨%Wh1, HO⟩⟩
  iapply (xyLo_spec m K c 1 1 rfl 30 31 (xrs 1) (yrs 1) (fxs 1) (fxr 1) rfl rfl rfl rfl _ (dev31_eq c) _ (off6_eq c 1) fx _
      (Orem_at c 30 _ _ rfl) (mayWait_xrs c 1 30 (by decide)) (mayWait_yrs c 1 30 (by decide))) $$ [Hl1 HO]
  · iframe # ∗
  iintro ⟨Dl1, ⟨%Wl1, HO⟩⟩
  iapply (xyHi_spec m K c 2 6 rfl 31 32 (xrs 6) (yrs 6) (fys 2) (fyr 2) rfl rfl rfl rfl _ (dev32_eq c) _ (off5_eq c 2) fy _
      (Orem_at c 31 _ _ rfl) (mayWait_xrs c 6 31 (by decide)) (mayWait_yrs c 6 32 (by decide))) $$ [Hh2 HO]
  · iframe # ∗
  iintro ⟨Dh2, ⟨%Wh2, HO⟩⟩
  iapply (xyLo_spec m K c 2 2 rfl 32 33 (xrs 2) (yrs 2) (fxs 2) (fxr 2) rfl rfl rfl rfl _ (dev33_eq c) _ (off6_eq c 2) fx _
      (Orem_at c 32 _ _ rfl) (mayWait_xrs c 2 32 (by decide)) (mayWait_yrs c 2 32 (by decide))) $$ [Hl2 HO]
  · iframe # ∗
  iintro ⟨Dl2, ⟨%Wl2, HO⟩⟩
  iapply (xyHi_spec m K c 3 7 rfl 33 34 (xrs 7) (yrs 7) (fys 3) (fyr 3) rfl rfl rfl rfl _ (dev34_eq c) _ (off5_eq c 3) fy _
      (Orem_at c 33 _ _ rfl) (mayWait_xrs c 7 33 (by decide)) (mayWait_yrs c 7 34 (by decide))) $$ [Hh3 HO]
  · iframe # ∗
  iintro ⟨Dh3, ⟨%Wh3, HO⟩⟩
  iapply (xyLo_spec m K c 3 3 rfl 34 35 (xrs 3) (yrs 3) (fxs 3) (fxr 3) rfl rfl rfl rfl _ (dev35_eq c) _ (off6_eq c 3) fx _
      (Orem_at c 34 _ _ rfl) (mayWait_xrs c 3 34 (by decide)) (mayWait_yrs c 3 34 (by decide))) $$ [Hl3 HO]
  · iframe # ∗
  iintro ⟨Dl3, ⟨%Wl3, HO⟩⟩
  ihave HXhd : (bigSep Finset.univ fun r : Fin 4 => XYdoneHi m c r) $$ [Dh0 Dh1 Dh2 Dh3]
  · rw [bigSep_fin4]; iframe
  ihave HXld : (bigSep Finset.univ fun r : Fin 4 => XYdoneLo m c r) $$ [Dl0 Dl1 Dl2 Dl3]
  · rw [bigSep_fin4]; iframe
  ihave HD' := (Entails.of_eq (bigSep_fin4 _)) $$ HD
  icases HD' with ⟨D0, D1, D2, D3⟩
  iapply (d_spec m K c 0 (fxr 0) (fyr 0) rfl rfl _) $$ [D0 HO]
  · iframe # ∗
  iintro ⟨E0, ⟨%Wd0, HO⟩⟩
  iapply (d_spec m K c 1 (fxr 1) (fyr 1) rfl rfl _) $$ [D1 HO]
  · iframe # ∗
  iintro ⟨E1, ⟨%Wd1, HO⟩⟩
  iapply (d_spec m K c 2 (fxr 2) (fyr 2) rfl rfl _) $$ [D2 HO]
  · iframe # ∗
  iintro ⟨E2, ⟨%Wd2, HO⟩⟩
  iapply (d_spec m K c 3 (fxr 3) (fyr 3) rfl rfl _) $$ [D3 HO]
  · iframe # ∗
  iintro ⟨E3, ⟨%Wd3, HO⟩⟩
  ihave HDd : (bigSep Finset.univ fun r : Fin 4 => Ddone m c r) $$ [E0 E1 E2 E3]
  · rw [bigSep_fin4]; iframe
  ihave HWI := (waits_intro m c) $$ [HZs Hpz HRs Hpx Hpy HXhd HXld Hpfy Hpfx]
  · iframe
  icases HWI with ⟨⟨HwZ, HwX, HwY, HwH, HwL⟩, HsZr, HsHi, HsLo⟩
  ihave HwZ' := (Entails.of_eq (bigSep_fin8 _)) $$ HwZ
  icases HwZ' with ⟨⟨Zs0, Zp0⟩, ⟨Zs1, Zp1⟩, ⟨Zs2, Zp2⟩, ⟨Zs3, Zp3⟩, ⟨Zs4, Zp4⟩, ⟨Zs5, Zp5⟩, ⟨Zs6, Zp6⟩, ⟨Zs7, Zp7⟩⟩
  ihave HwX' := (Entails.of_eq (bigSep_fin8 _)) $$ HwX
  icases HwX' with ⟨⟨Xs0, Xp0⟩, ⟨Xs1, Xp1⟩, ⟨Xs2, Xp2⟩, ⟨Xs3, Xp3⟩, ⟨Xs4, Xp4⟩, ⟨Xs5, Xp5⟩, ⟨Xs6, Xp6⟩, ⟨Xs7, Xp7⟩⟩
  ihave HwY' := (Entails.of_eq (bigSep_fin8 _)) $$ HwY
  icases HwY' with ⟨⟨Ys0, Yp0⟩, ⟨Ys1, Yp1⟩, ⟨Ys2, Yp2⟩, ⟨Ys3, Yp3⟩, ⟨Ys4, Yp4⟩, ⟨Ys5, Yp5⟩, ⟨Ys6, Yp6⟩, ⟨Ys7, Yp7⟩⟩
  ihave HwH' := (Entails.of_eq (bigSep_fin4 _)) $$ HwH
  icases HwH' with ⟨⟨Hs0, Hp0⟩, ⟨Hs1, Hp1⟩, ⟨Hs2, Hp2⟩, ⟨Hs3, Hp3⟩⟩
  ihave HwL' := (Entails.of_eq (bigSep_fin4 _)) $$ HwL
  icases HwL' with ⟨⟨Ls0, Lp0⟩, ⟨Ls1, Lp1⟩, ⟨Ls2, Lp2⟩, ⟨Ls3, Lp3⟩⟩
  unfold Zsent
  iapply (wait_done m K c (zss 4) (by decide) (payDma_zss m c 4) _) $$ [Zs4 Zp4 HO]
  · iframe # ∗
  iintro ⟨Bz4, Bzs4, ⟨%Ww0, HO⟩⟩
  iapply (wait_done m K c (zss 0) (by decide) (payDma_zss m c 0) _) $$ [Zs0 Zp0 HO]
  · iframe # ∗
  iintro ⟨Bz0, Bzs0, ⟨%Ww1, HO⟩⟩
  iapply (wait_done m K c (zss 5) (by decide) (payDma_zss m c 5) _) $$ [Zs5 Zp5 HO]
  · iframe # ∗
  iintro ⟨Bz5, Bzs5, ⟨%Ww2, HO⟩⟩
  iapply (wait_done m K c (zss 1) (by decide) (payDma_zss m c 1) _) $$ [Zs1 Zp1 HO]
  · iframe # ∗
  iintro ⟨Bz1, Bzs1, ⟨%Ww3, HO⟩⟩
  iapply (wait_done m K c (zss 6) (by decide) (payDma_zss m c 6) _) $$ [Zs6 Zp6 HO]
  · iframe # ∗
  iintro ⟨Bz6, Bzs6, ⟨%Ww4, HO⟩⟩
  iapply (wait_done m K c (zss 2) (by decide) (payDma_zss m c 2) _) $$ [Zs2 Zp2 HO]
  · iframe # ∗
  iintro ⟨Bz2, Bzs2, ⟨%Ww5, HO⟩⟩
  iapply (wait_done m K c (zss 7) (by decide) (payDma_zss m c 7) _) $$ [Zs7 Zp7 HO]
  · iframe # ∗
  iintro ⟨Bz7, Bzs7, ⟨%Ww6, HO⟩⟩
  iapply (wait_done m K c (zss 3) (by decide) (payDma_zss m c 3) _) $$ [Zs3 Zp3 HO]
  · iframe # ∗
  iintro ⟨Bz3, Bzs3, ⟨%Ww7, HO⟩⟩
  iapply (wait_done m K c (xss 4) (by decide) (payDma_xss m c 4) _) $$ [Xs4 Xp4 HO]
  · iframe # ∗
  iintro ⟨BXo4, BXv4, ⟨%Ww8, HO⟩⟩
  iapply (wait_done m K c (xss 0) (by decide) (payDma_xss m c 0) _) $$ [Xs0 Xp0 HO]
  · iframe # ∗
  iintro ⟨BXo0, BXv0, ⟨%Ww9, HO⟩⟩
  iapply (wait_done m K c (xss 5) (by decide) (payDma_xss m c 5) _) $$ [Xs5 Xp5 HO]
  · iframe # ∗
  iintro ⟨BXo5, BXv5, ⟨%Ww10, HO⟩⟩
  iapply (wait_done m K c (xss 1) (by decide) (payDma_xss m c 1) _) $$ [Xs1 Xp1 HO]
  · iframe # ∗
  iintro ⟨BXo1, BXv1, ⟨%Ww11, HO⟩⟩
  iapply (wait_done m K c (xss 6) (by decide) (payDma_xss m c 6) _) $$ [Xs6 Xp6 HO]
  · iframe # ∗
  iintro ⟨BXo6, BXv6, ⟨%Ww12, HO⟩⟩
  iapply (wait_done m K c (xss 2) (by decide) (payDma_xss m c 2) _) $$ [Xs2 Xp2 HO]
  · iframe # ∗
  iintro ⟨BXo2, BXv2, ⟨%Ww13, HO⟩⟩
  iapply (wait_done m K c (xss 7) (by decide) (payDma_xss m c 7) _) $$ [Xs7 Xp7 HO]
  · iframe # ∗
  iintro ⟨BXo7, BXv7, ⟨%Ww14, HO⟩⟩
  iapply (wait_done m K c (xss 3) (by decide) (payDma_xss m c 3) _) $$ [Xs3 Xp3 HO]
  · iframe # ∗
  iintro ⟨BXo3, BXv3, ⟨%Ww15, HO⟩⟩
  iapply (wait_done m K c (yss 4) (by decide) (payDma_yss m c 4) _) $$ [Ys4 Yp4 HO]
  · iframe # ∗
  iintro ⟨BYo4, BYv4, ⟨%Ww16, HO⟩⟩
  iapply (wait_done m K c (yss 0) (by decide) (payDma_yss m c 0) _) $$ [Ys0 Yp0 HO]
  · iframe # ∗
  iintro ⟨BYo0, BYv0, ⟨%Ww17, HO⟩⟩
  iapply (wait_done m K c (yss 5) (by decide) (payDma_yss m c 5) _) $$ [Ys5 Yp5 HO]
  · iframe # ∗
  iintro ⟨BYo5, BYv5, ⟨%Ww18, HO⟩⟩
  iapply (wait_done m K c (yss 1) (by decide) (payDma_yss m c 1) _) $$ [Ys1 Yp1 HO]
  · iframe # ∗
  iintro ⟨BYo1, BYv1, ⟨%Ww19, HO⟩⟩
  iapply (wait_done m K c (yss 6) (by decide) (payDma_yss m c 6) _) $$ [Ys6 Yp6 HO]
  · iframe # ∗
  iintro ⟨BYo6, BYv6, ⟨%Ww20, HO⟩⟩
  iapply (wait_done m K c (yss 2) (by decide) (payDma_yss m c 2) _) $$ [Ys2 Yp2 HO]
  · iframe # ∗
  iintro ⟨BYo2, BYv2, ⟨%Ww21, HO⟩⟩
  iapply (wait_done m K c (yss 7) (by decide) (payDma_yss m c 7) _) $$ [Ys7 Yp7 HO]
  · iframe # ∗
  iintro ⟨BYo7, BYv7, ⟨%Ww22, HO⟩⟩
  iapply (wait_done m K c (yss 3) (by decide) (payDma_yss m c 3) _) $$ [Ys3 Yp3 HO]
  · iframe # ∗
  iintro ⟨BYo3, BYv3, ⟨%Ww23, HO⟩⟩
  iapply (wait_done m K c (fys 0) (by decide) (payDma_fys m c 0) _) $$ [Hs0 Hp0 HO]
  · iframe # ∗
  iintro ⟨BH0, BHs0, ⟨%Ww24, HO⟩⟩
  iapply (wait_done m K c (fxs 0) (by decide) (payDma_fxs m c 0) _) $$ [Ls0 Lp0 HO]
  · iframe # ∗
  iintro ⟨BL0, BLs0, ⟨%Ww25, HO⟩⟩
  iapply (wait_done m K c (fys 1) (by decide) (payDma_fys m c 1) _) $$ [Hs1 Hp1 HO]
  · iframe # ∗
  iintro ⟨BH1, BHs1, ⟨%Ww26, HO⟩⟩
  iapply (wait_done m K c (fxs 1) (by decide) (payDma_fxs m c 1) _) $$ [Ls1 Lp1 HO]
  · iframe # ∗
  iintro ⟨BL1, BLs1, ⟨%Ww27, HO⟩⟩
  iapply (wait_done m K c (fys 2) (by decide) (payDma_fys m c 2) _) $$ [Hs2 Hp2 HO]
  · iframe # ∗
  iintro ⟨BH2, BHs2, ⟨%Ww28, HO⟩⟩
  iapply (wait_done m K c (fxs 2) (by decide) (payDma_fxs m c 2) _) $$ [Ls2 Lp2 HO]
  · iframe # ∗
  iintro ⟨BL2, BLs2, ⟨%Ww29, HO⟩⟩
  iapply (wait_done m K c (fys 3) (by decide) (payDma_fys m c 3) _) $$ [Hs3 Hp3 HO]
  · iframe # ∗
  iintro ⟨BH3, BHs3, ⟨%Ww30, HO⟩⟩
  iapply (wait_done m K c (fxs 3) (by decide) (payDma_fxs m c 3) _) $$ [Ls3 Lp3 HO]
  · iframe # ∗
  iintro ⟨BL3, BLs3, ⟨%Ww31, HO⟩⟩
  ihave HZb : (bigSep Finset.univ fun k : Fin 8 => Zback m c k) $$ [Bz0 Bz1 Bz2 Bz3 Bz4 Bz5 Bz6 Bz7 Bzs0 Bzs1 Bzs2 Bzs3 Bzs4 Bzs5 Bzs6 Bzs7]
  · rw [bigSep_fin8]; unfold Zback; iframe
  ihave HXb : (bigSep Finset.univ fun k : Fin 8 => iprop(oPts c c k fullShare.left (OUTv m c) ∗ semVal (dcell c (xss k)) 0)) $$ [BXo0 BXo1 BXo2 BXo3 BXo4 BXo5 BXo6 BXo7 BXv0 BXv1 BXv2 BXv3 BXv4 BXv5 BXv6 BXv7]
  · rw [bigSep_fin8]; iframe
  ihave HYb : (bigSep Finset.univ fun k : Fin 8 => iprop(oPts c c k fullShare.right (OUTv m c) ∗ semVal (dcell c (yss k)) 0)) $$ [BYo0 BYo1 BYo2 BYo3 BYo4 BYo5 BYo6 BYo7 BYv0 BYv1 BYv2 BYv3 BYv4 BYv5 BYv6 BYv7]
  · rw [bigSep_fin8]; iframe
  ihave HFh : (bigSep Finset.univ fun r : Fin 4 => FbackHi m c r) $$ [BH0 BH1 BH2 BH3 BHs0 BHs1 BHs2 BHs3]
  · rw [bigSep_fin4]; unfold FbackHi; iframe
  ihave HFl : (bigSep Finset.univ fun r : Fin 4 => FbackLo m c r) $$ [BL0 BL1 BL2 BL3 BLs0 BLs1 BLs2 BLs3]
  · rw [bigSep_fin4]; unfold FbackLo; iframe
  rw [wp_ret]; imodintro
  iapply Hk
  unfold bodyPost
  ihave HRb := (rback_intro m c) $$ [HXb HYb]
  · iframe # ∗
  ihave HP := (post_intro m c) $$ [HZb HsZr HRb HsHi HsLo HFh HFl HDd]
  · iframe # ∗
  icases HP with ⟨HΦ, Hout2⟩
  isplitl [HΦ]; · iexact HΦ
  isplitl [HO]
  · unfold Dat.owesAt Pipeline.owesWithin
    rw [show (dats m 0 c).owed t0_0.succ = 0 from rfl]
    iexists Ww31
    isplitr; · ipureintro; exact fun _ _ => Or.inl trivial
    ihave HO' := (Entails.of_eq (congrArg (fun O => (owes (c : Thread nD τ) O Ww31 : sProp 𝕄)) (Orem_end c))) $$ HO
    iexact HO'
  isplitl [Hx1]
  · iexists _; isplitr; · (ipureintro; rfl)
    ihave Hx2 := (Entails.of_eq (xPts_eq m c)) $$ Hx1
    iexact Hx2
  iexists _; isplitr; · (ipureintro; rfl)
  iexact Hout2

set_option maxRecDepth 4000 in
def bodyPre' (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

set_option maxRecDepth 65536 in
set_option maxHeartbeats 8000000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7 cc0_scratch8 cc0_scratch9 cc0_scratch10 cc0_scratch11) (fun _ => bodyPost m c)
  unfold bodyPre' Φ₀ start
  iintro ⟨⟨⟨⟨%K, Hg⟩, Hcr, Hlev⟩, Hzs, Hzr⟩, Ho, Hx, Hout⟩
  iapply (sound_body m K c fun _ => bodyPost m c)
  unfold bodyPre
  isplitr []
  · isplitl [Hg Hcr Hlev Hzs Hzr]
    · iframe # ∗
    isplitl [Ho]; · iexact Ho
    isplitl [Hx] <;> iassumption
  · iintro H; iexact H

end Cert.Kernel.RS

end
-- ==== Proof.Bits.Launch.lean ====
import proofs.«901029_g7700000000001030_dist_rs_v7x_xyz2x2x2_z_m2048_n512_bf16_1_alg».proof.Proof.Bits.Alloc
import proofs.«901029_g7700000000001030_dist_rs_v7x_xyz2x2x2_z_m2048_n512_bf16_1_alg».proof.Proof.Bits.Levels
import proofs.«901029_g7700000000001030_dist_rs_v7x_xyz2x2x2_z_m2048_n512_bf16_1_alg».proof.Proof.Bits.Credit
import proofs.«901029_g7700000000001030_dist_rs_v7x_xyz2x2x2_z_m2048_n512_bf16_1_alg».proof.Proof.Bits.Tables
import proofs.«901029_g7700000000001030_dist_rs_v7x_xyz2x2x2_z_m2048_n512_bf16_1_alg».proof.Proof.Bits.BodyOb
import proofs.«901029_g7700000000001030_dist_rs_v7x_xyz2x2x2_z_m2048_n512_bf16_1_alg».proof.Proof.Gen.Kernel.Frame
import proofs.«901029_g7700000000001030_dist_rs_v7x_xyz2x2x2_z_m2048_n512_bf16_1_alg».proof.Proof.Gen.Kernel.Launch

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats (F := F) m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d : Dev nD => Orem d 0) c ∗ prngReg c (ρ c) ∗ G' m c)
      ⊢ |={Set.univ}=> iprop(start (F := F) m c ∗ emp) := by
  iintro ⟨-, Hlev, Hcr, -, HG⟩
  ihave Hc := (creds_of_launch (F := F) c) $$ Hcr
  imodintro
  unfold start G'
  isplitl
  · iframe # ∗
  · iempintro

theorem phi0_intro (c : Dev nD) :
    iprop(start m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold Φ₀
  iintro ⟨Hs, -, ⟨Hr0, Hr1⟩⟩
  iframe # ∗

theorem phi1_exit (c : Dev nD) :
    (dats (F := F) m 0 c).Φ (Fin.last cfg0.N) ⊢ iprop(emp ∗ Pipeline.ownSems0 osem c ∗ Pipeline.scopedRest cfg0.spec c) := by
  rw [show (dats (F := F) m 0 c).Φ (Fin.last cfg0.N) = Φ₁ m c from rfl, scopedRest0_eq, ownSems0_eq]
  unfold Φ₁
  iintro ⟨Hr0, Hr1, Hz⟩
  isplitr; · iempintro
  isplitl [Hz]; · iexact Hz
  isplitl [Hr0]
  · iexists (ZSv m c); iexact Hr0
  · iexists (ZRv m c); iexact Hr1

theorem stage_sem_lt (w : Fin cfg0.W) (s : Fin (cfg0.win w).nbuf) : ((cfg0.win w).sem s).val < 2 := by
  have hw : w = 0 ∨ w = 1 := by
    obtain ⟨w, hw⟩ := w
    have : w < 2 := hw
    rcases Nat.lt_succ_iff_lt_or_eq.mp this with h | h
    · left; exact Fin.ext (by show w = 0; omega)
    · right; exact Fin.ext (by show w = 1; omega)
  rcases hw with rfl | rfl
  · show (0 : ℕ) < 2; decide
  · show (1 : ℕ) < 2; decide

theorem owed_cases (c : Dev nD) (t : Fin (cfg0.N + 1)) :
    (dats (F := F) m 0 c).owed t = Orem c 0 ∨ (dats (F := F) m 0 c).owed t = 0 := by
  rcases t with ⟨_ | _, ht⟩
  · exact Or.inl rfl
  · exact Or.inr rfl

theorem waits (c : Dev nD) : (levAts L lv : sProp 𝕄) ⊢ Pipeline.cellsWaits cfgs (dats (F := F) m) () 0 c :=
  Pipeline.cellsWaits_intro cfgs (dats (F := F) m) () 0 c fun w s t =>
    mayWait_stage c _ (stage_sem_lt w s) _ (owed_cases m c t)

def finalA (c : Dev nD) (w : Fin cfg0.W) : Buf (Elt F) ((cfg0.win w).arr.view.loc (c : Thread nD τ)) := (dats (F := F) m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

-- The launch theorem over the per-device body proof: every fair run ends with each device's arrays at their named final contents.
set_option maxRecDepth 32768 in
theorem run_main : θ_run defs (onTc (τ := τ) (main (F := F))) (s₀ m ρ) (QC m) :=
  Pipeline.θ_run_region_owing_glob_pf (fun p => (cfgs p).toPCfg) (fun p => (cfgs p).toPCfg_adm) (dats (F := F) m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun c => Orem c 0) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA (F := F) m c (0 : Fin 2) = m ((c : Thread nD τ).loc main_arg0) :=
  (dats (F := F) m 0 c).arrAt_in (0 : Fin 2) rfl _

theorem read_out_blk (c : Dev nD) (G : Buf (Elt F) ((cfg0.win (1 : Fin 2)).arr.view.loc (c : Thread nD τ))) :
    ((cfg0.win (1 : Fin 2)).blk t0_0).view.read (Elt F) G = G :=
  Memref.read_access_unit_zero (Elt F) main_v1 (off := fun a => 0 * S2048x512.size a) (funext fun a => Nat.zero_mul _) _ G

section Out
attribute [local irreducible] OUTv

theorem after_out (c : Dev nD) : (dats (F := F) m 0 c).after (1 : Fin 2) t0_0 = OUTv m c := rfl

theorem flushed_out (c : Dev nD) : (dats (F := F) m 0 c).flushed (1 : Fin 2) t0_0 = OUTv m c := by
  show (cfg0.win (1 : Fin 2)).cut (cfg0.grid.coords t0_0) ((dats (F := F) m 0 c).after (1 : Fin 2) t0_0) = OUTv m c
  rw [after_out]
  funext j
  exact congrArg (OUTv m c) (funext fun a => Fin.ext rfl)

theorem finalA_out (c : Dev nD) : finalA (F := F) m c (1 : Fin 2) = OUTv m c := by
  unfold finalA
  show (dats (F := F) m 0 c).arrAt (1 : Fin 2) ((t0_0 : Fin cfg0.N).val + 1) = _
  rw [Dat.arrAt_succ, flush0_1, if_pos rfl]
  exact ((read_out_blk c _).symm.trans (View.read_write_univ _ _)).trans (flushed_out m c)

end Out

/-- info: 'Cert.Kernel.RS.run_main' depends on axioms: [propext, Classical.choice, Quot.sound] -/
#guard_msgs in #print axioms run_main

end Cert.Kernel.RS

end
-- ==== Proof.RefVal.lean ====
import proofs.«901029_g7700000000001030_dist_rs_v7x_xyz2x2x2_z_m2048_n512_bf16_1_alg».proof.Proof.Sched
import proofs.«901029_g7700000000001030_dist_rs_v7x_xyz2x2x2_z_m2048_n512_bf16_1_alg».proof.Proof.Gen.ReferenceIdeal.Run
import proofs.«901029_g7700000000001030_dist_rs_v7x_xyz2x2x2_z_m2048_n512_bf16_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws

noncomputable section

namespace Cert.RefValue

open Cert.KernelIdeal Cert.KernelIdeal.Gen Cert.KernelIdeal.RS
open Idealize.ShloMosaic Idealize.ShloMosaic.TcCoe
open Idealize.SL.Sem
open Idealize.ShloMosaic.ValueIdx

section Gen
variable {sig' : RefSig} {κ : Kind} {Val : EltTy → Type}

theorem readAt_unit_apply (b : Ref sig' κ) (off size : Fin b.ty.shape.rank → Nat)
    (inb : ∀ a, off a + size a ≤ b.ty.shape.size a) (f : b.ty.Contents Val)
    (x : (Rect.unit off size inb).shape.Idx) (j : b.ty.shape.Idx) (hj : ∀ a, (j a).val = off a + (x a).val) :
    (View.whole b).readAt Val (Rect.unit off size inb).toLoadRect f x = f j := by
  have e : (Rect.unit off size inb).toLoadRect.idx x = j := by
    funext a; apply Fin.ext
    show off a + 1 * (x a).val = (j a).val
    rw [hj a, Nat.one_mul]
  show f ((Rect.unit off size inb).toLoadRect.idx x) = f j
  rw [e]

theorem write_unit_apply (b : Ref sig' κ) (off size : Fin b.ty.shape.rank → Nat)
    (inb : ∀ a, off a + size a ≤ b.ty.shape.size a) (f : b.ty.Contents Val)
    (w : (Rect.unit off size inb).shape.Idx → Val b.ty.elt)
    (i : b.ty.shape.Idx) (y : (Rect.unit off size inb).shape.Idx) (hy : ∀ a, (i a).val = off a + (y a).val) :
    ((View.whole b).slice (Rect.unit off size inb)).write Val f w Finset.univ i = w y := by
  have e : ((View.whole b).slice (Rect.unit off size inb)).emb y = i := by
    funext a; apply Fin.ext
    rw [View.emb_slice, Function.Embedding.trans_apply, View.emb_whole, Function.Embedding.refl_apply, Rect.emb_apply]
    show off a + 1 * (y a).val = (i a).val
    rw [hy a, Nat.one_mul]
  conv_lhs => rw [← e, View.write_emb_of_mem _ _ (Finset.mem_univ _)]
  rfl

end Gen

def gx (x' : (⟨Cert.ReferenceIdeal.S2x2048x1024, .f32⟩ : BufTy).Contents (Elt Ideal)) (a b c : ℕ) : EReal :=
  if h : a < 2 ∧ b < 2048 ∧ c < 1024 then
    x' (ix3 (n0 := 2) (n1 := 2048) (n2 := 1024) ⟨a, h.1⟩ ⟨b, h.2.1⟩ ⟨c, h.2.2⟩) else 0

theorem x_eq_gx (x' : (⟨Cert.ReferenceIdeal.S2x2048x1024, .f32⟩ : BufTy).Contents (Elt Ideal))
    (J : Cert.ReferenceIdeal.S2x2048x1024.Idx) : x' J = gx x' (J 0).val (J 1).val (J 2).val := by
  unfold gx
  rw [dif_pos ⟨(J 0).isLt, (J 1).isLt, (J 2).isLt⟩]
  exact congrArg x' (eq_ix3 (n0 := 2) (n1 := 2048) (n2 := 1024) J)

theorem meshLin_z : ∀ c : Dev nD, Layout.meshLin [2, 2, 2] c.val [2] = c.val % 2 := by decide

section
variable (m : (ℓ : Loc nD τ sig) → Buf (Elt Ideal) ℓ)
  (x' : (⟨Cert.ReferenceIdeal.S2x2048x1024, .f32⟩ : BufTy).Contents (Elt Ideal))
  (hagree : ∀ c : Dev nD,
      m ((c.tc : Thread nD τ).loc main_arg0)
        = Layout.blockN ⟨3, ![1, 2048, 1024]⟩ ⟨3, ![2, 2048, 1024]⟩ (Layout.meshBlock [2, 2, 2] ![[2], [], []] c) x')
include hagree

theorem X_apply (c : Dev nD) (j : S1x2048x1024.Idx) :
    X (F := Ideal) m c j = gx x' (c.val % 2) (j 1).val (j 2).val := by
  have hm := hagree c
  show (m ((c.tc : Thread nD τ).loc main_arg0)) ((win0_0.blk (0 : Fin 1)).view.emb j) = _
  rw [hm, Layout.blockN_apply, x_eq_gx x']
  simp only [Layout.TilesN.idx_val, Layout.meshBlock_val]
  have h0 : (j 0).val = 0 := by
    have : (j 0).val < 1 := (j 0).isLt
    omega
  congr 1
  · show Layout.meshLin [2, 2, 2] c.val [2] * 1 + (0 * 1 + 1 * (j 0).val) = c.val % 2
    rw [meshLin_z, h0]; omega
  · show 0 * 2048 + (0 * 2048 + 1 * (j 1).val) = (j 1).val
    omega
  · show 0 * 1024 + (0 * 1024 + 1 * (j 2).val) = (j 2).val
    omega

theorem ZSv_apply (e : Dev nD) (i : S512x512.Idx) :
    ZSv (F := Ideal) m e i = gx x' (e.val % 2) (rme e + (i 0).val) (512 - 512 * (e.val % 2) + (i 1).val) := by
  have hr : (i 0).val < 512 := (i 0).isLt
  have hc : (i 1).val < 512 := (i 1).isLt
  have hrm := rme_lt e
  have hz : e.val % 2 < 2 := Nat.mod_lt _ (by decide)
  let y : S64x512.Idx := ix2 (n0 := 64) (n1 := 512) ⟨(i 0).val % 64, Nat.mod_lt _ (by decide)⟩ ⟨(i 1).val, hc⟩
  unfold ZSv
  refine Eq.trans (write_unit_apply (b := cc0_scratch0) (zoff (zchunkOf i)) S64x512.size (zoff_inb _) _ _ i y ?_) ?_
  · refine Fin.forall_fin_two.mpr ⟨?_, ?_⟩
    · show (i 0).val = 64 * ((i 0).val / 64) + (i 0).val % 64
      omega
    · show (i 1).val = 0 + (i 1).val
      omega
  unfold zpay
  rw [shapeCast_self]
  show shapeCast S64x512 (xM.view.readAt (Elt Ideal) (sendRect e (zchunkOf i)).toLoadRect (X m e)) shapeCasts_S1x64x512_S64x512 y = _
  refine Eq.trans (shapeCast_dropUnit_apply (n := 2) ![64, 512] _ _ y) ?_
  have hb1 : rme e + (i 0).val < 2048 := by omega
  have hb2 : 512 - 512 * (e.val % 2) + (i 1).val < 1024 := by omega
  let j : S1x2048x1024.Idx := ix3 (n0 := 1) (n1 := 2048) (n2 := 1024) ⟨0, Nat.one_pos⟩
    ⟨rme e + (i 0).val, hb1⟩ ⟨512 - 512 * (e.val % 2) + (i 1).val, hb2⟩
  have hp' : ∀ a, sendoff e (zchunkOf i) a + S1x64x512.size a ≤ S1x2048x1024.size a := by
    rw [← off1_eq e (zchunkOf i)]; exact k0_off1_inb e (zchunkOf i)
  refine Eq.trans (congrFun (View.readAt_unit_congr xM.view (off1_eq e (zchunkOf i)) (k0_off1_inb e _) hp' (X m e)) _) ?_
  refine Eq.trans (readAt_unit_apply (b := cc0_stg0_0) (sendoff e (zchunkOf i)) S1x64x512.size hp' (X m e) _ j ?_) ?_
  · intro a
    match a with
    | ⟨0, _⟩ => rfl
    | ⟨1, _⟩ =>
      show rme e + (i 0).val = (rme e + 64 * ((i 0).val / 64)) + (i 0).val % 64
      omega
    | ⟨2, _⟩ => rfl
  exact X_apply m x' hagree e j

theorem Sv_apply (d : Dev nD) (k : Fin 8) (i : S2048x512.Idx)
    (hlo : rme d + 64 * k.val ≤ (i 0).val) (hhi : (i 0).val < rme d + 64 * k.val + 64) :
    Sv (F := Ideal) m d k i
      = gx x' (d.val % 2) (i 0).val (512 * (d.val % 2) + (i 1).val)
        + gx x' (1 - d.val % 2) (i 0).val (512 * (d.val % 2) + (i 1).val) := by
  have hc : (i 1).val < 512 := (i 1).isLt
  have hr : (i 0).val < 2048 := (i 0).isLt
  have hk : k.val < 8 := k.isLt
  have hz : d.val % 2 < 2 := Nat.mod_lt _ (by decide)
  let y : S64x512.Idx := ix2 (n0 := 64) (n1 := 512) ⟨(i 0).val - (rme d + 64 * k.val), by omega⟩ ⟨(i 1).val, hc⟩
  unfold Sv
  refine Eq.trans (write_unit_apply (b := cc0_stg1_0) (ooff d k) S64x512.size (ooff_inb d k) _ _ i y ?_) ?_
  · refine Fin.forall_fin_two.mpr ⟨?_, ?_⟩
    · show (i 0).val = (rme d + 64 * k.val) + ((i 0).val - (rme d + 64 * k.val))
      omega
    · show (i 1).val = 0 + (i 1).val
      omega
  unfold rpay
  rw [truncf_apply, addf_apply, extf_apply]
  have hrm := rme_lt d
  congr 1
  · refine Eq.trans (shapeCast_dropUnit_apply (n := 2) ![64, 512] _ _ y) ?_
    have hb2 : 512 * (d.val % 2) + (i 1).val < 1024 := by omega
    let j : S1x2048x1024.Idx := ix3 (n0 := 1) (n1 := 2048) (n2 := 1024) ⟨0, Nat.one_pos⟩
      ⟨(i 0).val, hr⟩ ⟨512 * (d.val % 2) + (i 1).val, hb2⟩
    have hp' : ∀ a, keepoff d k a + S1x64x512.size a ≤ S1x2048x1024.size a := by
      rw [← off2_eq d k]; exact k0_off2_inb d k
    refine Eq.trans (congrFun (View.readAt_unit_congr xM.view (off2_eq d k) (k0_off2_inb d k) hp' (X m d)) _) ?_
    refine Eq.trans (readAt_unit_apply (b := cc0_stg0_0) (keepoff d k) S1x64x512.size hp' (X m d) _ j ?_) ?_
    · intro a
      match a with
      | ⟨0, _⟩ => rfl
      | ⟨1, _⟩ =>
        show (i 0).val = (rme d + 64 * k.val) + ((i 0).val - (rme d + 64 * k.val))
        omega
      | ⟨2, _⟩ => rfl
    exact X_apply m x' hagree d j
  · have hb1 : 64 * k.val + ((i 0).val - (rme d + 64 * k.val)) < 512 := by omega
    let j2 : S512x512.Idx := ix2 (n0 := 512) (n1 := 512) ⟨64 * k.val + ((i 0).val - (rme d + 64 * k.val)), hb1⟩ ⟨(i 1).val, hc⟩
    refine Eq.trans (readAt_unit_apply (b := cc0_scratch1) (zoff k) S64x512.size (zoff_inb k) (ZRv m d) y j2 ?_) ?_
    · refine Fin.forall_fin_two.mpr ⟨rfl, ?_⟩
      show (i 1).val = 0 + (i 1).val
      omega
    show ZSv m (zp d) j2 = _
    rw [ZSv_apply m x' hagree (zp d) j2, z_zp, rme_zp]
    show gx x' (1 - d.val % 2) (rme d + (64 * k.val + ((i 0).val - (rme d + 64 * k.val)))) (512 - 512 * (1 - d.val % 2) + (i 1).val) = _
    congr 1 <;> omega
end

theorem owner_facts (z : ℕ) (i : S2048x512.Idx) :
    (ownerOf z i).val % 2 = z % 2
      ∧ rme (ownerOf z i) + 64 * (ochunkOf i).val ≤ (i 0).val
      ∧ (i 0).val < rme (ownerOf z i) + 64 * (ochunkOf i).val + 64 := by
  have hr : (i 0).val < 2048 := (i 0).isLt
  unfold rme ownerOf ochunkOf
  dsimp only
  omega

theorem ref_apply (x' : (⟨Cert.ReferenceIdeal.S2x2048x1024, .f32⟩ : BufTy).Contents (Elt Ideal))
    (I : Cert.ReferenceIdeal.S2048x1024.Idx) :
    Cert.ReferenceIdeal.Read.val_main_v1 (F := Ideal) x' I
      = gx x' 0 (I 0).val (I 1).val + gx x' 1 (I 0).val (I 1).val := by
  rw [Cert.ReferenceIdeal.Read.val_main_v1_apply]
  show Cert.ReferenceIdeal.Read.val_main_v0 (F := Ideal) x' I = _
  rw [Cert.ReferenceIdeal.Read.val_main_v0_apply, Cert.ReferenceIdeal.Read.val_main_cst_apply, Fin.sum_univ_two,
    x_eq_gx x', x_eq_gx x']
  show Ideal.ofBits .f32 0x00000000#32 + _ = _
  rw [Ideal.ofBits_zero_f32, zero_add]
  rfl

-- Each device's result is its block of the sum of the two input blocks: the owner of a row added them, in one order or the other.
theorem out_block
    (m : (ℓ : Loc Cert.KernelIdeal.nD Cert.KernelIdeal.τ Cert.KernelIdeal.sig) → Buf (Elt Ideal) ℓ)
    (x' : (⟨Cert.ReferenceIdeal.S2x2048x1024, .f32⟩ : BufTy).Contents (Elt Ideal))
    (hagree : ∀ c : Dev Cert.KernelIdeal.nD,
      m ((c.tc : Thread Cert.KernelIdeal.nD Cert.KernelIdeal.τ).loc Cert.KernelIdeal.main_arg0)
        = Layout.blockN ⟨3, ![1, 2048, 1024]⟩ ⟨3, ![2, 2048, 1024]⟩ (Layout.meshBlock [2, 2, 2] ![[2], [], []] c) x')
    (c : Dev Cert.KernelIdeal.nD) :
    Cert.KernelIdeal.RS.OUTv (F := Ideal) m c
      = Layout.blockN ⟨2, ![2048, 512]⟩ ⟨2, ![2048, 1024]⟩ (Layout.meshBlock [2, 2, 2] ![[], [2]] c) (Cert.ReferenceIdeal.Read.val_main_v1 (F := Ideal) x') := by
  funext i
  obtain ⟨h1, h2, h3⟩ := owner_facts c.val i
  show Sv m (ownerOf c.val i) (ochunkOf i) i = _
  rw [Sv_apply m x' hagree _ _ i h2 h3, h1, Layout.blockN_apply, ref_apply]
  show _ = gx x' 0 (0 * 2048 + (i 0).val) (Layout.meshLin [2, 2, 2] c.val [2] * 512 + (i 1).val)
    + gx x' 1 (0 * 2048 + (i 0).val) (Layout.meshLin [2, 2, 2] c.val [2] * 512 + (i 1).val)
  rw [meshLin_z, Nat.zero_mul, Nat.zero_add, Nat.mul_comm (c.val % 2) 512]
  rcases Nat.mod_two_eq_zero_or_one c.val with h | h
  · rw [h]
  · rw [h]
    exact add_comm (G := EReal) _ _

/-- info: 'Cert.RefValue.out_block' depends on axioms: [propext, Classical.choice, Quot.sound] -/
#guard_msgs in #print axioms out_block

end Cert.RefValue

end
-- ==== Proof.lean ====
import proofs.«901029_g7700000000001030_dist_rs_v7x_xyz2x2x2_z_m2048_n512_bf16_1_alg».proof.Defs
import proofs.«901029_g7700000000001030_dist_rs_v7x_xyz2x2x2_z_m2048_n512_bf16_1_alg».proof.Proof.Gen.Kernel
import proofs.«901029_g7700000000001030_dist_rs_v7x_xyz2x2x2_z_m2048_n512_bf16_1_alg».proof.Proof.Gen.KernelIdeal
import proofs.«901029_g7700000000001030_dist_rs_v7x_xyz2x2x2_z_m2048_n512_bf16_1_alg».proof.Proof.Gen.ReferenceIdeal
import proofs.«901029_g7700000000001030_dist_rs_v7x_xyz2x2x2_z_m2048_n512_bf16_1_alg».proof.Proof.Gen.Pre_finite_inputs_Kernel
import proofs.«901029_g7700000000001030_dist_rs_v7x_xyz2x2x2_z_m2048_n512_bf16_1_alg».proof.Proof.Gen.Pre_finite_inputs_ReferenceIdeal
import proofs.«901029_g7700000000001030_dist_rs_v7x_xyz2x2x2_z_m2048_n512_bf16_1_alg».proof.Proof.Launch
import proofs.«901029_g7700000000001030_dist_rs_v7x_xyz2x2x2_z_m2048_n512_bf16_1_alg».proof.Proof.Bits.Launch
import proofs.«901029_g7700000000001030_dist_rs_v7x_xyz2x2x2_z_m2048_n512_bf16_1_alg».proof.Proof.RefVal
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs_Kernel := Cert.Pre_finite_inputs_Kernel.Gen.facts) := fun m ρ _ =>
  (θ_run (Cert.Kernel.defs (F := Bits)) _ _).mono (fun r h c => (h c 0).trans (Cert.Kernel.RS.finalA_x (F := Bits) m c))
    (Cert.Kernel.RS.run_main (F := Bits) m ρ)

theorem frame_ki : Cert.frame_KernelIdeal (hKernelIdeal := Cert.KernelIdeal.Gen.facts) (hPre_finite_inputs_Kernel := Cert.Pre_finite_inputs_Kernel.Gen.facts) := fun m ρ _ =>
  (θ_run (Cert.KernelIdeal.defs (F := Ideal)) _ _).mono (fun r h c => (h c 0).trans (Cert.KernelIdeal.RS.finalA_x (F := Ideal) m c))
    (Cert.KernelIdeal.RS.run_main (F := Ideal) m ρ)

theorem frame_ri : Cert.frame_ReferenceIdeal (hReferenceIdeal := Cert.ReferenceIdeal.Gen.facts) (hPre_finite_inputs_ReferenceIdeal := Cert.Pre_finite_inputs_ReferenceIdeal.Gen.facts) := fun m ρ _ =>
  (θ_run (Cert.ReferenceIdeal.defs (F := Ideal)) _ _).mono (fun _ h c => (h c).2) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m ρ m' ρ' _ hagree
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨?_, ?_⟩) (Cert.KernelIdeal.RS.run_main (F := Ideal) m ρ)
    · exact ((h c 1).trans (Cert.KernelIdeal.RS.finalA_out (F := Ideal) m c)).trans (Cert.RefValue.out_block m _ hagree c)
    · exact (h c 0).trans (Cert.KernelIdeal.RS.finalA_x (F := Ideal) m c)
  · exact (θ_run (Cert.ReferenceIdeal.defs (F := Ideal)) _ _).mono (fun r h => ⟨(h 0).1.trans (Cert.ReferenceIdeal.Read.val_main_v1_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
